-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x11 : Shape := ⟨2, ![50000, 11]⟩
abbrev S2x800000 : Shape := ⟨2, ![2, 800000]⟩
abbrev S800000x14 : Shape := ⟨2, ![800000, 14]⟩
abbrev S50000 : Shape := ⟨1, ![50000]⟩
abbrev S128x11 : Shape := ⟨2, ![128, 11]⟩
abbrev S128 : Shape := ⟨1, ![128]⟩
abbrev S128x14 : Shape := ⟨2, ![128, 14]⟩
abbrev S3x128x128 : Shape := ⟨3, ![3, 128, 128]⟩
abbrev S3x128 : Shape := ⟨2, ![3, 128]⟩
abbrev S128x128 : Shape := ⟨2, ![128, 128]⟩
abbrev S_ : Shape := ⟨0, ![]⟩

class Facts : Prop where
  bcast_S_S50000x11 : S_.BroadcastsInDim S50000x11 (![] : Fin 0 → Fin S50000x11.rank)
  reducesTo_S50000x11_S_d0_1 : S50000x11.ReducesTo [0, 1] S_
  h_S_ : 0 < S_.numel
  bcast_S_S800000x14 : S_.BroadcastsInDim S800000x14 (![] : Fin 0 → Fin S800000x14.rank)
  reducesTo_S800000x14_S_d0_1 : S800000x14.ReducesTo [0, 1] S_
  bcast_S_S128x11 : S_.BroadcastsInDim S128x11 (![] : Fin 0 → Fin S128x11.rank)
  reducesTo_S128x11_S_d0_1 : S128x11.ReducesTo [0, 1] S_
  bcast_S_S128 : S_.BroadcastsInDim S128 (![] : Fin 0 → Fin S128.rank)
  reducesTo_S128_S_d0 : S128.ReducesTo [0] S_
  bcast_S_S128x14 : S_.BroadcastsInDim S128x14 (![] : Fin 0 → Fin S128x14.rank)
  reducesTo_S128x14_S_d0_1 : S128x14.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg16 : FVec F S128x128 .f32) (main_arg17 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S3x128 .f32) (main_arg14 : FVec F S3x128x128 .f32) (main_arg15 : FVec F S3x128 .f32) (main_arg16 : FVec F S128x128 .f32) (main_arg17 : FVec F S128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128x128 .f32 := Host.absf main_arg14
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128 .f32 := Host.absf main_arg15
  let main_cst_24 : FVec F S_ .f32 := constant S_ .f32 0x7F800000#32
  let main_v65 : FVec F S3x128 .f32 := broadcastInDim S3x128 ![] bcast_S_S3x128 main_cst_24
  let main_v66 : IVec S3x128 1 := cmpf .olt main_v64 main_v65
  let main_c_25 : IVec S_ 1 := constantI S_ 1 1#1
  let main_v67 : IVec S_ 1 := (fun x v => Host.reduce IntOp.andi x v reducesTo_S3x128_S_d0_1 h_S_) main_v66 main_c_25
  fn_part4 (F := F) main_arg16 main_arg17 main_v63 main_v67

def fn_part2 {F : FTy → Type} [FloatOps F] (main_arg9 : FVec F S3x128 .f32) (main_arg10 : FVec F S3x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x128 .f32) (main_arg17 : FVec F S128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_v48 main_v49 main_v50

def fn_part1 {F : FTy → Type} [FloatOps F] (main_arg6 : FVec F S128x14 .f32) (main_arg7 : FVec F S128 .f32) (main_arg8 : FVec F S3x128x128 .f32) (main_arg9 : FVec F S3x128 .f32) (main_arg10 : FVec F S3x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x14 .f32 := Host.absf main_arg6
  let main_cst_6 : FVec F S_ .f32 := constant S_ .f32 0x7F800000#32
  let main_v20 : FVec F S128x14 .f32 := broadcastInDim S128x14 ![] bcast_S_S128x14 main_cst_6
  let main_v21 : IVec S128x14 1 := cmpf .olt main_v19 main_v20
  let main_c_7 : IVec S_ 1 := constantI S_ 1 1#1
  let main_v22 : IVec S_ 1 := (fun x v => Host.reduce IntOp.andi x v reducesTo_S128x14_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x11 .f32) (main_arg1 : IVec S2x800000 32) (main_arg2 : FVec F S800000x14 .f32) (main_arg3 : IVec S50000 32) (main_arg4 : FVec F S128x11 .f32) (main_arg5 : FVec F S128 .f32) (main_arg6 : FVec F S128x14 .f32) (main_arg7 : FVec F S128 .f32) (main_arg8 : FVec F S3x128x128 .f32) (main_arg9 : FVec F S3x128 .f32) (main_arg10 : FVec F S3x128 .f32) (main_arg11 : FVec F S3x128 .f32) (main_arg12 : FVec F S3x128 .f32) (main_arg13 : FVec F S3x128 .f32) (main_arg14 : FVec F S3x128x128 .f32) (main_arg15 : FVec F S3x128 .f32) (main_arg16 : FVec F S128x128 .f32) (main_arg17 : FVec F S128 .f32) : IVec S_ 1 :=
  let main_v0 : FVec F S50000x11 .f32 := Host.absf main_arg0
  let main_cst : FVec F S_ .f32 := constant S_ .f32 0x7F800000#32
  let main_v1 : FVec F S50000x11 .f32 := broadcastInDim S50000x11 ![] bcast_S_S50000x11 main_cst
  let main_v2 : IVec S50000x11 1 := cmpf .olt main_v0 main_v1
  let main_c : IVec S_ 1 := constantI S_ 1 1#1
  let main_v3 : IVec S_ 1 := (fun x v => Host.reduce IntOp.andi x v reducesTo_S50000x11_S_d0_1 h_S_) main_v2 main_c
  let main_v4 : FVec F S800000x14 .f32 := Host.absf main_arg2
  let main_cst_0 : FVec F S_ .f32 := constant S_ .f32 0x7F800000#32
  let main_v5 : FVec F S800000x14 .f32 := broadcastInDim S800000x14 ![] bcast_S_S800000x14 main_cst_0
  let main_v6 : IVec S800000x14 1 := cmpf .olt main_v4 main_v5
  let main_c_1 : IVec S_ 1 := constantI S_ 1 1#1
  let main_v7 : IVec S_ 1 := (fun x v => Host.reduce IntOp.andi x v reducesTo_S800000x14_S_d0_1 h_S_) main_v6 main_c_1
  let main_v8 : IVec S_ 1 := andi main_v3 main_v7
  let main_v9 : FVec F S128x11 .f32 := Host.absf main_arg4
  let main_cst_2 : FVec F S_ .f32 := constant S_ .f32 0x7F800000#32
  let main_v10 : FVec F S128x11 .f32 := broadcastInDim S128x11 ![] bcast_S_S128x11 main_cst_2
  let main_v11 : IVec S128x11 1 := cmpf .olt main_v9 main_v10
  let main_c_3 : IVec S_ 1 := constantI S_ 1 1#1
  let main_v12 : IVec S_ 1 := (fun x v => Host.reduce IntOp.andi x v reducesTo_S128x11_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x11 : Shape := ⟨2, ![50000, 11]⟩
abbrev S2x800000 : Shape := ⟨2, ![2, 800000]⟩
abbrev S800000x14 : Shape := ⟨2, ![800000, 14]⟩
abbrev S50000 : Shape := ⟨1, ![50000]⟩
abbrev S128x11 : Shape := ⟨2, ![128, 11]⟩
abbrev S128 : Shape := ⟨1, ![128]⟩
abbrev S128x14 : Shape := ⟨2, ![128, 14]⟩
abbrev S3x128x128 : Shape := ⟨3, ![3, 128, 128]⟩
abbrev S3x128 : Shape := ⟨2, ![3, 128]⟩
abbrev S128x128 : Shape := ⟨2, ![128, 128]⟩
abbrev S1x800000 : Shape := ⟨2, ![1, 800000]⟩
abbrev S800000 : Shape := ⟨1, ![800000]⟩
abbrev S11x128 : Shape := ⟨2, ![11, 128]⟩
abbrev S14x128 : Shape := ⟨2, ![14, 128]⟩
abbrev S1x128 : Shape := ⟨2, ![1, 128]⟩
abbrev S50000x128 : Shape := ⟨2, ![50000, 128]⟩
abbrev S5000x11 : Shape := ⟨2, ![5000, 11]⟩
abbrev S5000x128 : Shape := ⟨2, ![5000, 128]⟩
abbrev S800000x128 : Shape := ⟨2, ![800000, 128]⟩
abbrev S8000x14 : Shape := ⟨2, ![8000, 14]⟩
abbrev S8000x128 : Shape := ⟨2, ![8000, 128]⟩
abbrev S_ : Shape := ⟨0, ![]⟩
abbrev S800000x1 : Shape := ⟨2, ![800000, 1]⟩
abbrev S1x128x128 : Shape := ⟨3, ![1, 128, 128]⟩
abbrev S50000x1 : Shape := ⟨2, ![50000, 1]⟩
abbrev S64x128 : Shape := ⟨2, ![64, 128]⟩
abbrev S5000x1 : Shape := ⟨2, ![5000, 1]⟩
abbrev S5000x64 : Shape := ⟨2, ![5000, 64]⟩
abbrev S64 : Shape := ⟨1, ![64]⟩
abbrev S64x1 : Shape := ⟨2, ![64, 1]⟩

abbrev nBuf : Space → Nat
  | .hbm => 164
  | .vmem => 78
  | .smem => 0
  | _ => 0

abbrev hbmTy0_0 (i : Nat) : BufTy := match i % 128 with
  | 0 => ⟨S50000x11, .f32⟩
  | 1 => ⟨S2x800000, .i32⟩
  | 2 => ⟨S800000x14, .f32⟩
  | 3 => ⟨S50000, .i32⟩
  | 4 => ⟨S128x11, .f32⟩
  | 5 => ⟨S128, .f32⟩
  | 6 => ⟨S128x14, .f32⟩
  | 7 => ⟨S128, .f32⟩
  | 8 => ⟨S3x128x128, .f32⟩
  | 9 => ⟨S3x128, .f32⟩
  | 10 => ⟨S3x128, .f32⟩
  | 11 => ⟨S3x128, .f32⟩
  | 12 => ⟨S3x128, .f32⟩
  | 13 => ⟨S3x128, .f32⟩
  | 14 => ⟨S3x128x128, .f32⟩
  | 15 => ⟨S3x128, .f32⟩
  | 16 => ⟨S128x128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S11x128, .f32⟩
  | 23 => ⟨S14x128, .f32⟩
  | 24 => ⟨S1x128, .f32⟩
  | 25 => ⟨S1x128, .f32⟩
  | 26 => ⟨S50000x128, .f32⟩
  | 27 => ⟨S800000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x128x128, .f32⟩
  | 43 => ⟨S128x128, .f32⟩
  | 44 => ⟨S128x128, .f32⟩
  | 45 => ⟨S1x128x128, .f32⟩
  | 46 => ⟨S128x128, .f32⟩
  | 47 => ⟨S128x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S1x128, .f32⟩
  | 64 => ⟨S128, .f32⟩
  | 65 => ⟨S1x128, .f32⟩
  | 66 => ⟨S50000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x128x128, .f32⟩
  | 82 => ⟨S128x128, .f32⟩
  | 83 => ⟨S128x128, .f32⟩
  | 84 => ⟨S1x128x128, .f32⟩
  | 85 => ⟨S128x128, .f32⟩
  | 86 => ⟨S128x128, .f32⟩
  | 87 => ⟨S1x128, .f32⟩
  | 88 => ⟨S128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S128, .f32⟩
  | 98 => ⟨S1x128, .f32⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S50000x128, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S1x128x128, .f32⟩
  | 121 => ⟨S128x128, .f32⟩
  | 122 => ⟨S128x128, .f32⟩
  | 123 => ⟨S1x128x128, .f32⟩
  | 124 => ⟨S128x128, .f32⟩
  | 125 => ⟨S128x128, .f32⟩
  | 126 => ⟨S1x128, .f32⟩
  | 127 => ⟨S128, .f32⟩
  | _ => ⟨S50000x11, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S1x128, .f32⟩
  | 8 => ⟨S128, .f32⟩
  | 9 => ⟨S1x128, .f32⟩
  | 10 => ⟨S1x128, .f32⟩
  | 11 => ⟨S128, .f32⟩
  | 12 => ⟨S1x128, .f32⟩
  | 13 => ⟨S1x128, .f32⟩
  | 14 => ⟨S128, .f32⟩
  | 15 => ⟨S1x128, .f32⟩
  | 16 => ⟨S50000x128, .f32⟩
  | 17 => ⟨S50000x1, .i32⟩
  | 18 => ⟨S64x128, .f32⟩
  | 19 => ⟨S_, .f32⟩
  | 20 => ⟨S50000, .f32⟩
  | 21 => ⟨S_, .f32⟩
  | 22 => ⟨S64, .f32⟩
  | 23 => ⟨S50000x1, .i32⟩
  | 24 => ⟨S64, .f32⟩
  | 25 => ⟨S_, .f32⟩
  | 26 => ⟨S64, .f32⟩
  | 27 => ⟨S64, .f32⟩
  | 28 => ⟨S64x1, .f32⟩
  | 29 => ⟨S64x128, .f32⟩
  | 30 => ⟨S64x128, .f32⟩
  | 31 => ⟨S128x128, .f32⟩
  | 32 => ⟨S64x128, .f32⟩
  | 33 => ⟨S1x128, .f32⟩
  | 34 => ⟨S64x128, .f32⟩
  | 35 => ⟨S64x128, .f32⟩
  | _ => ⟨S50000x11, .f32⟩

abbrev hbmTy (i : Nat) : BufTy := match i / 128 with
  | 0 => hbmTy0_0 i
  | 1 => hbmTy0_1 i
  | _ => ⟨S50000x11, .f32⟩

abbrev bufTy : (tb : Table) → Fin (tcTables nBuf tb) → BufTy
  | .hbm, ⟨i, _⟩ => hbmTy i
  | .local _ .vmem, ⟨0, _⟩ => ⟨S5000x11, .f32⟩
  | .local _ .vmem, ⟨1, _⟩ => ⟨S5000x11, .f32⟩
  | .local _ .vmem, ⟨2, _⟩ => ⟨S11x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x14, .f32⟩
  | .local _ .vmem, ⟨7, _⟩ => ⟨S8000x14, .f32⟩
  | .local _ .vmem, ⟨8, _⟩ => ⟨S14x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S8000x128, .f32⟩
  | .local _ .vmem, ⟨53, _⟩ => ⟨S8000x128, .f32⟩
  | .local _ .vmem, ⟨54, _⟩ => ⟨S8000x128, .f32⟩
  | .local _ .vmem, ⟨55, _⟩ => ⟨S8000x128, .f32⟩
  | .local _ .vmem, ⟨56, _⟩ => ⟨S8000x128, .f32⟩
  | .local _ .vmem, ⟨57, _⟩ => ⟨S8000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S128x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x1, .i32⟩
  | .local _ .vmem, ⟨75, _⟩ => ⟨S5000x1, .i32⟩
  | .local _ .vmem, ⟨76, _⟩ => ⟨S64x128, .f32⟩
  | .local _ .vmem, ⟨77, _⟩ => ⟨S64x128, .f32⟩
  | _, _ => ⟨S50000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_1 : Ref sig .tc := ⟨.hbm, 67, rfl⟩
abbrev main_v46 : Ref sig .tc := ⟨.hbm, 68, rfl⟩
abbrev main_v47 : Ref sig .tc := ⟨.hbm, 69, rfl⟩
abbrev main_c_2 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_3 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_4 : Ref sig .tc := ⟨.hbm, 106, rfl⟩
abbrev main_v82 : Ref sig .tc := ⟨.hbm, 107, rfl⟩
abbrev main_v83 : Ref sig .tc := ⟨.hbm, 108, rfl⟩
abbrev main_c_5 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_6 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_cst_7 : Ref sig .tc := ⟨.hbm, 147, rfl⟩
abbrev main_v120 : Ref sig .tc := ⟨.hbm, 148, rfl⟩
abbrev main_cst_8 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_9 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg9_0 : Ref sig .tc := ⟨.vmem, 29, rfl⟩
abbrev cc3_stg10_0 : Ref sig .tc := ⟨.vmem, 30, rfl⟩
abbrev cc3_stg10_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg7_0 : Ref sig .tc := ⟨.vmem, 47, rfl⟩
abbrev cc5_stg8_0 : Ref sig .tc := ⟨.vmem, 48, rfl⟩
abbrev cc5_stg9_0 : Ref sig .tc := ⟨.vmem, 49, rfl⟩
abbrev cc5_stg10_0 : Ref sig .tc := ⟨.vmem, 50, rfl⟩
abbrev cc5_stg10_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc7_stg8_0 : Ref sig .tc := ⟨.vmem, 68, rfl⟩
abbrev cc7_stg9_0 : Ref sig .tc := ⟨.vmem, 69, rfl⟩
abbrev cc7_stg10_0 : Ref sig .tc := ⟨.vmem, 70, rfl⟩
abbrev cc7_stg10_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_scratch0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem7_0 : DmaSem sig := 27
abbrev cc3_sem8_0 : DmaSem sig := 28
abbrev cc3_sem9_0 : DmaSem sig := 29
abbrev cc3_sem10_0 : DmaSem sig := 30
abbrev cc3_sem10_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem8_0 : DmaSem sig := 48
abbrev cc5_sem9_0 : DmaSem sig := 49
abbrev cc5_sem10_0 : DmaSem sig := 50
abbrev cc5_sem10_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem3_0 : DmaSem sig := 63
abbrev cc7_sem4_0 : DmaSem sig := 64
abbrev cc7_sem5_0 : DmaSem sig := 65
abbrev cc7_sem6_0 : DmaSem sig := 66
abbrev cc7_sem7_0 : DmaSem sig := 67
abbrev cc7_sem8_0 : DmaSem sig := 68
abbrev cc7_sem9_0 : DmaSem sig := 69
abbrev cc7_sem10_0 : DmaSem sig := 70
abbrev cc7_sem10_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S5000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 2 → Memref sig .tc .vmem S5000x128 .f32 := fun | 0 => Memref.whole cc7_stg10_0 | 1 => Memref.whole cc7_stg10_1 | ⟨_ + 2, h⟩ => absurd h (Nat.not_lt.2 (Nat.le_add_left _ _))
abbrev sem7_10 : Fin 2 → DmaSem sig := fun | 0 => cc7_sem10_0 | 1 => cc7_sem10_1 | ⟨_ + 2, h⟩ => absurd h (Nat.not_lt.2 (Nat.le_add_left _ _))
abbrev reads7_10 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_10 : BitVec 32 := 0#32
  let v23 : BitVec 1 := Scalar.cmpi .ne v22 c0_i32_10
  v23

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x11_S11x128_1_0 : S128x11.Transposes [1, 0] S11x128
  transposes_S128x14_S14x128_1_0 : S128x14.Transposes [1, 0] S14x128
  shapeCasts_S128_S1x128 : S128.ShapeCasts S1x128
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  shapeCasts_S11x128_S11x128 : S11x128.ShapeCasts S11x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8000x14_S8000x14_0_0 : ∀ a, (![0, 0] : Fin 2 → Nat) a + S8000x14.size a ≤ S8000x14.size a
  h_S8000x14 : 0 < S8000x14.numel
  inb_S14x128_S14x128_0_0 : ∀ a, (![0, 0] : Fin 2 → Nat) a + S14x128.size a ≤ S14x128.size a
  h_S14x128 : 0 < S14x128.numel
  shapeCasts_S14x128_S14x128 : S14x128.ShapeCasts S14x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S800000 : S_.BroadcastsInDim S800000 (![] : Fin 0 → Fin S800000.rank)
  bcast_S800000_S800000x1_0 : S800000.BroadcastsInDim S800000x1 (![0] : Fin 1 → Fin S800000x1.rank)
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S5000x11_S11x128_S5000x128_1_0_0_1_n_n_wf : DotDims.WF S5000x11 S11x128 S5000x128 [1] [0] [0] [1] [] []
  dot_S8000x14_S14x128_S8000x128_1_0_0_1_n_n_wf : DotDims.WF S8000x14 S14x128 S8000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S50000x11.size a
  hwx0_0 : ∀ i : grid0.Coords, EltTy.bits .f32 = 32 ∨ (Rect.block (s := S50000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x14.size a ≤ S800000x14.size a
  hwx1_0 : ∀ i : grid1.Coords, EltTy.bits .f32 = 32 ∨ (Rect.block (s := S800000x14) S8000x14.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S14x128.size a ≤ S14x128.size a
  hwx1_1 : ∀ i : grid1.Coords, EltTy.bits .f32 = 32 ∨ (Rect.block (s := S14x128) S14x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S800000x128.size a
  hwx1_3 : ∀ i : grid1.Coords, EltTy.bits .f32 = 32 ∨ (Rect.block (s := S800000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S5000x128.size a ≤ S50000x128.size a
  hwx3_10 : ∀ i : grid3.Coords, EltTy.bits .f32 = 32 ∨ (Rect.block (s := S50000x128) S5000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .f32 = 32 ∨ (Rect.block (s := S800000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S800000x128.size a
  hwx4_1 : ∀ i : grid4.Coords, EltTy.bits .f32 = 32 ∨ (Rect.block (s := S800000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S800000x128.size a
  hwx4_2 : ∀ i : grid4.Coords, EltTy.bits .f32 = 32 ∨ (Rect.block (s := S800000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x128.size a ≤ S800000x128.size a
  hwx6_0 : ∀ i : grid6.Coords, EltTy.bits .f32 = 32 ∨ (Rect.block (s := S800000x128) S8000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x128.size a ≤ S800000x128.size a
  hwx6_1 : ∀ i : grid6.Coords, EltTy.bits .f32 = 32 ∨ (Rect.block (s := S800000x128) S8000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x128.size a ≤ S800000x128.size a
  hwx6_2 : ∀ i : grid6.Coords, EltTy.bits .f32 = 32 ∨ (Rect.block (s := S800000x128) S8000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S128x128.size a ≤ S128x128.size a
  hwx7_8 : ∀ i : grid7.Coords, EltTy.bits .f32 = 32 ∨ (Rect.block (s := S128x128) S128x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 false = 2
  hreads7_10 : ∀ i i' : grid7.Coords, (∀ a, reads7_10 a = true → i a = i' a) → cc7_transform_10 i = cc7_transform_10 i'
  hinb7_10 : ∀ (i : grid7.Coords) a, (cc7_transform_10 i a + 1) * S5000x128.size a ≤ S50000x128.size a
  hwx7_10 : ∀ i : grid7.Coords, EltTy.bits .f32 = 32 ∨ (Rect.block (s := S50000x128) S5000x128.size (cc7_transform_10 i) (hinb7_10 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .i32 = 32 ∨ (Rect.block (s := S50000x1) S5000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x128.size a ≤ S64x128.size a
  hwx8_2 : ∀ i : grid8.Coords, EltTy.bits .f32 = 32 ∨ (Rect.block (s := S64x128) S64x128.size (cc8_transform_2 i) (hinb8_2 i)).WholeWords (EltTy.packing .f32)

variable [Facts₀]

def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def dot_S8000x14_S14x128_S8000x128_1_0_0_1_n_n : DotDims S8000x14 S14x128 S8000x128 where
  lhsContracting := [1]
  rhsContracting := [0]
  lhsNonContracting := [0]
  rhsNonContracting := [1]
  lhsBatch := []
  rhsBatch := []
  wf := dot_S8000x14_S14x128_S8000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S8000x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S14x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v8) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v44) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v26) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v32) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v45) S5000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v52) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v56) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v59) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v65) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v74) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v80) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v62) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v68) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v81) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v88) S8000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v9) S8000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v89) S8000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v81) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v95) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v107) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v110) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v113) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v116) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v98) S128x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v104) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v117) S5000x128.size cc7_transform_10 reads7_10 true false 2 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.ofSpec (Memref.whole main_v117) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v119) S64x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev idle8 : Fin 3 → grid8.Coords → Bool := fun | 0 => fun _ => false | 1 => fun _ => false | 2 => fun i => !(k8_cond2 i == 1#1) | ⟨_ + 3, h⟩ => absurd h (Nat.not_lt.2 (Nat.le_add_left _ _))

class Facts : Prop extends Facts₀ where

variable [Facts]
-- ==== ReferenceIdeal.lean ====
abbrev S50000x11 : Shape := ⟨2, ![50000, 11]⟩
abbrev S2x800000 : Shape := ⟨2, ![2, 800000]⟩
abbrev S800000x14 : Shape := ⟨2, ![800000, 14]⟩
abbrev S50000 : Shape := ⟨1, ![50000]⟩
abbrev S128x11 : Shape := ⟨2, ![128, 11]⟩
abbrev S128 : Shape := ⟨1, ![128]⟩
abbrev S128x14 : Shape := ⟨2, ![128, 14]⟩
abbrev S3x128x128 : Shape := ⟨3, ![3, 128, 128]⟩
abbrev S3x128 : Shape := ⟨2, ![3, 128]⟩
abbrev S128x128 : Shape := ⟨2, ![128, 128]⟩
abbrev S1x800000 : Shape := ⟨2, ![1, 800000]⟩
abbrev S800000 : Shape := ⟨1, ![800000]⟩
abbrev S11x128 : Shape := ⟨2, ![11, 128]⟩
abbrev S50000x128 : Shape := ⟨2, ![50000, 128]⟩
abbrev S1x128 : Shape := ⟨2, ![1, 128]⟩
abbrev S14x128 : Shape := ⟨2, ![14, 128]⟩
abbrev S800000x128 : Shape := ⟨2, ![800000, 128]⟩
abbrev S_ : Shape := ⟨0, ![]⟩
abbrev S800000x1 : Shape := ⟨2, ![800000, 1]⟩
abbrev S1x128x128 : Shape := ⟨3, ![1, 128, 128]⟩
abbrev S64 : Shape := ⟨1, ![64]⟩
abbrev S50000x1 : Shape := ⟨2, ![50000, 1]⟩
abbrev S64x128 : Shape := ⟨2, ![64, 128]⟩
abbrev S64x1 : Shape := ⟨2, ![64, 1]⟩

abbrev nBuf : Space → Nat
  | .hbm => 248
  | .vmem => 0
  | .smem => 0
  | _ => 0

abbrev hbmTy0_0 (i : Nat) : BufTy := match i % 128 with
  | 0 => ⟨S50000x11, .f32⟩
  | 1 => ⟨S2x800000, .i32⟩
  | 2 => ⟨S800000x14, .f32⟩
  | 3 => ⟨S50000, .i32⟩
  | 4 => ⟨S128x11, .f32⟩
  | 5 => ⟨S128, .f32⟩
  | 6 => ⟨S128x14, .f32⟩
  | 7 => ⟨S128, .f32⟩
  | 8 => ⟨S3x128x128, .f32⟩
  | 9 => ⟨S3x128, .f32⟩
  | 10 => ⟨S3x128, .f32⟩
  | 11 => ⟨S3x128, .f32⟩
  | 12 => ⟨S3x128, .f32⟩
  | 13 => ⟨S3x128, .f32⟩
  | 14 => ⟨S3x128x128, .f32⟩
  | 15 => ⟨S3x128, .f32⟩
  | 16 => ⟨S128x128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S11x128, .f32⟩
  | 23 => ⟨S50000x128, .f32⟩
  | 24 => ⟨S1x128, .f32⟩
  | 25 => ⟨S50000x128, .f32⟩
  | 26 => ⟨S50000x128, .f32⟩
  | 27 => ⟨S14x128, .f32⟩
  | 28 => ⟨S800000x128, .f32⟩
  | 29 => ⟨S1x128, .f32⟩
  | 30 => ⟨S800000x128, .f32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x128, .f32⟩
  | 42 => ⟨S_, .f32⟩
  | 43 => ⟨S800000x128, .f32⟩
  | 44 => ⟨S800000x128, .f32⟩
  | 45 => ⟨S_, .f32⟩
  | 46 => ⟨S50000x128, .f32⟩
  | 47 => ⟨S800000x1, .i32⟩
  | 48 => ⟨S50000x128, .f32⟩
  | 49 => ⟨S50000x128, .f32⟩
  | 50 => ⟨S1x128x128, .f32⟩
  | 51 => ⟨S128x128, .f32⟩
  | 52 => ⟨S128x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S128, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S128x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x128, .f32⟩
  | 107 => ⟨S_, .f32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S50000x128, .f32⟩
  | 115 => ⟨S1x128x128, .f32⟩
  | 116 => ⟨S128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x11, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S128, .f32⟩
  | 5 => ⟨S_, .f32⟩
  | 6 => ⟨S128, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S1x128x128, .f32⟩
  | 22 => ⟨S128x128, .f32⟩
  | 23 => ⟨S128x128, .f32⟩
  | 24 => ⟨S50000x128, .f32⟩
  | 25 => ⟨S1x128, .f32⟩
  | 26 => ⟨S128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S_, .f32⟩
  | 45 => ⟨S800000x128, .f32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S1x128x128, .f32⟩
  | 53 => ⟨S128x128, .f32⟩
  | 54 => ⟨S128x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S128, .f32⟩
  | 70 => ⟨S_, .f32⟩
  | 71 => ⟨S128, .f32⟩
  | 72 => ⟨S128, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128x128, .f32⟩
  | 87 => ⟨S128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S_, .f32⟩
  | 100 => ⟨S50000, .f32⟩
  | 101 => ⟨S_, .f32⟩
  | 102 => ⟨S64, .f32⟩
  | 103 => ⟨S50000x1, .i32⟩
  | 104 => ⟨S64, .f32⟩
  | 105 => ⟨S_, .f32⟩
  | 106 => ⟨S64x128, .f32⟩
  | 107 => ⟨S50000x1, .i32⟩
  | 108 => ⟨S64x128, .f32⟩
  | 109 => ⟨S_, .f32⟩
  | 110 => ⟨S64, .f32⟩
  | 111 => ⟨S64, .f32⟩
  | 112 => ⟨S64x1, .f32⟩
  | 113 => ⟨S64x128, .f32⟩
  | 114 => ⟨S64x128, .f32⟩
  | 115 => ⟨S128x128, .f32⟩
  | 116 => ⟨S64x128, .f32⟩
  | 117 => ⟨S1x128, .f32⟩
  | 118 => ⟨S64x128, .f32⟩
  | 119 => ⟨S64x128, .f32⟩
  | _ => ⟨S50000x11, .f32⟩

abbrev hbmTy (i : Nat) : BufTy := match i / 128 with
  | 0 => hbmTy0_0 i
  | 1 => hbmTy0_1 i
  | _ => ⟨S50000x11, .f32⟩

abbrev bufTy : (tb : Table) → Fin (tcTables nBuf tb) → BufTy
  | .hbm, ⟨i, _⟩ => hbmTy i
  | _, _ => ⟨S50000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call0_cst : Ref sig .tc := ⟨.hbm, 42, rfl⟩
abbrev main_call0_v0 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_c_2 : Ref sig .tc := ⟨.hbm, 97, rfl⟩
abbrev main_v69 : Ref sig .tc := ⟨.hbm, 98, rfl⟩
abbrev main_v70 : Ref sig .tc := ⟨.hbm, 99, rfl⟩
abbrev main_c_3 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call3_cst : Ref sig .tc := ⟨.hbm, 107, rfl⟩
abbrev main_call3_v0 : Ref sig .tc := ⟨.hbm, 108, rfl⟩
abbrev main_v77 : Ref sig .tc := ⟨.hbm, 109, rfl⟩
abbrev main_cst_4 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_5 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_call4_cst : Ref sig .tc := ⟨.hbm, 146, rfl⟩
abbrev main_call4_v0 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_call5_cst : Ref sig .tc := ⟨.hbm, 158, rfl⟩
abbrev main_call5_v0 : Ref sig .tc := ⟨.hbm, 159, rfl⟩
abbrev main_v122 : Ref sig .tc := ⟨.hbm, 160, rfl⟩
abbrev main_v123 : Ref sig .tc := ⟨.hbm, 161, rfl⟩
abbrev main_c_6 : Ref sig .tc := ⟨.hbm, 162, rfl⟩
abbrev main_v124 : Ref sig .tc := ⟨.hbm, 163, rfl⟩
abbrev main_v125 : Ref sig .tc := ⟨.hbm, 164, rfl⟩
abbrev main_c_7 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_call6_cst : Ref sig .tc := ⟨.hbm, 172, rfl⟩
abbrev main_call6_v0 : Ref sig .tc := ⟨.hbm, 173, rfl⟩
abbrev main_v132 : Ref sig .tc := ⟨.hbm, 174, rfl⟩
abbrev main_cst_8 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_9 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_call7_cst : Ref sig .tc := ⟨.hbm, 211, rfl⟩
abbrev main_call7_v0 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_call8_cst : Ref sig .tc := ⟨.hbm, 223, rfl⟩
abbrev main_call8_v0 : Ref sig .tc := ⟨.hbm, 224, rfl⟩
abbrev main_v177 : Ref sig .tc := ⟨.hbm, 225, rfl⟩
abbrev main_v178 : Ref sig .tc := ⟨.hbm, 226, rfl⟩
abbrev main_cst_10 : Ref sig .tc := ⟨.hbm, 227, rfl⟩
abbrev main_v179 : Ref sig .tc := ⟨.hbm, 228, rfl⟩
abbrev main_cst_11 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_cst_12 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_13 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x11_S11x128_1_0 : S128x11.Transposes [1, 0] S11x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x14_S14x128_1_0 : S128x14.Transposes [1, 0] S14x128
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S50000 : S_.BroadcastsInDim S50000 (![] : Fin 0 → Fin S50000.rank)
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  dot_S50000x11_S11x128_S50000x128_1_0_0_1_n_n_wf : DotDims.WF S50000x11 S11x128 S50000x128 [1] [0] [0] [1] [] []
  dot_S800000x14_S14x128_S800000x128_1_0_0_1_n_n_wf : DotDims.WF S800000x14 S14x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x128_S64x128_1_0_0_1_n_n_wf : DotDims.WF S64x128 S128x128 S64x128 [1] [0] [0] [1] [] []

variable [Facts₀]

def dot_S50000x11_S11x128_S50000x128_1_0_0_1_n_n : DotDims S50000x11 S11x128 S50000x128 where
  lhsContracting := [1]
  rhsContracting := [0]
  lhsNonContracting := [0]
  rhsNonContracting := [1]
  lhsBatch := []
  rhsBatch := []
  wf := dot_S50000x11_S11x128_S50000x128_1_0_0_1_n_n_wf
def dot_S800000x14_S14x128_S800000x128_1_0_0_1_n_n : DotDims S800000x14 S14x128 S800000x128 where
  lhsContracting := [1]
  rhsContracting := [0]
  lhsNonContracting := [0]
  rhsNonContracting := [1]
  lhsBatch := []
  rhsBatch := []
  wf := dot_S800000x14_S14x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KB.Reg0.lean ====
import proofs.«428859_j12661563588730_1_alg».proof.Proof.Gen.Kernel.Launch
import proofs.«428859_j12661563588730_1_alg».proof.Proof.Gen.Kernel.Skeleton
import proofs.«428859_j12661563588730_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x11 := Rect.unit (s := S5000x11) ![0, 0] S5000x11.size inb_S5000x11_S5000x11_0_0
abbrev r0_w : Rect S11x128 := Rect.unit (s := S11x128) ![0, 0] S11x128.size inb_S11x128_S11x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

def out0_3 (x0 : Vec F S5000x11 .f32) (x1 : Vec F S11x128 .f32) (x2 : Vec F S1x128 .f32) : Vec F S5000x128 .f32 :=
  View.canon [⟨r0_o, k0_pay1 (View.ld x0 r0_x) (View.ld x1 r0_w) (View.ld x2 r0_b)⟩]

set_option maxHeartbeats 1000000 in
/-- The body keeps its three inputs and ends with its one whole-block store in the output. -/
theorem sound_kernel0 (c : Dev nD) (E : Set ℕ) (i : grid0.Coords) (arg0 : Memref sig .tc .vmem S5000x11 .f32) (harg0 : arg0.IsWhole)
    (arg1 : Memref sig .tc .vmem S11x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x11 .f32) (x1 : Vec F S11x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__node_embed_kernel i arg0 harg0 arg1 harg1 arg2 harg2 arg3 harg3) K := by
  simp only [cc0__node_embed_kernel_eq_skeleton]; unfold cc0__node_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- For an input window `before` is `after`: both are the window's block of the array at entry. -/
theorem before0 (c : Dev nD) : ∀ w : Fin cfg0.W, (cfg0.win w).isOut = false → ∀ t d, (dat0 V c).before w t d = (dat0 V c).after w t
  | 0, h | 1, h | 2, h => fun t d => ((dat0 V c).before_in_eq_fetched _ h (fun _ => rfl) (fun _ _ _ => rfl) (fun _ => rfl) t d).trans rfl
  | 3, h => absurd h (by decide)

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl]
  rw [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) by dsimp only [dat0]]
  iintro ⟨HΦ, Ho, ⟨%d0, H0⟩, ⟨%d1, H1⟩, ⟨%d2, H2⟩, ⟨%d3, H3⟩⟩
  iapply (sound_kernel0 c Set.univ (grid0.coords t) (st0_0 t) (hstage0_0 _) (st0_1 t) (hstage0_1 _) (st0_2 t) (hstage0_2 _) (st0_3 t) (hstage0_3 _)
    ((dat0 V c).after 0 t) ((dat0 V c).after 1 t) ((dat0 V c).after 2 t) _)
  iframe H0 H1 H2
  isplitl [H3]; · iexists _; iexact H3
  iintro ⟨H0, H1, H2, H3⟩
  iframe

end Cert.Kernel.Hand

end
-- ==== Proof.KB.Reg1.lean ====
import proofs.«428859_j12661563588730_1_alg».proof.Proof.Gen.Kernel.Launch
import proofs.«428859_j12661563588730_1_alg».proof.Proof.Gen.Kernel.Skeleton
import proofs.«428859_j12661563588730_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S8000x14 := Rect.unit (s := S8000x14) ![0, 0] S8000x14.size inb_S8000x14_S8000x14_0_0
abbrev r1_w : Rect S14x128 := Rect.unit (s := S14x128) ![0, 0] S14x128.size inb_S14x128_S14x128_0_0
abbrev r1_b : Rect S1x128 := Rect.unit (s := S1x128) ![0, 0] S1x128.size inb_S1x128_S1x128_0_0
abbrev r1_o : Rect S8000x128 := Rect.unit (s := S8000x128) ![0, 0] S8000x128.size inb_S8000x128_S8000x128_0_0

def out1_3 (x0 : Vec F S8000x14 .f32) (x1 : Vec F S14x128 .f32) (x2 : Vec F S1x128 .f32) : Vec F S8000x128 .f32 :=
  View.canon [⟨r1_o, k1_pay1 (View.ld x0 r1_x) (View.ld x1 r1_w) (View.ld x2 r1_b)⟩]

set_option maxHeartbeats 1000000 in
/-- The body keeps its three inputs and ends with its one whole-block store in the output. -/
theorem sound_kernel1 (c : Dev nD) (E : Set ℕ) (i : grid1.Coords) (arg0 : Memref sig .tc .vmem S8000x14 .f32) (harg0 : arg0.IsWhole)
    (arg1 : Memref sig .tc .vmem S14x128 .f32) (harg1 : arg1.IsWhole) (arg2 : Memref sig .tc .vmem S1x128 .f32) (harg2 : arg2.IsWhole)
    (arg3 : Memref sig .tc .vmem S8000x128 .f32) (harg3 : arg3.IsWhole)
    (x0 : Vec F S8000x14 .f32) (x1 : Vec F S14x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__edge_embed_kernel i arg0 harg0 arg1 harg1 arg2 harg2 arg3 harg3) K := by
  simp only [cc1__edge_embed_kernel_eq_skeleton]; unfold cc1__edge_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S8000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

/-- For an input window `before` is `after`: both are the window's block of the array at entry. -/
theorem before1 (c : Dev nD) : ∀ w : Fin cfg1.W, (cfg1.win w).isOut = false → ∀ t d, (dat1 V c).before w t d = (dat1 V c).after w t
  | 0, h | 1, h | 2, h => fun t d => ((dat1 V c).before_in_eq_fetched _ h (fun _ => rfl) (fun _ _ _ => rfl) (fun _ => rfl) t d).trans rfl
  | 3, h => absurd h (by decide)

theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl]
  rw [show (dat1 V c).Φ t.succ = (dat1 V c).Φ t.castSucc from rfl,
    show (dat1 V c).owesAt () t.succ = (dat1 V c).owesAt () t.castSucc from rfl,
    show (dat1 V c).after 3 t = out1_3 ((dat1 V c).after 0 t) ((dat1 V c).after 1 t) ((dat1 V c).after 2 t) by dsimp only [dat1]]
  iintro ⟨HΦ, Ho, ⟨%d0, H0⟩, ⟨%d1, H1⟩, ⟨%d2, H2⟩, ⟨%d3, H3⟩⟩
  iapply (sound_kernel1 c Set.univ (grid1.coords t) (st1_0 t) (hstage1_0 _) (st1_1 t) (hstage1_1 _) (st1_2 t) (hstage1_2 _) (st1_3 t) (hstage1_3 _)
    ((dat1 V c).after 0 t) ((dat1 V c).after 1 t) ((dat1 V c).after 2 t) _)
  iframe H0 H1 H2
  isplitl [H3]; · iexists _; iexact H3
  iintro ⟨H0, H1, H2, H3⟩
  iframe

end Cert.Kernel.Hand

end
-- ==== Proof.KB.Reg2.lean ====
import proofs.«428859_j12661563588730_1_alg».proof.Proof.Gen.Kernel.Launch
import proofs.«428859_j12661563588730_1_alg».proof.Proof.Gen.Kernel.Skeleton
import proofs.«428859_j12661563588730_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8000x128 := Rect.unit (s := S8000x128) ![0, 0] S8000x128.size inb_S8000x128_S8000x128_0_0

def out2_2 (x0 x1 : Vec F S8000x128 .f32) : Vec F S8000x128 .f32 :=
  View.canon [⟨r2_0, k2_pay1 (View.ld x0 r2_0) (View.ld x1 r2_0)⟩]

set_option maxHeartbeats 1000000 in
/-- The body keeps its two inputs and ends with its one whole-block store in the output. -/
theorem sound_kernel2 (c : Dev nD) (E : Set ℕ) (i : grid2.Coords) (arg0 : Memref sig .tc .vmem S8000x128 .f32) (harg0 : arg0.IsWhole)
    (arg1 : Memref sig .tc .vmem S8000x128 .f32) (harg1 : arg1.IsWhole) (arg2 : Memref sig .tc .vmem S8000x128 .f32) (harg2 : arg2.IsWhole)
    (x0 x1 : Vec F S8000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__msg_kernel i arg0 harg0 arg1 harg1 arg2 harg2) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S8000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

/-- For an input window `before` is `after`: both are the window's block of the array at entry. -/
theorem before2 (c : Dev nD) : ∀ w : Fin cfg2.W, (cfg2.win w).isOut = false → ∀ t d, (dat2 V c).before w t d = (dat2 V c).after w t
  | 0, h | 1, h => fun t d => ((dat2 V c).before_in_eq_fetched _ h (fun _ => rfl) (fun _ _ _ => rfl) (fun _ => rfl) t d).trans rfl
  | 2, h => absurd h (by decide)

theorem body_obligation2 (c : Dev nD) : BodyObligation (dat2 (F := F) V c) (defs₀ (F := F)) Variants.none () Set.univ := fun t => by
  rw [bigSep_W2, bigSep_W2]
  simp only [before2 V c 0 rfl, before2 V c 1 rfl]
  rw [show (dat2 V c).Φ t.succ = (dat2 V c).Φ t.castSucc from rfl,
    show (dat2 V c).owesAt () t.succ = (dat2 V c).owesAt () t.castSucc from rfl,
    show (dat2 V c).after 2 t = out2_2 ((dat2 V c).after 0 t) ((dat2 V c).after 1 t) by dsimp only [dat2]]
  iintro ⟨HΦ, Ho, ⟨%d0, H0⟩, ⟨%d1, H1⟩, ⟨%d2, H2⟩⟩
  iapply (sound_kernel2 c Set.univ (grid2.coords t) (st2_0 t) (hstage2_0 _) (st2_1 t) (hstage2_1 _) (st2_2 t) (hstage2_2 _) ((dat2 V c).after 0 t) ((dat2 V c).after 1 t) _)
  iframe H0 H1
  isplitl [H2]; · iexists _; iexact H2
  iintro ⟨H0, H1, H2⟩
  iframe

end Cert.Kernel.Hand

end
-- ==== Proof.KB.Reg3.lean ====
import proofs.«428859_j12661563588730_1_alg».proof.Proof.Gen.Kernel.Launch
import proofs.«428859_j12661563588730_1_alg».proof.Proof.Gen.Kernel.Skeleton
import proofs.«428859_j12661563588730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S5000x128 := Rect.unit (s := S5000x128) ![0, 0] S5000x128.size inb_S5000x128_S5000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

def out3_10 (x0 x1 : Vec F S5000x128 .f32) (x2 : Vec F S128x128 .f32) (x3 x4 x5 x6 x7 : Vec F S1x128 .f32)
    (x8 : Vec F S128x128 .f32) (x9 : Vec F S1x128 .f32) : Vec F S5000x128 .f32 :=
  View.canon [⟨r3_h, k3_pay1 (k3_pay2 (View.ld x0 r3_h)) (k3_pay3 (View.ld x0 r3_h) (View.ld x1 r3_h) (View.ld x2 r3_w) (View.ld x3 r3_b) (View.ld x7 r3_b) (View.ld x6 r3_b) (View.ld x4 r3_b) (View.ld x5 r3_b)) (k3_pay4 (View.ld x8 r3_w)) (View.ld x9 r3_b)⟩]

theorem cover3_10 (p0 : Vec F S5000x128 .f32) (y : S5000x128.Idx) :
    ∃ pc ∈ ([⟨r3_h, p0⟩] : List (View.Piece (Elt F) S5000x128 .f32)), y ∈ pc.1.set :=
  View.cover_of_tiled [⟨r3_h, p0⟩] S5000x128.size (by rfl) y

set_option maxHeartbeats 1000000 in
-- Stated for any buffers, so that regions 5 and 7, whose bodies are this same term, use it too.
theorem sound_kernel3 (c : Dev nD) (E : Set ℕ) (i : grid3.Coords) (arg0 : Memref sig .tc .vmem S5000x128 .f32) (harg0 : arg0.IsWhole)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S1x128 .f32) (harg9 : arg9.IsWhole) (arg10 : Memref sig .tc .vmem S5000x128 .f32) (harg10 : arg10.IsWhole)
    (x0 x1 : Vec F S5000x128 .f32) (x2 : Vec F S128x128 .f32) (x3 x4 x5 x6 x7 : Vec F S1x128 .f32)
    (x8 : Vec F S128x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out3_10 x0 x1 x2 x3 x4 x5 x6 x7 x8 x9)) -∗ K ⟨⟩))
      ⊢ wp frame (wpE (defs₀ (F := F)) Variants.none c none) E
          (cc3__node_mlp_kernel i arg0 harg0 arg1 harg1 arg2 harg2 arg3 harg3 arg4 harg4 arg5 harg5 arg6 harg6 arg7 harg7 arg8 harg8 arg9 harg9 arg10 harg10) K := by
  simp only [cc3__node_mlp_kernel_eq_skeleton]; unfold cc3__node_mlp_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
    ⟨%fh, %hfh, Hh⟩, ⟨%fi, %hfi, Hi⟩, ⟨%fj, %hfj, Hj⟩, ⟨%dk, %fk, -, Hk⟩, HK⟩
  subst hfa; subst hfb; subst hfc; subst hfd; subst hfe; subst hff; subst hfg; subst hfh; subst hfi; subst hfj
  sl_exec
  sl_step
  iapply HK
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  iexists _; isplitr
  swap; · iexact Hk
  ipureintro
  exact View.read_writes_eq_canon _ _ _ (cover3_10 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) := by dsimp only [dat3]

theorem before3 (c : Dev nD) (t : Fin cfg3.N) (w : Fin 11) (hw : w ≠ 10) (d) : (dat3 V c).before w t d = (dat3 V c).after w t := by
  fin_cases w <;> first
    | exact absurd rfl hw
    | exact (Dat.before_in_eq_fetched _ _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ bigSep Finset.univ fun w : Fin 11 => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin 11 => owns (c : Thread nD τ) ((cfg3.win w).stage (cfg3.slots t w)) fullShare ((dat3 V c).after w t)) := by
  rw [bigSep_W3, bigSep_W3]
  simp only [before3 V c t, ne_eq, Fin.reduceEq, not_false_eq_true]
  dsimp only [dat3]
  unfold bodyAt3
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) _)
  iframe
  isplitl [Hk]; · iexists _; iexact Hk
  iintro H
  iframe

theorem body_obligation3 (c : Dev nD) : BodyObligation (dat3 (F := F) V c) (defs₀ (F := F)) Variants.none () Set.univ :=
  fun t => sound_body3 V c t

end Cert.Kernel.Hand

end
-- ==== Proof.KB.Reg4.lean ====
import proofs.«428859_j12661563588730_1_alg».proof.Proof.KB.Reg2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8000x128 := Rect.unit (s := S8000x128) ![0, 0] S8000x128.size inb_S8000x128_S8000x128_0_0

def out4_2 (x0 x1 : Vec F S8000x128 .f32) : Vec F S8000x128 .f32 :=
  View.canon [⟨r4_0, k4_pay1 (View.ld x0 r4_0) (View.ld x1 r4_0)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4 (c : Dev nD) : ∀ w : Fin cfg4.W, (cfg4.win w).isOut = false → ∀ t d, (dat4 V c).before w t d = (dat4 V c).after w t
  | 0, h | 1, h => fun t d => ((dat4 V c).before_in_eq_fetched _ h (fun _ => rfl) (fun _ _ _ => rfl) (fun _ => rfl) t d).trans rfl
  | 2, h => absurd h (by decide)

/-- The body is region 2's, word for word, so region 2's run of it serves here. -/
theorem body_obligation4 (c : Dev nD) : BodyObligation (dat4 (F := F) V c) (defs₀ (F := F)) Variants.none () Set.univ := fun t => by
  rw [bigSep_W4, bigSep_W4]
  simp only [before4 V c 0 rfl, before4 V c 1 rfl]
  rw [show (dat4 V c).Φ t.succ = (dat4 V c).Φ t.castSucc from rfl,
    show (dat4 V c).owesAt () t.succ = (dat4 V c).owesAt () t.castSucc from rfl,
    show (dat4 V c).after 2 t = out2_2 ((dat4 V c).after 0 t) ((dat4 V c).after 1 t) by dsimp only [dat4]; rfl]
  iintro ⟨HΦ, Ho, ⟨%d0, H0⟩, ⟨%d1, H1⟩, ⟨%d2, H2⟩⟩
  iapply (sound_kernel2 c Set.univ (grid4.coords t) (st4_0 t) (hstage4_0 _) (st4_1 t) (hstage4_1 _) (st4_2 t) (hstage4_2 _) ((dat4 V c).after 0 t) ((dat4 V c).after 1 t) _)
  iframe H0 H1
  isplitl [H2]; · iexists _; iexact H2
  iintro ⟨H0, H1, H2⟩
  iframe

end Cert.Kernel.Hand

end
-- ==== Proof.KB.Reg5.lean ====
import proofs.«428859_j12661563588730_1_alg».proof.Proof.KB.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev out5_10 := out3_10 (F := F)

-- Lets region 3's run of the body serve this region.
theorem cc5_eq : cc5__node_mlp_kernel (F := F) = cc3__node_mlp_kernel (F := F) := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_10 (c : Dev nD) (t : Fin cfg5.N) :
    (dat5 V c).after 10 t = out5_10 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) := by dsimp only [dat5]

theorem before5 (c : Dev nD) (t : Fin cfg5.N) (w : Fin 11) (hw : w ≠ 10) (d) : (dat5 V c).before w t d = (dat5 V c).after w t := by
  fin_cases w <;> first
    | exact absurd rfl hw
    | exact (Dat.before_in_eq_fetched _ _ rfl (fun _ => rfl) (fun _ _ _ => rfl) (fun _ => rfl) t d).trans rfl

theorem sound_body5 (c : Dev nD) (t : Fin cfg5.N) :
    iprop((dat5 V c).Φ t.castSucc ∗ (dat5 V c).owesAt () t.castSucc
      ∗ bigSep Finset.univ fun w : Fin 11 => iprop(∃ d, owns (c : Thread nD τ) ((cfg5.win w).stage (cfg5.slots t w)) fullShare ((dat5 V c).before w t d)))
    ⊢ wp frame (wpE (defs₀ (F := F)) Variants.none c none) Set.univ (bodyAt5 t) fun _ =>
      iprop((dat5 V c).Φ t.castSucc ∗ (dat5 V c).owesAt () t.castSucc
        ∗ bigSep Finset.univ fun w : Fin 11 => owns (c : Thread nD τ) ((cfg5.win w).stage (cfg5.slots t w)) fullShare ((dat5 V c).after w t)) := by
  rw [bigSep_W5, bigSep_W5]
  simp only [before5 V c t, ne_eq, Fin.reduceEq, not_false_eq_true]
  dsimp only [dat5]
  unfold bodyAt5
  rw [cc5_eq]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) _)
  iframe
  isplitl [Hk]; · iexists _; iexact Hk
  iintro H
  iframe

theorem body_obligation5 (c : Dev nD) : BodyObligation (dat5 (F := F) V c) (defs₀ (F := F)) Variants.none () Set.univ :=
  fun t => sound_body5 V c t

end Cert.Kernel.Hand

end
-- ==== Proof.KB.Reg6.lean ====
import proofs.«428859_j12661563588730_1_alg».proof.Proof.KB.Reg2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S8000x128 := Rect.unit (s := S8000x128) ![0, 0] S8000x128.size inb_S8000x128_S8000x128_0_0

def out6_2 (x0 x1 : Vec F S8000x128 .f32) : Vec F S8000x128 .f32 :=
  View.canon [⟨r6_0, k6_pay1 (View.ld x0 r6_0) (View.ld x1 r6_0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6 (c : Dev nD) : ∀ w : Fin cfg6.W, (cfg6.win w).isOut = false → ∀ t d, (dat6 V c).before w t d = (dat6 V c).after w t
  | 0, h | 1, h => fun t d => ((dat6 V c).before_in_eq_fetched _ h (fun _ => rfl) (fun _ _ _ => rfl) (fun _ => rfl) t d).trans rfl
  | 2, h => absurd h (by decide)

/-- The body is region 2's, word for word, so region 2's run of it serves here. -/
theorem body_obligation6 (c : Dev nD) : BodyObligation (dat6 (F := F) V c) (defs₀ (F := F)) Variants.none () Set.univ := fun t => by
  rw [bigSep_W6, bigSep_W6]
  simp only [before6 V c 0 rfl, before6 V c 1 rfl]
  rw [show (dat6 V c).Φ t.succ = (dat6 V c).Φ t.castSucc from rfl,
    show (dat6 V c).owesAt () t.succ = (dat6 V c).owesAt () t.castSucc from rfl,
    show (dat6 V c).after 2 t = out2_2 ((dat6 V c).after 0 t) ((dat6 V c).after 1 t) by dsimp only [dat6]; rfl]
  iintro ⟨HΦ, Ho, ⟨%d0, H0⟩, ⟨%d1, H1⟩, ⟨%d2, H2⟩⟩
  iapply (sound_kernel2 c Set.univ (grid6.coords t) (st6_0 t) (hstage6_0 _) (st6_1 t) (hstage6_1 _) (st6_2 t) (hstage6_2 _) ((dat6 V c).after 0 t) ((dat6 V c).after 1 t) _)
  iframe H0 H1
  isplitl [H2]; · iexists _; iexact H2
  iintro ⟨H0, H1, H2⟩
  iframe

end Cert.Kernel.Hand

end
-- ==== Proof.KB.Reg7.lean ====
import proofs.«428859_j12661563588730_1_alg».proof.Proof.KB.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev out7_10 := out3_10 (F := F)

-- Lets region 3's run of the body serve this region.
theorem cc7_eq : cc7__node_mlp_kernel (F := F) = cc3__node_mlp_kernel (F := F) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 (iblk7 V c 0 t) (iblk7 V c 1 t) (iblk7 V c 2 t) (iblk7 V c 3 t) (iblk7 V c 4 t) (iblk7 V c 5 t)
        (iblk7 V c 6 t) (iblk7 V c 7 t) (iblk7 V c 8 t) (iblk7 V c 9 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_10 (c : Dev nD) (t : Fin cfg7.N) :
    (dat7 V c).after 10 t = out7_10 (iblk7 V c 0 t) (iblk7 V c 1 t) (iblk7 V c 2 t) (iblk7 V c 3 t) (iblk7 V c 4 t) (iblk7 V c 5 t)
      (iblk7 V c 6 t) (iblk7 V c 7 t) (iblk7 V c 8 t) (iblk7 V c 9 t) := by dsimp only [dat7]

theorem before7 (c : Dev nD) (t : Fin cfg7.N) (w : Fin 11) (hw : w ≠ 10) (d) : (dat7 V c).before w t d = (dat7 V c).after w t := by
  fin_cases w <;> first
    | exact absurd rfl hw
    | exact (Dat.before_in_eq_fetched _ _ rfl (fun _ => rfl) (fun _ _ _ => rfl) (fun _ => rfl) t d).trans rfl

theorem sound_body7 (c : Dev nD) (t : Fin cfg7.N) :
    iprop((dat7 V c).Φ t.castSucc ∗ (dat7 V c).owesAt () t.castSucc
      ∗ bigSep Finset.univ fun w : Fin 11 => iprop(∃ d, owns (c : Thread nD τ) ((cfg7.win w).stage (cfg7.slots t w)) fullShare ((dat7 V c).before w t d)))
    ⊢ wp frame (wpE (defs₀ (F := F)) Variants.none c none) Set.univ (bodyAt7 t) fun _ =>
      iprop((dat7 V c).Φ t.castSucc ∗ (dat7 V c).owesAt () t.castSucc
        ∗ bigSep Finset.univ fun w : Fin 11 => owns (c : Thread nD τ) ((cfg7.win w).stage (cfg7.slots t w)) fullShare ((dat7 V c).after w t)) := by
  rw [bigSep_W7, bigSep_W7]
  simp only [before7 V c t, ne_eq, Fin.reduceEq, not_false_eq_true]
  dsimp only [dat7]
  unfold bodyAt7
  rw [cc7_eq]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t)
    (iblk7 V c 6 t) (iblk7 V c 7 t) (iblk7 V c 8 t) (iblk7 V c 9 t) _)
  iframe
  isplitl [Hk]; · iexists _; iexact Hk
  iintro H
  iframe

theorem body_obligation7 (c : Dev nD) : BodyObligation (dat7 (F := F) V c) (defs₀ (F := F)) Variants.none () Set.univ :=
  fun t => sound_body7 V c t

end Cert.Kernel.Hand

end
-- ==== Proof.KB.Reg8.lean ====
import proofs.«428859_j12661563588730_1_alg».proof.Proof.Gen.Kernel.Launch
import proofs.«428859_j12661563588730_1_alg».proof.Proof.Gen.Kernel.Skeleton
import proofs.«428859_j12661563588730_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : ℕ → Vec F S64x128 .f32
  | 0 => k8_pay1
  | n + 1 => if h : n < cfg8.N then k8_pay2 (iblk8 V c 0 ⟨n, h⟩) (iblk8 V c 1 ⟨n, h⟩) (acc8 c n) else acc8 c n

theorem acc8_zero (c : Dev nD) : acc8 V c 0 = k8_pay1 := rfl

theorem acc8_succ (c : Dev nD) (n : ℕ) (h : n < cfg8.N) :
    acc8 V c (n + 1) = k8_pay2 (iblk8 V c 0 ⟨n, h⟩) (iblk8 V c 1 ⟨n, h⟩) (acc8 V c n) := by
  rw [acc8]; exact dif_pos h

abbrev scM8 : Memref sig .tc .vmem S64x128 .f32 := Memref.whole cc8_scratch0

abbrev rest8 (c : Dev nD) : sProp 𝕄 :=
  Pipeline.scopedRestBut (Ix := Unit) (Name := ℕ) (U := UR sig nD τ) (Lvl := ℕ) (Val := Elt F) spec8 c [cc8_scratch0]

-- Uniform in the position, so that the body's obligation needs no case split on it.
def Phi8 (c : Dev nD) (n : ℕ) : sProp 𝕄 :=
  iprop((∃ d, ⌜n ≠ 0 → d = acc8 V c n⌝ ∗ owns (c : Thread nD τ) scM8 fullShare d) ∗ (∃ r, prngReg c r) ∗ rest8 c)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c (t.val + 1)
  Φ t := Phi8 V c t.val
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c (t.val + 1) := by dsimp only [dat8]

theorem before8 (c : Dev nD) (t : Fin cfg8.N) (w : Fin 3) (hw : w ≠ 2) (d) : (dat8 V c).before w t d = (dat8 V c).after w t := by
  fin_cases w <;> first
    | exact absurd rfl hw
    | exact (Dat.before_in_eq_fetched _ _ rfl (fun _ => rfl) (fun _ _ _ => rfl) (fun _ => rfl) t d).trans rfl

abbrev cond8_1 (i : grid8.Coords) : Prop :=
  (Scalar.cmpi .ne (Scalar.extui (Scalar.cmpi .eq (BitVec.ofNat 32 (i 0).val) 0#32)) 0#32) = 1#1
theorem hcond8_1 : ∀ t : Fin cfg8.N, cond8_1 (grid8.coords t) ↔ t.val = 0 :=
  (by decide +kernel : ∀ t : Fin grid8.N, cond8_1 (grid8.coords t) ↔ t.val = 0)
abbrev cond8_2 (i : grid8.Coords) : Prop := k8_cond2 i = 1#1
theorem hcond8_2 : ∀ t : Fin cfg8.N, cond8_2 (grid8.coords t) ↔ t.val = 9 :=
  (by decide +kernel : ∀ t : Fin grid8.N, cond8_2 (grid8.coords t) ↔ t.val = 9)

theorem liveAt8_0 : ∀ t : Fin cfg8.N, cfg8.idle 0 (grid8.coords t) = false := by decide +kernel
theorem liveAt8_1 : ∀ t : Fin cfg8.N, cfg8.idle 1 (grid8.coords t) = false := by decide +kernel
theorem idleAt8_2 : ∀ t : Fin cfg8.N, ¬cond8_2 (grid8.coords t) → idle8 2 (grid8.coords t) = true := by decide +kernel
theorem noFlush8_2 : ∀ t : Fin cfg8.N, ¬cond8_2 (grid8.coords t) → (cfg8.win 2).flush t = false := by decide +kernel
theorem liveAt8_2 : ∀ t : Fin cfg8.N, cond8_2 (grid8.coords t) → idle8 2 (grid8.coords t) = false := by decide +kernel

theorem hz8a : (![0, 0] : Fin S5000x128.rank → ℕ) = fun _ => 0 := by
  funext a; fin_cases a <;> rfl
theorem hz8b : (![0, 0] : Fin S5000x1.rank → ℕ) = fun _ => 0 := by
  funext a; fin_cases a <;> rfl
theorem hz8 : (![0, 0] : Fin S64x128.rank → ℕ) = fun _ => 0 := by
  funext a; fin_cases a <;> rfl

theorem read_writes8 {κ : Kind} {sp : Space} (v : View sig κ sp S64x128 .f32) (f : v.ty.Contents (Elt F)) (w : Vec F S64x128 .f32)
    (L : List (View.Piece (Elt F) S64x128 .f32)) :
    v.read (Elt F) (v.writes (Elt F) f (⟨Rect.unit ![0, 0] S64x128.size inb_S64x128_S64x128_0_0, w⟩ :: L)) = w := by
  rw [View.read_writes_eq_canon _ _ _ (fun y => ⟨_, List.mem_cons_self, View.mem_set_unit_zero hz8 inb_S64x128_S64x128_0_0 y⟩)]
  exact View.canon_cons_unit_zero hz8 _ w L

set_option maxHeartbeats 1000000 in
-- Serves every grid point; `hne`: the reset and the final store never fall on the same point.
theorem sound_kernel8 (c : Dev nD) (E : Set ℕ) (i : grid8.Coords) (hne : cond8_1 i → ¬cond8_2 i)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (x0 : Vec F S5000x128 .f32) (x1 : Vec F S5000x1 .i32) (xi xs : Vec F S64x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1
            ∗ owns (c : Thread nD τ) arg3 fullShare (if cond8_2 i then k8_pay2 x0 x1 (if cond8_1 i then k8_pay1 else xs) else xi)
            ∗ owns (c : Thread nD τ) arg4 fullShare (k8_pay2 x0 x1 (if cond8_1 i then k8_pay1 else xs))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  by_cases hc1 : cond8_1 i <;> by_cases hc2 : cond8_2 i
  · exact absurd hc2 (hne hc1)
  all_goals
    first | rw [if_pos hc2] | rw [if_neg hc2]
    first | rw [if_pos hc1] | rw [if_neg hc1]
    sl_exec (disch := first | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
        | rfl
        | (sl_unfold_words; rw [read_writes8]
           simp only [View.readAt_eq_ld, View.ld_unit_zero (S := S5000x128) hz8a, View.ld_unit_zero (S := S5000x1) hz8b, View.ld_unit_zero (S := S64x128) hz8, View.readCov_unit_zero (S := S64x128) _ hz8])
    iexists _; isplitr
    swap; · iexact H3
    ipureintro
    sl_unfold_words
    rw [read_writes8]
    simp only [View.readAt_eq_ld, View.ld_unit_zero (S := S5000x128) hz8a, View.ld_unit_zero (S := S5000x1) hz8b, View.ld_unit_zero (S := S64x128) hz8, View.readCov_unit_zero (S := S64x128) _ hz8]

theorem Phi8_castSucc (c : Dev nD) (t : Fin cfg8.N) : (dat8 V c).Φ t.castSucc = Phi8 V c t.val := by
  dsimp only [dat8]; simp only [Fin.coe_castSucc]
theorem Phi8_at_succ (c : Dev nD) (t : Fin cfg8.N) : (dat8 V c).Φ t.succ = Phi8 V c (t.val + 1) := by
  dsimp only [dat8]; simp only [Fin.val_succ]

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  have hz : ∀ n, n = 0 → acc8 V c n = k8_pay1 := fun n h => by subst h; rfl
  have hacc (ds : Vec F S64x128 .f32) (hs : t.val ≠ 0 → ds = acc8 V c t.val) :
      acc8 V c (t.val + 1) = k8_pay2 (iblk8 V c 0 t) (iblk8 V c 1 t) (if cond8_1 (grid8.coords t) then k8_pay1 else ds) := by
    rw [acc8_succ V c t.val t.isLt]
    congr 1
    by_cases h0 : t.val = 0
    · rw [if_pos ((hcond8_1 t).mpr h0)]; exact hz _ h0
    · rw [if_neg fun h => h0 ((hcond8_1 t).mp h), hs h0]
  have hne : cond8_1 (grid8.coords t) → ¬cond8_2 (grid8.coords t) := fun h1 h2 => by
    have := (hcond8_1 t).mp h1; have := (hcond8_2 t).mp h2; omega
  unfold bodyPre8 bodyPost8 bodyAt8 Dat.leavesExact
  simp only [before8 V c t, liveAt8_0 t, liveAt8_1 t, ne_eq, Fin.reduceEq, not_false_eq_true]
  rw [show (dat8 V c).owesAt () t.succ = (dat8 V c).owesAt () t.castSucc from rfl,
    Phi8_castSucc, Phi8_at_succ, after8_0, after8_1, after8_2]
  unfold Phi8
  iintro ⟨⟨⟨%ds, %hs, HS⟩, Hg, Hr⟩, Ho, ⟨%d0, H0⟩, ⟨%d1, H1⟩, ⟨%d2, H2⟩⟩
  iapply (sound_kernel8 c Set.univ _ hne _ _ _ _ _ _ _ _ (iblk8 V c 0 t) (iblk8 V c 1 t) ((dat8 V c).before 2 t d2) ds _)
  isplitl [H0]; · iexact H0
  isplitl [H1]; · iexact H1
  isplitl [H2]; · iexact H2
  isplitl [HS]; · iexact HS
  iintro ⟨H0, H1, H2, HS⟩
  rw [← hacc ds hs]
  isplitl [HS Hg Hr]
  · isplitl [HS]
    · iexists _; isplitr; · ipureintro; exact fun _ => rfl
      iexact HS
    isplitl [Hg]; · iexact Hg
    iexact Hr
  isplitl [Ho]; · iexact Ho
  isplitl [H0]; · iexact H0
  isplitl [H1]; · iexact H1
  by_cases hc2 : cond8_2 (grid8.coords t)
  · rw [liveAt8_2 t hc2]; simp only [if_pos hc2]; iexact H2
  · rw [idleAt8_2 t hc2]; simp only [noFlush8_2 t hc2, if_neg hc2]; iexists d2; iexact H2

theorem body_obligation8 (c : Dev nD) : BodyObligation (dat8 (F := F) V c) (defs₀ (F := F)) Variants.none () Set.univ := fun t => by
  rw [bigSep_W8, bigSep_W8]
  exact sound_body8 V c t

theorem scratch8_forget (c : Dev nD) (X : Vec F S64x128 .f32) :
    owns (c : Thread nD τ) scM8 fullShare X
      ⊢ (iprop(∃ f : Buf (Elt F) ((c : Thread nD τ).loc cc8_scratch0), ((c : Thread nD τ).loc cc8_scratch0) ↦{fullShare} f) : sProp 𝕄) := by
  rw [owns_whole]
  iintro H; iexists _; iexact H

theorem hin8 (c : Dev nD) (P : sProp 𝕄) :
    iprop((∃ r, prngReg c r) ∗ P ∗ Pipeline.scopedRest (Ix := Unit) (Name := ℕ) (U := UR sig nD τ) (Lvl := ℕ) (Val := Elt F) spec8 c)
      ⊢ (dat8 V c).Φ 0 := by
  rw [show (dat8 V c).Φ 0 = Phi8 V c 0 from rfl, scopedRest8_split]
  unfold Phi8
  iintro ⟨Hg, -, ⟨%f, Hs⟩, Hr⟩
  isplitl [Hs]
  · iexists f; isplitr; · ipureintro; exact fun h => absurd rfl h
    rw [owns_whole]; iexact Hs
  isplitl [Hg]; · iexact Hg
  iexact Hr

theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [show (dat8 V c).Φ (Fin.last cfg8.N) = Phi8 V c (Fin.last cfg8.N).val from rfl, scopedRest8_split]
  unfold Phi8
  iintro ⟨⟨%d, -, Hs⟩, Hg, Hr⟩
  isplitl [Hg]; · iexact Hg
  isplitl [Hs]; · iapply (scratch8_forget c _); iexact Hs
  iexact Hr

theorem arrAt8_2_pre (c : Dev nD) : ∀ n : ℕ, n ≤ 9 → (dat8 V c).arrAt 2 n = (dat8 V c).A 2
  | 0, _ => rfl
  | n + 1, hn => by
    have hlt : n < cfg8.N := by have : cfg8.N = 10 := N_8; omega
    have hnf : ¬((cfg8.win 2).flush ⟨n, hlt⟩ = true) := fun h => by
      have := (flush8_2 ⟨n, hlt⟩).mp h
      have h' : n % 10 = 9 := this
      omega
    rw [(dat8 V c).arrAt_succ 2 ⟨n, hlt⟩, if_neg hnf]
    exact arrAt8_2_pre c n (by omega)

theorem arrAt8_2 (c : Dev nD) : (dat8 V c).arrAt 2 cfg8.N = acc8 V c 10 := by
  have hN : cfg8.N = (t8_9 : Fin cfg8.N).val + 1 := N_8
  rw [hN, (dat8 V c).arrAt_succ 2 t8_9, if_pos ((flush8_2 t8_9).mpr rfl), arrAt8_2_pre V c (Fin.val (t8_9 : Fin cfg8.N)) (Nat.le_refl 9)]
  show ((cfg8.win 2).blk t8_9).view.write (Elt F) ((dat8 V c).A 2) ((cfg8.win 2).cut (grid8.coords t8_9) ((dat8 V c).after 2 t8_9)) Finset.univ = _
  rw [after8_2]
  have hz' : (fun a => win8_2.index t8_9 a * main_v119.ty.shape.size a) = fun _ => 0 := funext fun a => by fin_cases a <;> decide
  exact Memref.write_access_unit_zero_univ (Elt F) main_v119 hz' (fun a => by rw [congrFun hz' a]; simp) ((dat8 V c).A 2) (acc8 V c 10)

end Cert.Kernel.Hand

end
-- ==== Proof.KB.Chain.lean ====
import proofs.«428859_j12661563588730_1_alg».proof.Proof.KB.Reg0
import proofs.«428859_j12661563588730_1_alg».proof.Proof.KB.Reg1
import proofs.«428859_j12661563588730_1_alg».proof.Proof.KB.Reg2
import proofs.«428859_j12661563588730_1_alg».proof.Proof.KB.Reg3
import proofs.«428859_j12661563588730_1_alg».proof.Proof.KB.Reg4
import proofs.«428859_j12661563588730_1_alg».proof.Proof.KB.Reg5
import proofs.«428859_j12661563588730_1_alg».proof.Proof.KB.Reg6
import proofs.«428859_j12661563588730_1_alg».proof.Proof.KB.Reg7
import proofs.«428859_j12661563588730_1_alg».proof.Proof.KB.Reg8
import proofs.«428859_j12661563588730_1_alg».proof.Proof.Gen.Kernel.Regions
import Idealize.ShloMosaic.Lib.Pipeline.Cells

noncomputable section

namespace Cert.Kernel.Hand

open Cert.Kernel Cert.Kernel.Gen
open Idealize.ShloMosaic Idealize.ShloMosaic.TcCoe
open Idealize.SL Idealize.SL.BI Idealize.SL.BI.BIBase Idealize.SL.Sem
open scoped Idealize.SL.BI
open Idealize.ShloMosaic.Pipeline (Dat Cfg)

variable {F : FTy → Type} [FloatOps F]
local notation "𝕄" => MT nD τ sig Unit (Elt F) ℕ (UR sig nD τ) ℕ

abbrev LL : GSem nD τ sig → Finset Unit := fun _ => ∅
abbrev lvv : GSem nD τ sig → Unit → ℕ := fun _ _ => 0
abbrev Rr (c : Dev nD) : sProp 𝕄 := iprop((∃ r, prngReg c r) ∗ ∃ W, owes (c : Thread nD τ) (0 : CellTallies nD τ sig Unit) W)

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev N0 (c : Dev nD) : Valuation τ sig (Elt F) := fun b => m (c, b)
abbrev N1 (c : Dev nD) : Valuation τ sig (Elt F) := StableHlo.after hostOps0 (N0 m c)
def o2 (c : Dev nD) : Buf (Elt F) ((c : Thread nD τ).loc main_v8) := (dat0 (atRefs (N1 m)) c).arrAt 3 cfg0.N
abbrev N2 (c : Dev nD) : Valuation τ sig (Elt F) := Function.update (N1 m c) main_v8 (o2 m c)
def o3 (c : Dev nD) : Buf (Elt F) ((c : Thread nD τ).loc main_v9) := (dat1 (atRefs (N2 m)) c).arrAt 3 cfg1.N
abbrev N3 (c : Dev nD) : Valuation τ sig (Elt F) := Function.update (N2 m c) main_v9 (o3 m c)
abbrev N4 (c : Dev nD) : Valuation τ sig (Elt F) := StableHlo.after hostOps2 (N3 m c)
def o5 (c : Dev nD) : Buf (Elt F) ((c : Thread nD τ).loc main_v17) := (dat2 (atRefs (N4 m)) c).arrAt 2 cfg2.N
abbrev N5 (c : Dev nD) : Valuation τ sig (Elt F) := Function.update (N4 m c) main_v17 (o5 m c)
abbrev N6 (c : Dev nD) : Valuation τ sig (Elt F) := StableHlo.after hostOps3 (N5 m c)
def o7 (c : Dev nD) : Buf (Elt F) ((c : Thread nD τ).loc main_v45) := (dat3 (atRefs (N6 m)) c).arrAt 10 cfg3.N
abbrev N7 (c : Dev nD) : Valuation τ sig (Elt F) := Function.update (N6 m c) main_v45 (o7 m c)
abbrev N8 (c : Dev nD) : Valuation τ sig (Elt F) := StableHlo.after hostOps4 (N7 m c)
def o9 (c : Dev nD) : Buf (Elt F) ((c : Thread nD τ).loc main_v53) := (dat4 (atRefs (N8 m)) c).arrAt 2 cfg4.N
abbrev N9 (c : Dev nD) : Valuation τ sig (Elt F) := Function.update (N8 m c) main_v53 (o9 m c)
abbrev N10 (c : Dev nD) : Valuation τ sig (Elt F) := StableHlo.after hostOps5 (N9 m c)
def o11 (c : Dev nD) : Buf (Elt F) ((c : Thread nD τ).loc main_v81) := (dat5 (atRefs (N10 m)) c).arrAt 10 cfg5.N
abbrev N11 (c : Dev nD) : Valuation τ sig (Elt F) := Function.update (N10 m c) main_v81 (o11 m c)
abbrev N12 (c : Dev nD) : Valuation τ sig (Elt F) := StableHlo.after hostOps6 (N11 m c)
def o13 (c : Dev nD) : Buf (Elt F) ((c : Thread nD τ).loc main_v89) := (dat6 (atRefs (N12 m)) c).arrAt 2 cfg6.N
abbrev N13 (c : Dev nD) : Valuation τ sig (Elt F) := Function.update (N12 m c) main_v89 (o13 m c)
abbrev N14 (c : Dev nD) : Valuation τ sig (Elt F) := StableHlo.after hostOps7 (N13 m c)
def o15 (c : Dev nD) : Buf (Elt F) ((c : Thread nD τ).loc main_v117) := (dat7 (atRefs (N14 m)) c).arrAt 10 cfg7.N
abbrev N15 (c : Dev nD) : Valuation τ sig (Elt F) := Function.update (N14 m c) main_v117 (o15 m c)
abbrev N16 (c : Dev nD) : Valuation τ sig (Elt F) := StableHlo.after hostOps8 (N15 m c)
def o17 (c : Dev nD) : Buf (Elt F) ((c : Thread nD τ).loc main_v119) := (dat8 (atRefs (N16 m)) c).arrAt 2 cfg8.N
abbrev N17 (c : Dev nD) : Valuation τ sig (Elt F) := Function.update (N16 m c) main_v119 (o17 m c)
abbrev N18 (c : Dev nD) : Valuation τ sig (Elt F) := StableHlo.after hostOps9 (N17 m c)

def outs : Outs (F := F) := fun _ r c => match r with
  | ⟨.hbm, 26, _⟩ => o2 m c
  | ⟨.hbm, 27, _⟩ => o3 m c
  | ⟨.hbm, 37, _⟩ => o5 m c
  | ⟨.hbm, 66, _⟩ => o7 m c
  | ⟨.hbm, 76, _⟩ => o9 m c
  | ⟨.hbm, 105, _⟩ => o11 m c
  | ⟨.hbm, 115, _⟩ => o13 m c
  | ⟨.hbm, 144, _⟩ => o15 m c
  | ⟨.hbm, 146, _⟩ => o17 m c
  | r => m ((c : Thread nD τ).loc r)

theorem outs_main_v8 (J : ℕ) (c : Dev nD) : outs m J main_v8 c = o2 m c := rfl
theorem outs_main_v9 (J : ℕ) (c : Dev nD) : outs m J main_v9 c = o3 m c := rfl
theorem outs_main_v17 (J : ℕ) (c : Dev nD) : outs m J main_v17 c = o5 m c := rfl
theorem outs_main_v45 (J : ℕ) (c : Dev nD) : outs m J main_v45 c = o7 m c := rfl
theorem outs_main_v53 (J : ℕ) (c : Dev nD) : outs m J main_v53 c = o9 m c := rfl
theorem outs_main_v81 (J : ℕ) (c : Dev nD) : outs m J main_v81 c = o11 m c := rfl
theorem outs_main_v89 (J : ℕ) (c : Dev nD) : outs m J main_v89 c = o13 m c := rfl
theorem outs_main_v117 (J : ℕ) (c : Dev nD) : outs m J main_v117 c = o15 m c := rfl
theorem outs_main_v119 (J : ℕ) (c : Dev nD) : outs m J main_v119 c = o17 m c := rfl

theorem V1_eq (c : Dev nD) : V1 m c = N1 m c := rfl
theorem V2_eq (c : Dev nD) : V2 m (outs m) c = N2 m c := by unfold V2; rw [V1_eq, outs_main_v8]
theorem V3_eq (c : Dev nD) : V3 m (outs m) c = N3 m c := by unfold V3; rw [V2_eq, outs_main_v9]
theorem V4_eq (c : Dev nD) : V4 m (outs m) c = N4 m c := by unfold V4; rw [V3_eq]
theorem V5_eq (c : Dev nD) : V5 m (outs m) c = N5 m c := by unfold V5; rw [V4_eq, outs_main_v17]
theorem V6_eq (c : Dev nD) : V6 m (outs m) c = N6 m c := by unfold V6; rw [V5_eq]
theorem V7_eq (c : Dev nD) : V7 m (outs m) c = N7 m c := by unfold V7; rw [V6_eq, outs_main_v45]
theorem V8_eq (c : Dev nD) : V8 m (outs m) c = N8 m c := by unfold V8; rw [V7_eq]
theorem V9_eq (c : Dev nD) : V9 m (outs m) c = N9 m c := by unfold V9; rw [V8_eq, outs_main_v53]
theorem V10_eq (c : Dev nD) : V10 m (outs m) c = N10 m c := by unfold V10; rw [V9_eq]
theorem V11_eq (c : Dev nD) : V11 m (outs m) c = N11 m c := by unfold V11; rw [V10_eq, outs_main_v81]
theorem V12_eq (c : Dev nD) : V12 m (outs m) c = N12 m c := by unfold V12; rw [V11_eq]
theorem V13_eq (c : Dev nD) : V13 m (outs m) c = N13 m c := by unfold V13; rw [V12_eq, outs_main_v89]
theorem V14_eq (c : Dev nD) : V14 m (outs m) c = N14 m c := by unfold V14; rw [V13_eq]
theorem V15_eq (c : Dev nD) : V15 m (outs m) c = N15 m c := by unfold V15; rw [V14_eq, outs_main_v117]
theorem V16_eq (c : Dev nD) : V16 m (outs m) c = N16 m c := by unfold V16; rw [V15_eq]
theorem V17_eq (c : Dev nD) : V17 m (outs m) c = N17 m c := by unfold V17; rw [V16_eq, outs_main_v119]
theorem V18_eq (c : Dev nD) : V18 m (outs m) c = N18 m c := by unfold V18; rw [V17_eq]

def pdats : (p : Fin 9) → (c : Dev nD) → Dat τ (Elt F) Unit ℕ (UR sig nD τ) ℕ (cfgs p) c
  | ⟨0, _⟩ => fun c => dat0 (atRefs (N1 m)) c
  | ⟨1, _⟩ => fun c => dat1 (atRefs (N2 m)) c
  | ⟨2, _⟩ => fun c => dat2 (atRefs (N4 m)) c
  | ⟨3, _⟩ => fun c => dat3 (atRefs (N6 m)) c
  | ⟨4, _⟩ => fun c => dat4 (atRefs (N8 m)) c
  | ⟨5, _⟩ => fun c => dat5 (atRefs (N10 m)) c
  | ⟨6, _⟩ => fun c => dat6 (atRefs (N12 m)) c
  | ⟨7, _⟩ => fun c => dat7 (atRefs (N14 m)) c
  | ⟨8, _⟩ => fun c => dat8 (atRefs (N16 m)) c

-- After a region whose only written array is window o's, every array of the region holds what the region leaves there.
theorem arrAt_upd {cfg : Cfg sig Λ₀} {c : Dev nD} (dat : Dat τ (Elt F) Unit ℕ (UR sig nD τ) ℕ cfg c) (hw : Pipeline.WinFacts cfg.spec)
    (V : Valuation τ sig (Elt F)) (hA : ∀ w, dat.A w = V (Proc.tc.devRef (Pipeline.arrRef cfg.spec w)))
    (o : Fin cfg.W) (hin : ∀ w, w ≠ o → (cfg.win w).isOut = false) (w : Fin cfg.W) :
    dat.arrAt w cfg.N
      = Function.update V (Proc.tc.devRef (Pipeline.arrRef cfg.spec o)) (dat.arrAt o cfg.N) (Proc.tc.devRef (Pipeline.arrRef cfg.spec w)) := by
  by_cases h : w = o
  · subst h; exact (Function.update_self (Proc.tc.devRef (Pipeline.arrRef cfg.spec w)) (dat.arrAt w cfg.N) V).symm
  · rw [dat.arrAt_in w (hin w h) _, hA]
    exact (Function.update_of_ne (StableHlo.devRef_ne_of_ne fun e => h (hw.arr_inj e)) _ _).symm

-- A buffer that is no array of the region keeps its contents.
theorem upd_rest {W gr : ℕ} (spec : Fin W → Pipeline.WinSpec sig gr) (V : Valuation τ sig (Elt F)) (o : Fin W)
    (v : BufTy.Contents (Elt F) (Proc.tc.devRef (τ := τ) (Pipeline.arrRef spec o)).ty) :
    ∀ b, b ∉ Finset.univ.image (Pipeline.arrRef spec) → Function.update V (Proc.tc.devRef (Pipeline.arrRef spec o)) v (Proc.tc.devRef b) = V (Proc.tc.devRef b) :=
  fun b hb => Function.update_of_ne (StableHlo.devRef_ne_of_ne fun e => hb (Finset.mem_image.mpr ⟨o, Finset.mem_univ _, e.symm⟩)) _ _

theorem inWin0 : ∀ w : Fin cfg0.W, w ≠ (3 : Fin cfg0.W) → (cfg0.win w).isOut = false := by decide
theorem hF0 (c : Dev nD) (w : Fin cfg0.W) : (dat0 (atRefs (N1 m)) c).arrAt w cfg0.N = atRefs (N2 m) c (Pipeline.arrRef spec0 w) :=
  arrAt_upd _ launch0.win (N1 m c) (A_eq0 _ c) 3 inWin0 w
theorem hrest0 (c : Dev nD) : ∀ b, b ∉ Finset.univ.image (Pipeline.arrRef spec0) → atRefs (N2 m) c b = atRefs (N1 m) c b :=
  upd_rest spec0 (N1 m c) 3 (o2 m c)
theorem inWin1 : ∀ w : Fin cfg1.W, w ≠ (3 : Fin cfg1.W) → (cfg1.win w).isOut = false := by decide
theorem hF1 (c : Dev nD) (w : Fin cfg1.W) : (dat1 (atRefs (N2 m)) c).arrAt w cfg1.N = atRefs (N3 m) c (Pipeline.arrRef spec1 w) :=
  arrAt_upd _ launch1.win (N2 m c) (A_eq1 _ c) 3 inWin1 w
theorem hrest1 (c : Dev nD) : ∀ b, b ∉ Finset.univ.image (Pipeline.arrRef spec1) → atRefs (N3 m) c b = atRefs (N2 m) c b :=
  upd_rest spec1 (N2 m c) 3 (o3 m c)
theorem inWin2 : ∀ w : Fin cfg2.W, w ≠ (2 : Fin cfg2.W) → (cfg2.win w).isOut = false := by decide
theorem hF2 (c : Dev nD) (w : Fin cfg2.W) : (dat2 (atRefs (N4 m)) c).arrAt w cfg2.N = atRefs (N5 m) c (Pipeline.arrRef spec2 w) :=
  arrAt_upd _ launch2.win (N4 m c) (A_eq2 _ c) 2 inWin2 w
theorem hrest2 (c : Dev nD) : ∀ b, b ∉ Finset.univ.image (Pipeline.arrRef spec2) → atRefs (N5 m) c b = atRefs (N4 m) c b :=
  upd_rest spec2 (N4 m c) 2 (o5 m c)
theorem inWin3 : ∀ w : Fin cfg3.W, w ≠ (10 : Fin cfg3.W) → (cfg3.win w).isOut = false := by decide
theorem hF3 (c : Dev nD) (w : Fin cfg3.W) : (dat3 (atRefs (N6 m)) c).arrAt w cfg3.N = atRefs (N7 m) c (Pipeline.arrRef spec3 w) :=
  arrAt_upd _ launch3.win (N6 m c) (A_eq3 _ c) 10 inWin3 w
theorem hrest3 (c : Dev nD) : ∀ b, b ∉ Finset.univ.image (Pipeline.arrRef spec3) → atRefs (N7 m) c b = atRefs (N6 m) c b :=
  upd_rest spec3 (N6 m c) 10 (o7 m c)
theorem inWin4 : ∀ w : Fin cfg4.W, w ≠ (2 : Fin cfg4.W) → (cfg4.win w).isOut = false := by decide
theorem hF4 (c : Dev nD) (w : Fin cfg4.W) : (dat4 (atRefs (N8 m)) c).arrAt w cfg4.N = atRefs (N9 m) c (Pipeline.arrRef spec4 w) :=
  arrAt_upd _ launch4.win (N8 m c) (A_eq4 _ c) 2 inWin4 w
theorem hrest4 (c : Dev nD) : ∀ b, b ∉ Finset.univ.image (Pipeline.arrRef spec4) → atRefs (N9 m) c b = atRefs (N8 m) c b :=
  upd_rest spec4 (N8 m c) 2 (o9 m c)
theorem inWin5 : ∀ w : Fin cfg5.W, w ≠ (10 : Fin cfg5.W) → (cfg5.win w).isOut = false := by decide
theorem hF5 (c : Dev nD) (w : Fin cfg5.W) : (dat5 (atRefs (N10 m)) c).arrAt w cfg5.N = atRefs (N11 m) c (Pipeline.arrRef spec5 w) :=
  arrAt_upd _ launch5.win (N10 m c) (A_eq5 _ c) 10 inWin5 w
theorem hrest5 (c : Dev nD) : ∀ b, b ∉ Finset.univ.image (Pipeline.arrRef spec5) → atRefs (N11 m) c b = atRefs (N10 m) c b :=
  upd_rest spec5 (N10 m c) 10 (o11 m c)
theorem inWin6 : ∀ w : Fin cfg6.W, w ≠ (2 : Fin cfg6.W) → (cfg6.win w).isOut = false := by decide
theorem hF6 (c : Dev nD) (w : Fin cfg6.W) : (dat6 (atRefs (N12 m)) c).arrAt w cfg6.N = atRefs (N13 m) c (Pipeline.arrRef spec6 w) :=
  arrAt_upd _ launch6.win (N12 m c) (A_eq6 _ c) 2 inWin6 w
theorem hrest6 (c : Dev nD) : ∀ b, b ∉ Finset.univ.image (Pipeline.arrRef spec6) → atRefs (N13 m) c b = atRefs (N12 m) c b :=
  upd_rest spec6 (N12 m c) 2 (o13 m c)
theorem inWin7 : ∀ w : Fin cfg7.W, w ≠ (10 : Fin cfg7.W) → (cfg7.win w).isOut = false := by decide
theorem hF7 (c : Dev nD) (w : Fin cfg7.W) : (dat7 (atRefs (N14 m)) c).arrAt w cfg7.N = atRefs (N15 m) c (Pipeline.arrRef spec7 w) :=
  arrAt_upd _ launch7.win (N14 m c) (A_eq7 _ c) 10 inWin7 w
theorem hrest7 (c : Dev nD) : ∀ b, b ∉ Finset.univ.image (Pipeline.arrRef spec7) → atRefs (N15 m) c b = atRefs (N14 m) c b :=
  upd_rest spec7 (N14 m c) 10 (o15 m c)
theorem inWin8 : ∀ w : Fin cfg8.W, w ≠ (2 : Fin cfg8.W) → (cfg8.win w).isOut = false := by decide
theorem hF8 (c : Dev nD) (w : Fin cfg8.W) : (dat8 (atRefs (N16 m)) c).arrAt w cfg8.N = atRefs (N17 m) c (Pipeline.arrRef spec8 w) :=
  arrAt_upd _ launch8.win (N16 m c) (A_eq8 _ c) 2 inWin8 w
theorem hrest8 (c : Dev nD) : ∀ b, b ∉ Finset.univ.image (Pipeline.arrRef spec8) → atRefs (N17 m) c b = atRefs (N16 m) c b :=
  upd_rest spec8 (N16 m c) 2 (o17 m c)

end Cert.Kernel.Hand

end
-- ==== Proof.KB.SegOf.lean ====
import proofs.«428859_j12661563588730_1_alg».proof.Proof.KB.Chain

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- Separating conjunction commutes; the middle conjunct is not needed.
theorem ΦA_in {gr W : ℕ} (spec : Fin W → Pipeline.WinSpec sig gr) (c : Dev nD) (P : sProp 𝕄) :
    iprop((∃ r, prngReg c r) ∗ P ∗ Pipeline.scopedRest spec c) ⊢ Pipeline.ΦA spec c := by
  unfold Pipeline.ΦA
  iintro ⟨Hp, -, Hr⟩
  isplitl [Hr] <;> iassumption

theorem ΦA_out {gr W : ℕ} (spec : Fin W → Pipeline.WinSpec sig gr) (c : Dev nD) :
    (Pipeline.ΦA spec c : sProp 𝕄) ⊢ iprop((∃ r, prngReg c r) ∗ Pipeline.scopedRest spec c) := by
  unfold Pipeline.ΦA
  iintro ⟨Hr, Hp⟩
  isplitl [Hp] <;> iassumption

variable (m : (ℓ : Loc nD τ sig) → Buf (Elt F) ℓ)

-- The record at any index p, between contents N and N'; facts that hold by computation at each literal index are hypotheses.
def regOf (p : Fin 9) (L : Pipeline.LaunchFacts (nD := nD) (τ := τ) cfgs p) (N N' : Dev nD → Valuation τ sig (Elt F))
    (hbody : ∀ c, Pipeline.BodyObligationLoose (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = atRefs N c (Pipeline.arrRef (cfgs p).spec w))
    (hF : ∀ c w, (pdats m p c).arrAt w (cfgs p).N = atRefs N' c (Pipeline.arrRef (cfgs p).spec w))
    (hrest : ∀ c b, b ∉ Finset.univ.image (Pipeline.arrRef (cfgs p).spec) → atRefs N' c b = atRefs N c b)
    (hin : ∀ c, iprop((∃ r, prngReg c r) ∗ Pipeline.prefHeld (pcfgs (F := F) p).pre c (fun _ => fullShare) (adm p).1
      ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c)) :
    Pipeline.RegionSeg (pcfgs (F := F)) adm (pdats m) () defs₀ Variants.none LL lvv p where
  win := L.win.to₀
  block_pos := L.block_pos
  stage_whole := L.stage_whole
  K := PEmpty
  osem k := k.elim
  ho := Pipeline.OwnSemFacts.none _
  hbody := hbody
  hwaits := Pipeline.hwaits_of_owed_zero _ _ _ _ LL lvv p howed
  pre c := iprop(StableHlo.held (c : Thread nD τ) (Pipeline.ucRefs τ sig) (N c) ∗ Rr c)
  post c := iprop(StableHlo.held (c : Thread nD τ) (Pipeline.ucRefs τ sig) (N' c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atRefs N c)
  hentry c := by
    rw [Pipeline.ownSems0_none]; unfold Pipeline.Dat.owesAt Pipeline.owesWithin Pipeline.Dat.bound; rw [howed, hrec]
    have hsplit := Pipeline.arrays_of_unscopedBufs (p := p) (pcfgs (F := F)) adm (pdats m) L.win L.arr_whole c
      ((pdats m p c).share_full (hq c)) (atRefs N c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp] <;> iassumption
  hin := hin
  hout c := by
    rw [Pipeline.ownSems0_none]; refine (hout c).trans ?_
    iintro ⟨Hp, Hr⟩
    isplitl [Hp]; · iexact Hp
    isplitr; · iempintro
    iexact Hr
  hexit c := by
    unfold Pipeline.Dat.owesAt Pipeline.owesWithin; rw [howed]
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atRefs N c) (atRefs N' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.Kernel.Hand

end
-- ==== Proof.KB.Seg0.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg0 : Pipeline.RegionSeg (pcfgs (F := F)) adm (pdats m) () defs₀ Variants.none LL lvv 0 :=
  regOf m 0 launch0 (N1 m) (N2 m) (fun c => (body_obligation0 (atRefs (N1 m)) c).loose) (fun _ _ => rfl) (fun _ => rfl)
    (fun _ _ => rfl) (fun _ _ => rfl) (hF0 m) (hrest0 m) (fun c => ΦA_in _ c _) fun c => ΦA_out _ c

end Cert.Kernel.Hand

end
-- ==== Proof.KB.Seg1.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg1 : Pipeline.RegionSeg (pcfgs (F := F)) adm (pdats m) () defs₀ Variants.none LL lvv 1 :=
  regOf m 1 launch1 (N2 m) (N3 m) (fun c => (body_obligation1 (atRefs (N2 m)) c).loose) (fun _ _ => rfl) (fun _ => rfl)
    (fun _ _ => rfl) (fun _ _ => rfl) (hF1 m) (hrest1 m) (fun c => ΦA_in _ c _) fun c => ΦA_out _ c

end Cert.Kernel.Hand

end
-- ==== Proof.KB.Seg2.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg2 : Pipeline.RegionSeg (pcfgs (F := F)) adm (pdats m) () defs₀ Variants.none LL lvv 2 :=
  regOf m 2 launch2 (N4 m) (N5 m) (fun c => (body_obligation2 (atRefs (N4 m)) c).loose) (fun _ _ => rfl) (fun _ => rfl)
    (fun _ _ => rfl) (fun _ _ => rfl) (hF2 m) (hrest2 m) (fun c => ΦA_in _ c _) fun c => ΦA_out _ c

end Cert.Kernel.Hand

end
-- ==== Proof.KB.Seg3.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg3 : Pipeline.RegionSeg (pcfgs (F := F)) adm (pdats m) () defs₀ Variants.none LL lvv 3 :=
  regOf m 3 launch3 (N6 m) (N7 m) (fun c => (body_obligation3 (atRefs (N6 m)) c).loose) (fun _ _ => rfl) (fun _ => rfl)
    (fun _ _ => rfl) (fun _ _ => rfl) (hF3 m) (hrest3 m) (fun c => ΦA_in _ c _) fun c => ΦA_out _ c

end Cert.Kernel.Hand

end
-- ==== Proof.KB.Seg4.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg4 : Pipeline.RegionSeg (pcfgs (F := F)) adm (pdats m) () defs₀ Variants.none LL lvv 4 :=
  regOf m 4 launch4 (N8 m) (N9 m) (fun c => (body_obligation4 (atRefs (N8 m)) c).loose) (fun _ _ => rfl) (fun _ => rfl)
    (fun _ _ => rfl) (fun _ _ => rfl) (hF4 m) (hrest4 m) (fun c => ΦA_in _ c _) fun c => ΦA_out _ c

end Cert.Kernel.Hand

end
-- ==== Proof.KB.Seg5.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg5 : Pipeline.RegionSeg (pcfgs (F := F)) adm (pdats m) () defs₀ Variants.none LL lvv 5 :=
  regOf m 5 launch5 (N10 m) (N11 m) (fun c => (body_obligation5 (atRefs (N10 m)) c).loose) (fun _ _ => rfl) (fun _ => rfl)
    (fun _ _ => rfl) (fun _ _ => rfl) (hF5 m) (hrest5 m) (fun c => ΦA_in _ c _) fun c => ΦA_out _ c

end Cert.Kernel.Hand

end
-- ==== Proof.KB.Seg6.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg6 : Pipeline.RegionSeg (pcfgs (F := F)) adm (pdats m) () defs₀ Variants.none LL lvv 6 :=
  regOf m 6 launch6 (N12 m) (N13 m) (fun c => (body_obligation6 (atRefs (N12 m)) c).loose) (fun _ _ => rfl) (fun _ => rfl)
    (fun _ _ => rfl) (fun _ _ => rfl) (hF6 m) (hrest6 m) (fun c => ΦA_in _ c _) fun c => ΦA_out _ c

end Cert.Kernel.Hand

end
-- ==== Proof.KB.Seg7.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg7 : Pipeline.RegionSeg (pcfgs (F := F)) adm (pdats m) () defs₀ Variants.none LL lvv 7 :=
  regOf m 7 launch7 (N14 m) (N15 m) (fun c => (body_obligation7 (atRefs (N14 m)) c).loose) (fun _ _ => rfl) (fun _ => rfl)
    (fun _ _ => rfl) (fun _ _ => rfl) (hF7 m) (hrest7 m) (fun c => ΦA_in _ c _) fun c => ΦA_out _ c

end Cert.Kernel.Hand

end
-- ==== Proof.KB.Seg8.lean ====
import proofs.«428859_j12661563588730_1_alg».proof.Proof.KB.SegOf

noncomputable section

namespace Cert.Kernel.Hand

open Cert.Kernel Cert.Kernel.Gen Idealize.ShloMosaic

variable {F : FTy → Type} [FloatOps F] (m : (ℓ : Loc nD τ sig) → Buf (Elt F) ℓ)

def reg8 : Pipeline.RegionSeg (pcfgs (F := F)) adm (pdats m) () defs₀ Variants.none LL lvv 8 :=
  regOf m 8 launch8 (N16 m) (N17 m) (fun c => (body_obligation8 (atRefs (N16 m)) c).loose) (fun _ _ => rfl) (fun _ => rfl)
    (fun _ _ => rfl) (fun _ _ => rfl) (hF8 m) (hrest8 m) (fun c => hin8 (atRefs (N16 m)) c _) (hout8 (atRefs (N16 m)))

end Cert.Kernel.Hand

end
-- ==== Proof.KB.Run.lean ====
import proofs.«428859_j12661563588730_1_alg».proof.Proof.KB.Seg0
import proofs.«428859_j12661563588730_1_alg».proof.Proof.KB.Seg1
import proofs.«428859_j12661563588730_1_alg».proof.Proof.KB.Seg2
import proofs.«428859_j12661563588730_1_alg».proof.Proof.KB.Seg3
import proofs.«428859_j12661563588730_1_alg».proof.Proof.KB.Seg4
import proofs.«428859_j12661563588730_1_alg».proof.Proof.KB.Seg5
import proofs.«428859_j12661563588730_1_alg».proof.Proof.KB.Seg6
import proofs.«428859_j12661563588730_1_alg».proof.Proof.KB.Seg7
import proofs.«428859_j12661563588730_1_alg».proof.Proof.KB.Seg8
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EE : Fin 10 → Dev nD → sProp 𝕄 := fun _ c => Rr c

-- Held contents may be replaced by equal ones, on either side of an entailment.
theorem held_to {c : Dev nD} {V N : Valuation τ sig (Elt F)} (e : V = N) {R P : sProp 𝕄}
    (h : iprop(StableHlo.held (c : Thread nD τ) (Pipeline.ucRefs τ sig) N ∗ R) ⊢ P) :
    iprop(StableHlo.held (c : Thread nD τ) (Pipeline.ucRefs τ sig) V ∗ R) ⊢ P := e ▸ h
theorem held_from {c : Dev nD} {V N : Valuation τ sig (Elt F)} (e : V = N) {R P : sProp 𝕄}
    (h : P ⊢ iprop(StableHlo.held (c : Thread nD τ) (Pipeline.ucRefs τ sig) N ∗ R)) :
    P ⊢ iprop(StableHlo.held (c : Thread nD τ) (Pipeline.ucRefs τ sig) V ∗ R) := e ▸ h

-- Every argument buffer of core c in the memory s is as launched.
abbrev argsKept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)

set_option backward.isDefEq.respectTransparency.types false in
-- The program runs item by item over the named contents; the last of them gives the result buffer, and no item writes an argument.
theorem run_main : θ_run defs (onTc (τ := τ) (main (F := F))) ⟨m, fun _ => 0, ρ⟩ (fun r => ∀ c : Dev nD,
      r.2.mem ((c.tc : Thread nD τ).loc main_v133) = N18 m c main_v133 ∧ argsKept m c r.2) := by
  refine Pipeline.θ_run_regions_kit_dev (pcfgs (F := F)) adm (pdats m) () cellOf_inj emb₁ defs₀ Variants.none LL lvv m ρ main
    (segs m (outs m) Variants.none LL lvv (EE (F := F)) () (pdats m) (reg0 m) (reg1 m) (reg2 m) (reg3 m) (reg4 m) (reg5 m) (reg6 m) (reg7 m) (reg8 m))
    (fun c Q => by
      rewrite [main_chain c, Seg.run_eq_chain,
        show (segs m (outs m) Variants.none LL lvv (EE (F := F)) () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V18 m (outs m) c))
    (hch := fun c => ⟨.rfl, held_to (V1_eq m c) .rfl, (held_from (V2_eq m c) .rfl).trans (held_to (V2_eq m c) .rfl), held_from (V3_eq m c) .rfl, held_to (V4_eq m c) .rfl, held_from (V5_eq m c) .rfl, held_to (V6_eq m c) .rfl,
      held_from (V7_eq m c) .rfl, held_to (V8_eq m c) .rfl, held_from (V9_eq m c) .rfl, held_to (V10_eq m c) .rfl, held_from (V11_eq m c) .rfl, held_to (V12_eq m c) .rfl,
      held_from (V13_eq m c) .rfl, held_to (V14_eq m c) .rfl, held_from (V15_eq m c) .rfl, held_to (V16_eq m c) .rfl, held_from (V17_eq m c) .rfl,
      sep_mono .rfl (by iintro ⟨-, H⟩; iexact H)⟩)
    (hinit := ?_) (QY := fun c s => s.mem ((c.tc : Thread nD τ).loc main_v133) = N18 m c main_v133 ∧ argsKept m c s)
    (hfin := fun c s' => ?_) (hQ := fun _ h => h)
  · refine Pipeline.initEach LL lvv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      have R := fun (r : Ref sig .tc) hr => h (Proc.devRef .tc r) (Finset.mem_filter.mpr ⟨StableHlo.devRef_mem_tcRefs r, hr⟩)
      exact ⟨(R main_v133 (by decide)).trans (congrFun (V18_eq m c) _),
        (R main_arg0 (by decide)).trans (V18_main_arg0 m (outs m) c),
        (R main_arg1 (by decide)).trans (V18_main_arg1 m (outs m) c),
        (R main_arg2 (by decide)).trans (V18_main_arg2 m (outs m) c),
        (R main_arg3 (by decide)).trans (V18_main_arg3 m (outs m) c),
        (R main_arg4 (by decide)).trans (V18_main_arg4 m (outs m) c),
        (R main_arg5 (by decide)).trans (V18_main_arg5 m (outs m) c),
        (R main_arg6 (by decide)).trans (V18_main_arg6 m (outs m) c),
        (R main_arg7 (by decide)).trans (V18_main_arg7 m (outs m) c),
        (R main_arg8 (by decide)).trans (V18_main_arg8 m (outs m) c),
        (R main_arg9 (by decide)).trans (V18_main_arg9 m (outs m) c),
        (R main_arg10 (by decide)).trans (V18_main_arg10 m (outs m) c),
        (R main_arg11 (by decide)).trans (V18_main_arg11 m (outs m) c),
        (R main_arg12 (by decide)).trans (V18_main_arg12 m (outs m) c),
        (R main_arg13 (by decide)).trans (V18_main_arg13 m (outs m) c),
        (R main_arg14 (by decide)).trans (V18_main_arg14 m (outs m) c),
        (R main_arg15 (by decide)).trans (V18_main_arg15 m (outs m) c),
        (R main_arg16 (by decide)).trans (V18_main_arg16 m (outs m) c),
        (R main_arg17 (by decide)).trans (V18_main_arg17 m (outs m) c)⟩
    · iexact HSI

theorem frame : θ_run defs (onTc (τ := τ) (main (F := F))) ⟨m, fun _ => 0, ρ⟩ (fun r => ∀ c : Dev nD, argsKept m c r.2) :=
  (θ_run defs _ _).mono (fun _ h c => (h c).2) (run_main m ρ)

end Cert.Kernel.Hand

end
-- ==== Proof.KI.Reg0.lean ====
import proofs.«428859_j12661563588730_1_alg».proof.Proof.Gen.KernelIdeal.Launch
import proofs.«428859_j12661563588730_1_alg».proof.Proof.Gen.KernelIdeal.Skeleton
import proofs.«428859_j12661563588730_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x11 := Rect.unit (s := S5000x11) ![0, 0] S5000x11.size inb_S5000x11_S5000x11_0_0
abbrev r0_w : Rect S11x128 := Rect.unit (s := S11x128) ![0, 0] S11x128.size inb_S11x128_S11x128_0_0
abbrev r0_b : Rect S1x128 := Rect.unit (s := S1x128) ![0, 0] S1x128.size inb_S1x128_S1x128_0_0
abbrev r0_o : Rect S5000x128 := Rect.unit (s := S5000x128) ![0, 0] S5000x128.size inb_S5000x128_S5000x128_0_0

def out0_3 (x0 : Vec F S5000x11 .f32) (x1 : Vec F S11x128 .f32) (x2 : Vec F S1x128 .f32) : Vec F S5000x128 .f32 :=
  View.canon [⟨r0_o, k0_pay1 (View.ld x0 r0_x) (View.ld x1 r0_w) (View.ld x2 r0_b)⟩]

set_option maxHeartbeats 1000000 in
/-- The body keeps its three inputs and ends with its one whole-block store in the output. -/
theorem sound_kernel0 (c : Dev nD) (E : Set ℕ) (i : grid0.Coords) (arg0 : Memref sig .tc .vmem S5000x11 .f32) (harg0 : arg0.IsWhole)
    (arg1 : Memref sig .tc .vmem S11x128 .f32) (harg1 : arg1.IsWhole) (arg2 : Memref sig .tc .vmem S1x128 .f32) (harg2 : arg2.IsWhole)
    (arg3 : Memref sig .tc .vmem S5000x128 .f32) (harg3 : arg3.IsWhole)
    (x0 : Vec F S5000x11 .f32) (x1 : Vec F S11x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__node_embed_kernel i arg0 harg0 arg1 harg1 arg2 harg2 arg3 harg3) K := by
  simp only [cc0__node_embed_kernel_eq_skeleton]; unfold cc0__node_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = out0_3 (iblk0 V c 0 t) (iblk0 V c 1 t) (iblk0 V c 2 t) := by dsimp only [dat0]

/-- For an input window `before` is `after`: both are the window's block of the array at entry. -/
theorem before0 (c : Dev nD) : ∀ w : Fin cfg0.W, (cfg0.win w).isOut = false → ∀ t d, (dat0 V c).before w t d = (dat0 V c).after w t
  | 0, h | 1, h | 2, h => fun t d => ((dat0 V c).before_in_eq_fetched _ h (fun _ => rfl) (fun _ _ _ => rfl) (fun _ => rfl) t d).trans rfl
  | 3, h => absurd h (by decide)

theorem body_obligation0 (c : Dev nD) : BodyObligation (dat0 (F := F) V c) (defs₀ (F := F)) Variants.none () Set.univ := fun t => by
  rw [bigSep_W0, bigSep_W0]
  simp only [before0 V c 0 rfl, before0 V c 1 rfl, before0 V c 2 rfl]
  rw [show (dat0 V c).Φ t.succ = (dat0 V c).Φ t.castSucc from rfl,
    show (dat0 V c).owesAt () t.succ = (dat0 V c).owesAt () t.castSucc from rfl,
    show (dat0 V c).after 3 t = out0_3 ((dat0 V c).after 0 t) ((dat0 V c).after 1 t) ((dat0 V c).after 2 t) by dsimp only [dat0]]
  iintro ⟨HΦ, Ho, ⟨%d0, H0⟩, ⟨%d1, H1⟩, ⟨%d2, H2⟩, ⟨%d3, H3⟩⟩
  iapply (sound_kernel0 c Set.univ (grid0.coords t) (st0_0 t) (hstage0_0 _) (st0_1 t) (hstage0_1 _) (st0_2 t) (hstage0_2 _) (st0_3 t) (hstage0_3 _)
    ((dat0 V c).after 0 t) ((dat0 V c).after 1 t) ((dat0 V c).after 2 t) _)
  iframe H0 H1 H2
  isplitl [H3]; · iexists _; iexact H3
  iintro ⟨H0, H1, H2, H3⟩
  iframe

end Cert.KernelIdeal.Hand

end
-- ==== Proof.KI.Reg1.lean ====
import proofs.«428859_j12661563588730_1_alg».proof.Proof.Gen.KernelIdeal.Launch
import proofs.«428859_j12661563588730_1_alg».proof.Proof.Gen.KernelIdeal.Skeleton
import proofs.«428859_j12661563588730_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S8000x14 := Rect.unit (s := S8000x14) ![0, 0] S8000x14.size inb_S8000x14_S8000x14_0_0
abbrev r1_w : Rect S14x128 := Rect.unit (s := S14x128) ![0, 0] S14x128.size inb_S14x128_S14x128_0_0
abbrev r1_b : Rect S1x128 := Rect.unit (s := S1x128) ![0, 0] S1x128.size inb_S1x128_S1x128_0_0
abbrev r1_o : Rect S8000x128 := Rect.unit (s := S8000x128) ![0, 0] S8000x128.size inb_S8000x128_S8000x128_0_0

def out1_3 (x0 : Vec F S8000x14 .f32) (x1 : Vec F S14x128 .f32) (x2 : Vec F S1x128 .f32) : Vec F S8000x128 .f32 :=
  View.canon [⟨r1_o, k1_pay1 (View.ld x0 r1_x) (View.ld x1 r1_w) (View.ld x2 r1_b)⟩]

set_option maxHeartbeats 1000000 in
/-- The body keeps its three inputs and ends with its one whole-block store in the output. -/
theorem sound_kernel1 (c : Dev nD) (E : Set ℕ) (i : grid1.Coords) (arg0 : Memref sig .tc .vmem S8000x14 .f32) (harg0 : arg0.IsWhole)
    (arg1 : Memref sig .tc .vmem S14x128 .f32) (harg1 : arg1.IsWhole) (arg2 : Memref sig .tc .vmem S1x128 .f32) (harg2 : arg2.IsWhole)
    (arg3 : Memref sig .tc .vmem S8000x128 .f32) (harg3 : arg3.IsWhole)
    (x0 : Vec F S8000x14 .f32) (x1 : Vec F S14x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__edge_embed_kernel i arg0 harg0 arg1 harg1 arg2 harg2 arg3 harg3) K := by
  simp only [cc1__edge_embed_kernel_eq_skeleton]; unfold cc1__edge_embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S8000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = out1_3 (iblk1 V c 0 t) (iblk1 V c 1 t) (iblk1 V c 2 t) := by dsimp only [dat1]

/-- For an input window `before` is `after`: both are the window's block of the array at entry. -/
theorem before1 (c : Dev nD) : ∀ w : Fin cfg1.W, (cfg1.win w).isOut = false → ∀ t d, (dat1 V c).before w t d = (dat1 V c).after w t
  | 0, h | 1, h | 2, h => fun t d => ((dat1 V c).before_in_eq_fetched _ h (fun _ => rfl) (fun _ _ _ => rfl) (fun _ => rfl) t d).trans rfl
  | 3, h => absurd h (by decide)

theorem body_obligation1 (c : Dev nD) : BodyObligation (dat1 (F := F) V c) (defs₀ (F := F)) Variants.none () Set.univ := fun t => by
  rw [bigSep_W1, bigSep_W1]
  simp only [before1 V c 0 rfl, before1 V c 1 rfl, before1 V c 2 rfl]
  rw [show (dat1 V c).Φ t.succ = (dat1 V c).Φ t.castSucc from rfl,
    show (dat1 V c).owesAt () t.succ = (dat1 V c).owesAt () t.castSucc from rfl,
    show (dat1 V c).after 3 t = out1_3 ((dat1 V c).after 0 t) ((dat1 V c).after 1 t) ((dat1 V c).after 2 t) by dsimp only [dat1]]
  iintro ⟨HΦ, Ho, ⟨%d0, H0⟩, ⟨%d1, H1⟩, ⟨%d2, H2⟩, ⟨%d3, H3⟩⟩
  iapply (sound_kernel1 c Set.univ (grid1.coords t) (st1_0 t) (hstage1_0 _) (st1_1 t) (hstage1_1 _) (st1_2 t) (hstage1_2 _) (st1_3 t) (hstage1_3 _)
    ((dat1 V c).after 0 t) ((dat1 V c).after 1 t) ((dat1 V c).after 2 t) _)
  iframe H0 H1 H2
  isplitl [H3]; · iexists _; iexact H3
  iintro ⟨H0, H1, H2, H3⟩
  iframe

end Cert.KernelIdeal.Hand

end
-- ==== Proof.KI.Reg2.lean ====
import proofs.«428859_j12661563588730_1_alg».proof.Proof.Gen.KernelIdeal.Launch
import proofs.«428859_j12661563588730_1_alg».proof.Proof.Gen.KernelIdeal.Skeleton
import proofs.«428859_j12661563588730_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S8000x128 := Rect.unit (s := S8000x128) ![0, 0] S8000x128.size inb_S8000x128_S8000x128_0_0

def out2_2 (x0 x1 : Vec F S8000x128 .f32) : Vec F S8000x128 .f32 :=
  View.canon [⟨r2_0, k2_pay1 (View.ld x0 r2_0) (View.ld x1 r2_0)⟩]

set_option maxHeartbeats 1000000 in
/-- The body keeps its two inputs and ends with its one whole-block store in the output. -/
theorem sound_kernel2 (c : Dev nD) (E : Set ℕ) (i : grid2.Coords) (arg0 : Memref sig .tc .vmem S8000x128 .f32) (harg0 : arg0.IsWhole)
    (arg1 : Memref sig .tc .vmem S8000x128 .f32) (harg1 : arg1.IsWhole) (arg2 : Memref sig .tc .vmem S8000x128 .f32) (harg2 : arg2.IsWhole)
    (x0 x1 : Vec F S8000x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out2_2 x0 x1)) -∗ K ⟨⟩))
      ⊢ wp frame (wpE (defs₀ (F := F)) Variants.none c none) E (cc2__msg_kernel i arg0 harg0 arg1 harg1 arg2 harg2) K := by
  simp only [cc2__msg_kernel_eq_skeleton]; unfold cc2__msg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (View.cover_of_tiled _ S8000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := by dsimp only [dat2]

/-- For an input window `before` is `after`: both are the window's block of the array at entry. -/
theorem before2 (c : Dev nD) : ∀ w : Fin cfg2.W, (cfg2.win w).isOut = false → ∀ t d, (dat2 V c).before w t d = (dat2 V c).after w t
  | 0, h | 1, h => fun t d => ((dat2 V c).before_in_eq_fetched _ h (fun _ => rfl) (fun _ _ _ => rfl) (fun _ => rfl) t d).trans rfl
  | 2, h => absurd h (by decide)

theorem body_obligation2 (c : Dev nD) : BodyObligation (dat2 (F := F) V c) (defs₀ (F := F)) Variants.none () Set.univ := fun t => by
  rw [bigSep_W2, bigSep_W2]
  simp only [before2 V c 0 rfl, before2 V c 1 rfl]
  rw [show (dat2 V c).Φ t.succ = (dat2 V c).Φ t.castSucc from rfl,
    show (dat2 V c).owesAt () t.succ = (dat2 V c).owesAt () t.castSucc from rfl,
    show (dat2 V c).after 2 t = out2_2 ((dat2 V c).after 0 t) ((dat2 V c).after 1 t) by dsimp only [dat2]]
  iintro ⟨HΦ, Ho, ⟨%d0, H0⟩, ⟨%d1, H1⟩, ⟨%d2, H2⟩⟩
  iapply (sound_kernel2 c Set.univ (grid2.coords t) (st2_0 t) (hstage2_0 _) (st2_1 t) (hstage2_1 _) (st2_2 t) (hstage2_2 _) ((dat2 V c).after 0 t) ((dat2 V c).after 1 t) _)
  iframe H0 H1
  isplitl [H2]; · iexists _; iexact H2
  iintro ⟨H0, H1, H2⟩
  iframe

end Cert.KernelIdeal.Hand

end
-- ==== Proof.KI.Reg3.lean ====
import proofs.«428859_j12661563588730_1_alg».proof.Proof.Gen.KernelIdeal.Launch
import proofs.«428859_j12661563588730_1_alg».proof.Proof.Gen.KernelIdeal.Skeleton
import proofs.«428859_j12661563588730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_h : Rect S5000x128 := Rect.unit (s := S5000x128) ![0, 0] S5000x128.size inb_S5000x128_S5000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

def out3_10 (x0 x1 : Vec F S5000x128 .f32) (x2 : Vec F S128x128 .f32) (x3 x4 x5 x6 x7 : Vec F S1x128 .f32)
    (x8 : Vec F S128x128 .f32) (x9 : Vec F S1x128 .f32) : Vec F S5000x128 .f32 :=
  View.canon [⟨r3_h, k3_pay1 (k3_pay2 (View.ld x0 r3_h)) (k3_pay3 (View.ld x0 r3_h) (View.ld x1 r3_h) (View.ld x2 r3_w) (View.ld x3 r3_b) (View.ld x7 r3_b) (View.ld x6 r3_b) (View.ld x4 r3_b) (View.ld x5 r3_b)) (k3_pay4 (View.ld x8 r3_w)) (View.ld x9 r3_b)⟩]

theorem cover3_10 (p0 : Vec F S5000x128 .f32) (y : S5000x128.Idx) :
    ∃ pc ∈ ([⟨r3_h, p0⟩] : List (View.Piece (Elt F) S5000x128 .f32)), y ∈ pc.1.set :=
  View.cover_of_tiled [⟨r3_h, p0⟩] S5000x128.size (by rfl) y

set_option maxHeartbeats 1000000 in
-- Stated for any buffers, so that regions 5 and 7, whose bodies are this same term, use it too.
theorem sound_kernel3 (c : Dev nD) (E : Set ℕ) (i : grid3.Coords) (arg0 : Memref sig .tc .vmem S5000x128 .f32) (harg0 : arg0.IsWhole)
    (arg1 : Memref sig .tc .vmem S5000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S128x128 .f32) (harg8 : arg8.IsWhole)
    (arg9 : Memref sig .tc .vmem S1x128 .f32) (harg9 : arg9.IsWhole) (arg10 : Memref sig .tc .vmem S5000x128 .f32) (harg10 : arg10.IsWhole)
    (x0 x1 : Vec F S5000x128 .f32) (x2 : Vec F S128x128 .f32) (x3 x4 x5 x6 x7 : Vec F S1x128 .f32)
    (x8 : Vec F S128x128 .f32) (x9 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare x8
        ∗ owns (c : Thread nD τ) arg9 fullShare x9 ∗ (∃ d, owns (c : Thread nD τ) arg10 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4 ∗ owns (c : Thread nD τ) arg5 fullShare x5
            ∗ owns (c : Thread nD τ) arg6 fullShare x6 ∗ owns (c : Thread nD τ) arg7 fullShare x7 ∗ owns (c : Thread nD τ) arg8 fullShare x8
            ∗ owns (c : Thread nD τ) arg9 fullShare x9
            ∗ owns (c : Thread nD τ) arg10 fullShare (out3_10 x0 x1 x2 x3 x4 x5 x6 x7 x8 x9)) -∗ K ⟨⟩))
      ⊢ wp frame (wpE (defs₀ (F := F)) Variants.none c none) E
          (cc3__node_mlp_kernel i arg0 harg0 arg1 harg1 arg2 harg2 arg3 harg3 arg4 harg4 arg5 harg5 arg6 harg6 arg7 harg7 arg8 harg8 arg9 harg9 arg10 harg10) K := by
  simp only [cc3__node_mlp_kernel_eq_skeleton]; unfold cc3__node_mlp_kernel_skel
  simp only [k3_part1_eq_skeleton]; unfold k3_part1_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%fg, %hfg, Hg⟩,
    ⟨%fh, %hfh, Hh⟩, ⟨%fi, %hfi, Hi⟩, ⟨%fj, %hfj, Hj⟩, ⟨%dk, %fk, -, Hk⟩, HK⟩
  subst hfa; subst hfb; subst hfc; subst hfd; subst hfe; subst hff; subst hfg; subst hfh; subst hfi; subst hfj
  sl_exec
  sl_step
  iapply HK
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists ff; isplitr; · ipureintro; rfl
    iexact Hf
  isplitl [Hg]
  · iexists fg; isplitr; · ipureintro; rfl
    iexact Hg
  isplitl [Hh]
  · iexists fh; isplitr; · ipureintro; rfl
    iexact Hh
  isplitl [Hi]
  · iexists fi; isplitr; · ipureintro; rfl
    iexact Hi
  isplitl [Hj]
  · iexists fj; isplitr; · ipureintro; rfl
    iexact Hj
  iexists _; isplitr
  swap; · iexact Hk
  ipureintro
  exact View.read_writes_eq_canon _ _ _ (cover3_10 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_10 (c : Dev nD) (t : Fin cfg3.N) :
    (dat3 V c).after 10 t = out3_10 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) := by dsimp only [dat3]

theorem before3 (c : Dev nD) (t : Fin cfg3.N) (w : Fin 11) (hw : w ≠ 10) (d) : (dat3 V c).before w t d = (dat3 V c).after w t := by
  fin_cases w <;> first
    | exact absurd rfl hw
    | exact (Dat.before_in_eq_fetched _ _ rfl (fun _ => rfl) (fun _ _ _ => rfl) (fun _ => rfl) t d).trans rfl

theorem sound_body3 (c : Dev nD) (t : Fin cfg3.N) :
    iprop((dat3 V c).Φ t.castSucc ∗ (dat3 V c).owesAt () t.castSucc
      ∗ bigSep Finset.univ fun w : Fin 11 => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.castSucc ∗ (dat3 V c).owesAt () t.castSucc
        ∗ bigSep Finset.univ fun w : Fin 11 => owns (c : Thread nD τ) ((cfg3.win w).stage (cfg3.slots t w)) fullShare ((dat3 V c).after w t)) := by
  rw [bigSep_W3, bigSep_W3]
  simp only [before3 V c t, ne_eq, Fin.reduceEq, not_false_eq_true]
  dsimp only [dat3]
  unfold bodyAt3
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) _)
  iframe
  isplitl [Hk]; · iexists _; iexact Hk
  iintro H
  iframe

theorem body_obligation3 (c : Dev nD) : BodyObligation (dat3 (F := F) V c) (defs₀ (F := F)) Variants.none () Set.univ :=
  fun t => sound_body3 V c t

end Cert.KernelIdeal.Hand

end
-- ==== Proof.KI.Reg4.lean ====
import proofs.«428859_j12661563588730_1_alg».proof.Proof.KI.Reg2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S8000x128 := Rect.unit (s := S8000x128) ![0, 0] S8000x128.size inb_S8000x128_S8000x128_0_0

def out4_2 (x0 x1 : Vec F S8000x128 .f32) : Vec F S8000x128 .f32 :=
  View.canon [⟨r4_0, k4_pay1 (View.ld x0 r4_0) (View.ld x1 r4_0)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := by dsimp only [dat4]

theorem before4 (c : Dev nD) : ∀ w : Fin cfg4.W, (cfg4.win w).isOut = false → ∀ t d, (dat4 V c).before w t d = (dat4 V c).after w t
  | 0, h | 1, h => fun t d => ((dat4 V c).before_in_eq_fetched _ h (fun _ => rfl) (fun _ _ _ => rfl) (fun _ => rfl) t d).trans rfl
  | 2, h => absurd h (by decide)

/-- The body is region 2's, word for word, so region 2's run of it serves here. -/
theorem body_obligation4 (c : Dev nD) : BodyObligation (dat4 (F := F) V c) (defs₀ (F := F)) Variants.none () Set.univ := fun t => by
  rw [bigSep_W4, bigSep_W4]
  simp only [before4 V c 0 rfl, before4 V c 1 rfl]
  rw [show (dat4 V c).Φ t.succ = (dat4 V c).Φ t.castSucc from rfl,
    show (dat4 V c).owesAt () t.succ = (dat4 V c).owesAt () t.castSucc from rfl,
    show (dat4 V c).after 2 t = out2_2 ((dat4 V c).after 0 t) ((dat4 V c).after 1 t) by dsimp only [dat4]; rfl]
  iintro ⟨HΦ, Ho, ⟨%d0, H0⟩, ⟨%d1, H1⟩, ⟨%d2, H2⟩⟩
  iapply (sound_kernel2 c Set.univ (grid4.coords t) (st4_0 t) (hstage4_0 _) (st4_1 t) (hstage4_1 _) (st4_2 t) (hstage4_2 _) ((dat4 V c).after 0 t) ((dat4 V c).after 1 t) _)
  iframe H0 H1
  isplitl [H2]; · iexists _; iexact H2
  iintro ⟨H0, H1, H2⟩
  iframe

end Cert.KernelIdeal.Hand

end
-- ==== Proof.KI.Reg5.lean ====
import proofs.«428859_j12661563588730_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev out5_10 := out3_10 (F := F)

-- Lets region 3's run of the body serve this region.
theorem cc5_eq : cc5__node_mlp_kernel (F := F) = cc3__node_mlp_kernel (F := F) := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => out5_10 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_10 (c : Dev nD) (t : Fin cfg5.N) :
    (dat5 V c).after 10 t = out5_10 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) := by dsimp only [dat5]

theorem before5 (c : Dev nD) (t : Fin cfg5.N) (w : Fin 11) (hw : w ≠ 10) (d) : (dat5 V c).before w t d = (dat5 V c).after w t := by
  fin_cases w <;> first
    | exact absurd rfl hw
    | exact (Dat.before_in_eq_fetched _ _ rfl (fun _ => rfl) (fun _ _ _ => rfl) (fun _ => rfl) t d).trans rfl

theorem sound_body5 (c : Dev nD) (t : Fin cfg5.N) :
    iprop((dat5 V c).Φ t.castSucc ∗ (dat5 V c).owesAt () t.castSucc
      ∗ bigSep Finset.univ fun w : Fin 11 => iprop(∃ d, owns (c : Thread nD τ) ((cfg5.win w).stage (cfg5.slots t w)) fullShare ((dat5 V c).before w t d)))
    ⊢ wp frame (wpE (defs₀ (F := F)) Variants.none c none) Set.univ (bodyAt5 t) fun _ =>
      iprop((dat5 V c).Φ t.castSucc ∗ (dat5 V c).owesAt () t.castSucc
        ∗ bigSep Finset.univ fun w : Fin 11 => owns (c : Thread nD τ) ((cfg5.win w).stage (cfg5.slots t w)) fullShare ((dat5 V c).after w t)) := by
  rw [bigSep_W5, bigSep_W5]
  simp only [before5 V c t, ne_eq, Fin.reduceEq, not_false_eq_true]
  dsimp only [dat5]
  unfold bodyAt5
  rw [cc5_eq]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) _)
  iframe
  isplitl [Hk]; · iexists _; iexact Hk
  iintro H
  iframe

theorem body_obligation5 (c : Dev nD) : BodyObligation (dat5 (F := F) V c) (defs₀ (F := F)) Variants.none () Set.univ :=
  fun t => sound_body5 V c t

end Cert.KernelIdeal.Hand

end
-- ==== Proof.KI.Reg6.lean ====
import proofs.«428859_j12661563588730_1_alg».proof.Proof.KI.Reg2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S8000x128 := Rect.unit (s := S8000x128) ![0, 0] S8000x128.size inb_S8000x128_S8000x128_0_0

def out6_2 (x0 x1 : Vec F S8000x128 .f32) : Vec F S8000x128 .f32 :=
  View.canon [⟨r6_0, k6_pay1 (View.ld x0 r6_0) (View.ld x1 r6_0)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = out6_2 (iblk6 V c 0 t) (iblk6 V c 1 t) := by dsimp only [dat6]

theorem before6 (c : Dev nD) : ∀ w : Fin cfg6.W, (cfg6.win w).isOut = false → ∀ t d, (dat6 V c).before w t d = (dat6 V c).after w t
  | 0, h | 1, h => fun t d => ((dat6 V c).before_in_eq_fetched _ h (fun _ => rfl) (fun _ _ _ => rfl) (fun _ => rfl) t d).trans rfl
  | 2, h => absurd h (by decide)

/-- The body is region 2's, word for word, so region 2's run of it serves here. -/
theorem body_obligation6 (c : Dev nD) : BodyObligation (dat6 (F := F) V c) (defs₀ (F := F)) Variants.none () Set.univ := fun t => by
  rw [bigSep_W6, bigSep_W6]
  simp only [before6 V c 0 rfl, before6 V c 1 rfl]
  rw [show (dat6 V c).Φ t.succ = (dat6 V c).Φ t.castSucc from rfl,
    show (dat6 V c).owesAt () t.succ = (dat6 V c).owesAt () t.castSucc from rfl,
    show (dat6 V c).after 2 t = out2_2 ((dat6 V c).after 0 t) ((dat6 V c).after 1 t) by dsimp only [dat6]; rfl]
  iintro ⟨HΦ, Ho, ⟨%d0, H0⟩, ⟨%d1, H1⟩, ⟨%d2, H2⟩⟩
  iapply (sound_kernel2 c Set.univ (grid6.coords t) (st6_0 t) (hstage6_0 _) (st6_1 t) (hstage6_1 _) (st6_2 t) (hstage6_2 _) ((dat6 V c).after 0 t) ((dat6 V c).after 1 t) _)
  iframe H0 H1
  isplitl [H2]; · iexists _; iexact H2
  iintro ⟨H0, H1, H2⟩
  iframe

end Cert.KernelIdeal.Hand

end
-- ==== Proof.KI.Reg7.lean ====
import proofs.«428859_j12661563588730_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev out7_10 := out3_10 (F := F)

-- Lets region 3's run of the body serve this region.
theorem cc7_eq : cc7__node_mlp_kernel (F := F) = cc3__node_mlp_kernel (F := F) := rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => out7_10 (iblk7 V c 0 t) (iblk7 V c 1 t) (iblk7 V c 2 t) (iblk7 V c 3 t) (iblk7 V c 4 t) (iblk7 V c 5 t)
        (iblk7 V c 6 t) (iblk7 V c 7 t) (iblk7 V c 8 t) (iblk7 V c 9 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_10 (c : Dev nD) (t : Fin cfg7.N) :
    (dat7 V c).after 10 t = out7_10 (iblk7 V c 0 t) (iblk7 V c 1 t) (iblk7 V c 2 t) (iblk7 V c 3 t) (iblk7 V c 4 t) (iblk7 V c 5 t)
      (iblk7 V c 6 t) (iblk7 V c 7 t) (iblk7 V c 8 t) (iblk7 V c 9 t) := by dsimp only [dat7]

theorem before7 (c : Dev nD) (t : Fin cfg7.N) (w : Fin 11) (hw : w ≠ 10) (d) : (dat7 V c).before w t d = (dat7 V c).after w t := by
  fin_cases w <;> first
    | exact absurd rfl hw
    | exact (Dat.before_in_eq_fetched _ _ rfl (fun _ => rfl) (fun _ _ _ => rfl) (fun _ => rfl) t d).trans rfl

theorem sound_body7 (c : Dev nD) (t : Fin cfg7.N) :
    iprop((dat7 V c).Φ t.castSucc ∗ (dat7 V c).owesAt () t.castSucc
      ∗ bigSep Finset.univ fun w : Fin 11 => iprop(∃ d, owns (c : Thread nD τ) ((cfg7.win w).stage (cfg7.slots t w)) fullShare ((dat7 V c).before w t d)))
    ⊢ wp frame (wpE (defs₀ (F := F)) Variants.none c none) Set.univ (bodyAt7 t) fun _ =>
      iprop((dat7 V c).Φ t.castSucc ∗ (dat7 V c).owesAt () t.castSucc
        ∗ bigSep Finset.univ fun w : Fin 11 => owns (c : Thread nD τ) ((cfg7.win w).stage (cfg7.slots t w)) fullShare ((dat7 V c).after w t)) := by
  rw [bigSep_W7, bigSep_W7]
  simp only [before7 V c t, ne_eq, Fin.reduceEq, not_false_eq_true]
  dsimp only [dat7]
  unfold bodyAt7
  rw [cc7_eq]
  iintro ⟨HΦ, Ho, ⟨%da, Ha⟩, ⟨%db, Hb⟩, ⟨%dc, Hc⟩, ⟨%dd, Hd⟩, ⟨%de, He⟩, ⟨%df, Hf⟩, ⟨%dg, Hg⟩, ⟨%dh, Hh⟩, ⟨%di, Hi⟩, ⟨%dj, Hj⟩, ⟨%dk, Hk⟩⟩
  iapply (sound_kernel3 c Set.univ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t)
    (iblk7 V c 6 t) (iblk7 V c 7 t) (iblk7 V c 8 t) (iblk7 V c 9 t) _)
  iframe
  isplitl [Hk]; · iexists _; iexact Hk
  iintro H
  iframe

theorem body_obligation7 (c : Dev nD) : BodyObligation (dat7 (F := F) V c) (defs₀ (F := F)) Variants.none () Set.univ :=
  fun t => sound_body7 V c t

end Cert.KernelIdeal.Hand

end
-- ==== Proof.KI.Reg8.lean ====
import proofs.«428859_j12661563588730_1_alg».proof.Proof.Gen.KernelIdeal.Launch
import proofs.«428859_j12661563588730_1_alg».proof.Proof.Gen.KernelIdeal.Skeleton
import proofs.«428859_j12661563588730_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : ℕ → Vec F S64x128 .f32
  | 0 => k8_pay1
  | n + 1 => if h : n < cfg8.N then k8_pay2 (iblk8 V c 0 ⟨n, h⟩) (iblk8 V c 1 ⟨n, h⟩) (acc8 c n) else acc8 c n

theorem acc8_zero (c : Dev nD) : acc8 V c 0 = k8_pay1 := rfl

theorem acc8_succ (c : Dev nD) (n : ℕ) (h : n < cfg8.N) :
    acc8 V c (n + 1) = k8_pay2 (iblk8 V c 0 ⟨n, h⟩) (iblk8 V c 1 ⟨n, h⟩) (acc8 V c n) := by
  rw [acc8]; exact dif_pos h

abbrev scM8 : Memref sig .tc .vmem S64x128 .f32 := Memref.whole cc8_scratch0

abbrev rest8 (c : Dev nD) : sProp 𝕄 :=
  Pipeline.scopedRestBut (Ix := Unit) (Name := ℕ) (U := UR sig nD τ) (Lvl := ℕ) (Val := Elt F) spec8 c [cc8_scratch0]

-- Uniform in the position, so that the body's obligation needs no case split on it.
def Phi8 (c : Dev nD) (n : ℕ) : sProp 𝕄 :=
  iprop((∃ d, ⌜n ≠ 0 → d = acc8 V c n⌝ ∗ owns (c : Thread nD τ) scM8 fullShare d) ∗ (∃ r, prngReg c r) ∗ rest8 c)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => acc8 V c (t.val + 1)
  Φ t := Phi8 V c t.val
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = acc8 V c (t.val + 1) := by dsimp only [dat8]

theorem before8 (c : Dev nD) (t : Fin cfg8.N) (w : Fin 3) (hw : w ≠ 2) (d) : (dat8 V c).before w t d = (dat8 V c).after w t := by
  fin_cases w <;> first
    | exact absurd rfl hw
    | exact (Dat.before_in_eq_fetched _ _ rfl (fun _ => rfl) (fun _ _ _ => rfl) (fun _ => rfl) t d).trans rfl

abbrev cond8_1 (i : grid8.Coords) : Prop :=
  (Scalar.cmpi .ne (Scalar.extui (Scalar.cmpi .eq (BitVec.ofNat 32 (i 0).val) 0#32)) 0#32) = 1#1
theorem hcond8_1 : ∀ t : Fin cfg8.N, cond8_1 (grid8.coords t) ↔ t.val = 0 :=
  (by decide +kernel : ∀ t : Fin grid8.N, cond8_1 (grid8.coords t) ↔ t.val = 0)
abbrev cond8_2 (i : grid8.Coords) : Prop := k8_cond2 i = 1#1
theorem hcond8_2 : ∀ t : Fin cfg8.N, cond8_2 (grid8.coords t) ↔ t.val = 9 :=
  (by decide +kernel : ∀ t : Fin grid8.N, cond8_2 (grid8.coords t) ↔ t.val = 9)

theorem liveAt8_0 : ∀ t : Fin cfg8.N, cfg8.idle 0 (grid8.coords t) = false := by decide +kernel
theorem liveAt8_1 : ∀ t : Fin cfg8.N, cfg8.idle 1 (grid8.coords t) = false := by decide +kernel
theorem idleAt8_2 : ∀ t : Fin cfg8.N, ¬cond8_2 (grid8.coords t) → idle8 2 (grid8.coords t) = true := by decide +kernel
theorem noFlush8_2 : ∀ t : Fin cfg8.N, ¬cond8_2 (grid8.coords t) → (cfg8.win 2).flush t = false := by decide +kernel
theorem liveAt8_2 : ∀ t : Fin cfg8.N, cond8_2 (grid8.coords t) → idle8 2 (grid8.coords t) = false := by decide +kernel

theorem hz8a : (![0, 0] : Fin S5000x128.rank → ℕ) = fun _ => 0 := by
  funext a; fin_cases a <;> rfl
theorem hz8b : (![0, 0] : Fin S5000x1.rank → ℕ) = fun _ => 0 := by
  funext a; fin_cases a <;> rfl
theorem hz8 : (![0, 0] : Fin S64x128.rank → ℕ) = fun _ => 0 := by
  funext a; fin_cases a <;> rfl

theorem read_writes8 {κ : Kind} {sp : Space} (v : View sig κ sp S64x128 .f32) (f : v.ty.Contents (Elt F)) (w : Vec F S64x128 .f32)
    (L : List (View.Piece (Elt F) S64x128 .f32)) :
    v.read (Elt F) (v.writes (Elt F) f (⟨Rect.unit ![0, 0] S64x128.size inb_S64x128_S64x128_0_0, w⟩ :: L)) = w := by
  rw [View.read_writes_eq_canon _ _ _ (fun y => ⟨_, List.mem_cons_self, View.mem_set_unit_zero hz8 inb_S64x128_S64x128_0_0 y⟩)]
  exact View.canon_cons_unit_zero hz8 _ w L

set_option maxHeartbeats 1000000 in
-- Serves every grid point; `hne`: the reset and the final store never fall on the same point.
theorem sound_kernel8 (c : Dev nD) (E : Set ℕ) (i : grid8.Coords) (hne : cond8_1 i → ¬cond8_2 i)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (x0 : Vec F S5000x128 .f32) (x1 : Vec F S5000x1 .i32) (xi xs : Vec F S64x128 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1
            ∗ owns (c : Thread nD τ) arg3 fullShare (if cond8_2 i then k8_pay2 x0 x1 (if cond8_1 i then k8_pay1 else xs) else xi)
            ∗ owns (c : Thread nD τ) arg4 fullShare (k8_pay2 x0 x1 (if cond8_1 i then k8_pay1 else xs))) -∗ K ⟨⟩))
      ⊢ wp frame (wpE (defs₀ (F := F)) Variants.none c none) E (cc8__pool_kernel i arg1 harg1 arg2 harg2 arg3 harg3 arg4 harg4) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  by_cases hc1 : cond8_1 i <;> by_cases hc2 : cond8_2 i
  · exact absurd hc2 (hne hc1)
  all_goals
    first | rw [if_pos hc2] | rw [if_neg hc2]
    first | rw [if_pos hc1] | rw [if_neg hc1]
    sl_exec (disch := first | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists _; isplitr
      swap; · iexact H2
      ipureintro
      first
        | rfl
        | (sl_unfold_words; rw [read_writes8]
           simp only [View.readAt_eq_ld, View.ld_unit_zero (S := S5000x128) hz8a, View.ld_unit_zero (S := S5000x1) hz8b, View.ld_unit_zero (S := S64x128) hz8, View.readCov_unit_zero (S := S64x128) _ hz8])
    iexists _; isplitr
    swap; · iexact H3
    ipureintro
    sl_unfold_words
    rw [read_writes8]
    simp only [View.readAt_eq_ld, View.ld_unit_zero (S := S5000x128) hz8a, View.ld_unit_zero (S := S5000x1) hz8b, View.ld_unit_zero (S := S64x128) hz8, View.readCov_unit_zero (S := S64x128) _ hz8]

theorem Phi8_castSucc (c : Dev nD) (t : Fin cfg8.N) : (dat8 V c).Φ t.castSucc = Phi8 V c t.val := by
  dsimp only [dat8]; simp only [Fin.coe_castSucc]
theorem Phi8_at_succ (c : Dev nD) (t : Fin cfg8.N) : (dat8 V c).Φ t.succ = Phi8 V c (t.val + 1) := by
  dsimp only [dat8]; simp only [Fin.val_succ]

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t)

theorem sound_body8 (c : Dev nD) (t : Fin cfg8.N) :
    bodyPre8 V c t ⊢ wp frame (wpE (defs₀ (F := F)) Variants.none c none) Set.univ (bodyAt8 t) (fun _ => bodyPost8 V c t) := by
  have hz : ∀ n, n = 0 → acc8 V c n = k8_pay1 := fun n h => by subst h; rfl
  have hacc (ds : Vec F S64x128 .f32) (hs : t.val ≠ 0 → ds = acc8 V c t.val) :
      acc8 V c (t.val + 1) = k8_pay2 (iblk8 V c 0 t) (iblk8 V c 1 t) (if cond8_1 (grid8.coords t) then k8_pay1 else ds) := by
    rw [acc8_succ V c t.val t.isLt]
    congr 1
    by_cases h0 : t.val = 0
    · rw [if_pos ((hcond8_1 t).mpr h0)]; exact hz _ h0
    · rw [if_neg fun h => h0 ((hcond8_1 t).mp h), hs h0]
  have hne : cond8_1 (grid8.coords t) → ¬cond8_2 (grid8.coords t) := fun h1 h2 => by
    have := (hcond8_1 t).mp h1; have := (hcond8_2 t).mp h2; omega
  unfold bodyPre8 bodyPost8 bodyAt8 Dat.leavesExact
  simp only [before8 V c t, liveAt8_0 t, liveAt8_1 t, ne_eq, Fin.reduceEq, not_false_eq_true]
  rw [show (dat8 V c).owesAt () t.succ = (dat8 V c).owesAt () t.castSucc from rfl,
    Phi8_castSucc, Phi8_at_succ, after8_0, after8_1, after8_2]
  unfold Phi8
  iintro ⟨⟨⟨%ds, %hs, HS⟩, Hg, Hr⟩, Ho, ⟨%d0, H0⟩, ⟨%d1, H1⟩, ⟨%d2, H2⟩⟩
  iapply (sound_kernel8 c Set.univ _ hne _ _ _ _ _ _ _ _ (iblk8 V c 0 t) (iblk8 V c 1 t) ((dat8 V c).before 2 t d2) ds _)
  isplitl [H0]; · iexact H0
  isplitl [H1]; · iexact H1
  isplitl [H2]; · iexact H2
  isplitl [HS]; · iexact HS
  iintro ⟨H0, H1, H2, HS⟩
  rw [← hacc ds hs]
  isplitl [HS Hg Hr]
  · isplitl [HS]
    · iexists _; isplitr; · ipureintro; exact fun _ => rfl
      iexact HS
    isplitl [Hg]; · iexact Hg
    iexact Hr
  isplitl [Ho]; · iexact Ho
  isplitl [H0]; · iexact H0
  isplitl [H1]; · iexact H1
  by_cases hc2 : cond8_2 (grid8.coords t)
  · rw [liveAt8_2 t hc2]; simp only [if_pos hc2]; iexact H2
  · rw [idleAt8_2 t hc2]; simp only [noFlush8_2 t hc2, if_neg hc2]; iexists d2; iexact H2

theorem body_obligation8 (c : Dev nD) : BodyObligation (dat8 (F := F) V c) (defs₀ (F := F)) Variants.none () Set.univ := fun t => by
  rw [bigSep_W8, bigSep_W8]
  exact sound_body8 V c t

theorem scratch8_forget (c : Dev nD) (X : Vec F S64x128 .f32) :
    owns (c : Thread nD τ) scM8 fullShare X
      ⊢ (iprop(∃ f : Buf (Elt F) ((c : Thread nD τ).loc cc8_scratch0), ((c : Thread nD τ).loc cc8_scratch0) ↦{fullShare} f) : sProp 𝕄) := by
  rw [owns_whole]
  iintro H; iexists _; iexact H

theorem hin8 (c : Dev nD) (P : sProp 𝕄) :
    iprop((∃ r, prngReg c r) ∗ P ∗ Pipeline.scopedRest (Ix := Unit) (Name := ℕ) (U := UR sig nD τ) (Lvl := ℕ) (Val := Elt F) spec8 c)
      ⊢ (dat8 V c).Φ 0 := by
  rw [show (dat8 V c).Φ 0 = Phi8 V c 0 from rfl, scopedRest8_split]
  unfold Phi8
  iintro ⟨Hg, -, ⟨%f, Hs⟩, Hr⟩
  isplitl [Hs]
  · iexists f; isplitr; · ipureintro; exact fun h => absurd rfl h
    rw [owns_whole]; iexact Hs
  isplitl [Hg]; · iexact Hg
  iexact Hr

theorem hout8 (c : Dev nD) :
    (dat8 V c).Φ (Fin.last cfg8.N)
      ⊢ iprop((∃ r, prngReg c r) ∗ Pipeline.scopedRest (Ix := Unit) (Name := ℕ) (U := UR sig nD τ) (Lvl := ℕ) (Val := Elt F) spec8 c) := by
  rw [show (dat8 V c).Φ (Fin.last cfg8.N) = Phi8 V c (Fin.last cfg8.N).val from rfl, scopedRest8_split]
  unfold Phi8
  iintro ⟨⟨%d, -, Hs⟩, Hg, Hr⟩
  isplitl [Hg]; · iexact Hg
  isplitl [Hs]; · iapply (scratch8_forget c _); iexact Hs
  iexact Hr

theorem arrAt8_2_pre (c : Dev nD) : ∀ n : ℕ, n ≤ 9 → (dat8 V c).arrAt 2 n = (dat8 V c).A 2
  | 0, _ => rfl
  | n + 1, hn => by
    have hlt : n < cfg8.N := by have : cfg8.N = 10 := N_8; omega
    have hnf : ¬((cfg8.win 2).flush ⟨n, hlt⟩ = true) := fun h => by
      have := (flush8_2 ⟨n, hlt⟩).mp h
      have h' : n % 10 = 9 := this
      omega
    rw [(dat8 V c).arrAt_succ 2 ⟨n, hlt⟩, if_neg hnf]
    exact arrAt8_2_pre c n (by omega)

theorem arrAt8_2 (c : Dev nD) : (dat8 V c).arrAt 2 cfg8.N = acc8 V c 10 := by
  have hN : cfg8.N = (t8_9 : Fin cfg8.N).val + 1 := N_8
  rw [hN, (dat8 V c).arrAt_succ 2 t8_9, if_pos ((flush8_2 t8_9).mpr rfl), arrAt8_2_pre V c (Fin.val (t8_9 : Fin cfg8.N)) (Nat.le_refl 9)]
  show ((cfg8.win 2).blk t8_9).view.write (Elt F) ((dat8 V c).A 2) ((cfg8.win 2).cut (grid8.coords t8_9) ((dat8 V c).after 2 t8_9)) Finset.univ = _
  rw [after8_2]
  have hz' : (fun a => win8_2.index t8_9 a * main_v119.ty.shape.size a) = fun _ => 0 := funext fun a => by fin_cases a <;> decide
  exact Memref.write_access_unit_zero_univ (Elt F) main_v119 hz' (fun a => by rw [congrFun hz' a]; simp) ((dat8 V c).A 2) (acc8 V c 10)

end Cert.KernelIdeal.Hand

end
-- ==== Proof.KI.Chain.lean ====
import proofs.«428859_j12661563588730_1_alg».proof.Proof.KI.Reg0
import proofs.«428859_j12661563588730_1_alg».proof.Proof.KI.Reg1
import proofs.«428859_j12661563588730_1_alg».proof.Proof.KI.Reg2
import proofs.«428859_j12661563588730_1_alg».proof.Proof.KI.Reg3
import proofs.«428859_j12661563588730_1_alg».proof.Proof.KI.Reg4
import proofs.«428859_j12661563588730_1_alg».proof.Proof.KI.Reg5
import proofs.«428859_j12661563588730_1_alg».proof.Proof.KI.Reg6
import proofs.«428859_j12661563588730_1_alg».proof.Proof.KI.Reg7
import proofs.«428859_j12661563588730_1_alg».proof.Proof.KI.Reg8
import proofs.«428859_j12661563588730_1_alg».proof.Proof.Gen.KernelIdeal.Regions
import Idealize.ShloMosaic.Lib.Pipeline.Cells

noncomputable section

namespace Cert.KernelIdeal.Hand

open Cert.KernelIdeal Cert.KernelIdeal.Gen
open Idealize.ShloMosaic Idealize.ShloMosaic.TcCoe
open Idealize.SL Idealize.SL.BI Idealize.SL.BI.BIBase Idealize.SL.Sem
open scoped Idealize.SL.BI
open Idealize.ShloMosaic.Pipeline (Dat Cfg)

variable {F : FTy → Type} [FloatOps F]
local notation "𝕄" => MT nD τ sig Unit (Elt F) ℕ (UR sig nD τ) ℕ

abbrev LL : GSem nD τ sig → Finset Unit := fun _ => ∅
abbrev lvv : GSem nD τ sig → Unit → ℕ := fun _ _ => 0
abbrev Rr (c : Dev nD) : sProp 𝕄 := iprop((∃ r, prngReg c r) ∗ ∃ W, owes (c : Thread nD τ) (0 : CellTallies nD τ sig Unit) W)

variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev N0 (c : Dev nD) : Valuation τ sig (Elt F) := fun b => m (c, b)
abbrev N1 (c : Dev nD) : Valuation τ sig (Elt F) := StableHlo.after hostOps0 (N0 m c)
def o2 (c : Dev nD) : Buf (Elt F) ((c : Thread nD τ).loc main_v8) := (dat0 (atRefs (N1 m)) c).arrAt 3 cfg0.N
abbrev N2 (c : Dev nD) : Valuation τ sig (Elt F) := Function.update (N1 m c) main_v8 (o2 m c)
def o3 (c : Dev nD) : Buf (Elt F) ((c : Thread nD τ).loc main_v9) := (dat1 (atRefs (N2 m)) c).arrAt 3 cfg1.N
abbrev N3 (c : Dev nD) : Valuation τ sig (Elt F) := Function.update (N2 m c) main_v9 (o3 m c)
abbrev N4 (c : Dev nD) : Valuation τ sig (Elt F) := StableHlo.after hostOps2 (N3 m c)
def o5 (c : Dev nD) : Buf (Elt F) ((c : Thread nD τ).loc main_v17) := (dat2 (atRefs (N4 m)) c).arrAt 2 cfg2.N
abbrev N5 (c : Dev nD) : Valuation τ sig (Elt F) := Function.update (N4 m c) main_v17 (o5 m c)
abbrev N6 (c : Dev nD) : Valuation τ sig (Elt F) := StableHlo.after hostOps3 (N5 m c)
def o7 (c : Dev nD) : Buf (Elt F) ((c : Thread nD τ).loc main_v45) := (dat3 (atRefs (N6 m)) c).arrAt 10 cfg3.N
abbrev N7 (c : Dev nD) : Valuation τ sig (Elt F) := Function.update (N6 m c) main_v45 (o7 m c)
abbrev N8 (c : Dev nD) : Valuation τ sig (Elt F) := StableHlo.after hostOps4 (N7 m c)
def o9 (c : Dev nD) : Buf (Elt F) ((c : Thread nD τ).loc main_v53) := (dat4 (atRefs (N8 m)) c).arrAt 2 cfg4.N
abbrev N9 (c : Dev nD) : Valuation τ sig (Elt F) := Function.update (N8 m c) main_v53 (o9 m c)
abbrev N10 (c : Dev nD) : Valuation τ sig (Elt F) := StableHlo.after hostOps5 (N9 m c)
def o11 (c : Dev nD) : Buf (Elt F) ((c : Thread nD τ).loc main_v81) := (dat5 (atRefs (N10 m)) c).arrAt 10 cfg5.N
abbrev N11 (c : Dev nD) : Valuation τ sig (Elt F) := Function.update (N10 m c) main_v81 (o11 m c)
abbrev N12 (c : Dev nD) : Valuation τ sig (Elt F) := StableHlo.after hostOps6 (N11 m c)
def o13 (c : Dev nD) : Buf (Elt F) ((c : Thread nD τ).loc main_v89) := (dat6 (atRefs (N12 m)) c).arrAt 2 cfg6.N
abbrev N13 (c : Dev nD) : Valuation τ sig (Elt F) := Function.update (N12 m c) main_v89 (o13 m c)
abbrev N14 (c : Dev nD) : Valuation τ sig (Elt F) := StableHlo.after hostOps7 (N13 m c)
def o15 (c : Dev nD) : Buf (Elt F) ((c : Thread nD τ).loc main_v117) := (dat7 (atRefs (N14 m)) c).arrAt 10 cfg7.N
abbrev N15 (c : Dev nD) : Valuation τ sig (Elt F) := Function.update (N14 m c) main_v117 (o15 m c)
abbrev N16 (c : Dev nD) : Valuation τ sig (Elt F) := StableHlo.after hostOps8 (N15 m c)
def o17 (c : Dev nD) : Buf (Elt F) ((c : Thread nD τ).loc main_v119) := (dat8 (atRefs (N16 m)) c).arrAt 2 cfg8.N
abbrev N17 (c : Dev nD) : Valuation τ sig (Elt F) := Function.update (N16 m c) main_v119 (o17 m c)
abbrev N18 (c : Dev nD) : Valuation τ sig (Elt F) := StableHlo.after hostOps9 (N17 m c)

def outs : Outs (F := F) := fun _ r c => match r with
  | ⟨.hbm, 26, _⟩ => o2 m c
  | ⟨.hbm, 27, _⟩ => o3 m c
  | ⟨.hbm, 37, _⟩ => o5 m c
  | ⟨.hbm, 66, _⟩ => o7 m c
  | ⟨.hbm, 76, _⟩ => o9 m c
  | ⟨.hbm, 105, _⟩ => o11 m c
  | ⟨.hbm, 115, _⟩ => o13 m c
  | ⟨.hbm, 144, _⟩ => o15 m c
  | ⟨.hbm, 146, _⟩ => o17 m c
  | r => m ((c : Thread nD τ).loc r)

theorem outs_main_v8 (J : ℕ) (c : Dev nD) : outs m J main_v8 c = o2 m c := rfl
theorem outs_main_v9 (J : ℕ) (c : Dev nD) : outs m J main_v9 c = o3 m c := rfl
theorem outs_main_v17 (J : ℕ) (c : Dev nD) : outs m J main_v17 c = o5 m c := rfl
theorem outs_main_v45 (J : ℕ) (c : Dev nD) : outs m J main_v45 c = o7 m c := rfl
theorem outs_main_v53 (J : ℕ) (c : Dev nD) : outs m J main_v53 c = o9 m c := rfl
theorem outs_main_v81 (J : ℕ) (c : Dev nD) : outs m J main_v81 c = o11 m c := rfl
theorem outs_main_v89 (J : ℕ) (c : Dev nD) : outs m J main_v89 c = o13 m c := rfl
theorem outs_main_v117 (J : ℕ) (c : Dev nD) : outs m J main_v117 c = o15 m c := rfl
theorem outs_main_v119 (J : ℕ) (c : Dev nD) : outs m J main_v119 c = o17 m c := rfl

theorem V1_eq (c : Dev nD) : V1 m c = N1 m c := rfl
theorem V2_eq (c : Dev nD) : V2 m (outs m) c = N2 m c := by unfold V2; rw [V1_eq, outs_main_v8]
theorem V3_eq (c : Dev nD) : V3 m (outs m) c = N3 m c := by unfold V3; rw [V2_eq, outs_main_v9]
theorem V4_eq (c : Dev nD) : V4 m (outs m) c = N4 m c := by unfold V4; rw [V3_eq]
theorem V5_eq (c : Dev nD) : V5 m (outs m) c = N5 m c := by unfold V5; rw [V4_eq, outs_main_v17]
theorem V6_eq (c : Dev nD) : V6 m (outs m) c = N6 m c := by unfold V6; rw [V5_eq]
theorem V7_eq (c : Dev nD) : V7 m (outs m) c = N7 m c := by unfold V7; rw [V6_eq, outs_main_v45]
theorem V8_eq (c : Dev nD) : V8 m (outs m) c = N8 m c := by unfold V8; rw [V7_eq]
theorem V9_eq (c : Dev nD) : V9 m (outs m) c = N9 m c := by unfold V9; rw [V8_eq, outs_main_v53]
theorem V10_eq (c : Dev nD) : V10 m (outs m) c = N10 m c := by unfold V10; rw [V9_eq]
theorem V11_eq (c : Dev nD) : V11 m (outs m) c = N11 m c := by unfold V11; rw [V10_eq, outs_main_v81]
theorem V12_eq (c : Dev nD) : V12 m (outs m) c = N12 m c := by unfold V12; rw [V11_eq]
theorem V13_eq (c : Dev nD) : V13 m (outs m) c = N13 m c := by unfold V13; rw [V12_eq, outs_main_v89]
theorem V14_eq (c : Dev nD) : V14 m (outs m) c = N14 m c := by unfold V14; rw [V13_eq]
theorem V15_eq (c : Dev nD) : V15 m (outs m) c = N15 m c := by unfold V15; rw [V14_eq, outs_main_v117]
theorem V16_eq (c : Dev nD) : V16 m (outs m) c = N16 m c := by unfold V16; rw [V15_eq]
theorem V17_eq (c : Dev nD) : V17 m (outs m) c = N17 m c := by unfold V17; rw [V16_eq, outs_main_v119]
theorem V18_eq (c : Dev nD) : V18 m (outs m) c = N18 m c := by unfold V18; rw [V17_eq]

def pdats : (p : Fin 9) → (c : Dev nD) → Dat τ (Elt F) Unit ℕ (UR sig nD τ) ℕ (cfgs p) c
  | ⟨0, _⟩ => fun c => dat0 (atRefs (N1 m)) c
  | ⟨1, _⟩ => fun c => dat1 (atRefs (N2 m)) c
  | ⟨2, _⟩ => fun c => dat2 (atRefs (N4 m)) c
  | ⟨3, _⟩ => fun c => dat3 (atRefs (N6 m)) c
  | ⟨4, _⟩ => fun c => dat4 (atRefs (N8 m)) c
  | ⟨5, _⟩ => fun c => dat5 (atRefs (N10 m)) c
  | ⟨6, _⟩ => fun c => dat6 (atRefs (N12 m)) c
  | ⟨7, _⟩ => fun c => dat7 (atRefs (N14 m)) c
  | ⟨8, _⟩ => fun c => dat8 (atRefs (N16 m)) c

-- After a region whose only written array is window o's, every array of the region holds what the region leaves there.
theorem arrAt_upd {cfg : Cfg sig Λ₀} {c : Dev nD} (dat : Dat τ (Elt F) Unit ℕ (UR sig nD τ) ℕ cfg c) (hw : Pipeline.WinFacts cfg.spec)
    (V : Valuation τ sig (Elt F)) (hA : ∀ w, dat.A w = V (Proc.tc.devRef (Pipeline.arrRef cfg.spec w)))
    (o : Fin cfg.W) (hin : ∀ w, w ≠ o → (cfg.win w).isOut = false) (w : Fin cfg.W) :
    dat.arrAt w cfg.N
      = Function.update V (Proc.tc.devRef (Pipeline.arrRef cfg.spec o)) (dat.arrAt o cfg.N) (Proc.tc.devRef (Pipeline.arrRef cfg.spec w)) := by
  by_cases h : w = o
  · subst h; exact (Function.update_self (Proc.tc.devRef (Pipeline.arrRef cfg.spec w)) (dat.arrAt w cfg.N) V).symm
  · rw [dat.arrAt_in w (hin w h) _, hA]
    exact (Function.update_of_ne (StableHlo.devRef_ne_of_ne fun e => h (hw.arr_inj e)) _ _).symm

-- A buffer that is no array of the region keeps its contents.
theorem upd_rest {W gr : ℕ} (spec : Fin W → Pipeline.WinSpec sig gr) (V : Valuation τ sig (Elt F)) (o : Fin W)
    (v : BufTy.Contents (Elt F) (Proc.tc.devRef (τ := τ) (Pipeline.arrRef spec o)).ty) :
    ∀ b, b ∉ Finset.univ.image (Pipeline.arrRef spec) → Function.update V (Proc.tc.devRef (Pipeline.arrRef spec o)) v (Proc.tc.devRef b) = V (Proc.tc.devRef b) :=
  fun b hb => Function.update_of_ne (StableHlo.devRef_ne_of_ne fun e => hb (Finset.mem_image.mpr ⟨o, Finset.mem_univ _, e.symm⟩)) _ _

theorem inWin0 : ∀ w : Fin cfg0.W, w ≠ (3 : Fin cfg0.W) → (cfg0.win w).isOut = false := by decide
theorem hF0 (c : Dev nD) (w : Fin cfg0.W) : (dat0 (atRefs (N1 m)) c).arrAt w cfg0.N = atRefs (N2 m) c (Pipeline.arrRef spec0 w) :=
  arrAt_upd _ launch0.win (N1 m c) (A_eq0 _ c) 3 inWin0 w
theorem hrest0 (c : Dev nD) : ∀ b, b ∉ Finset.univ.image (Pipeline.arrRef spec0) → atRefs (N2 m) c b = atRefs (N1 m) c b :=
  upd_rest spec0 (N1 m c) 3 (o2 m c)
theorem inWin1 : ∀ w : Fin cfg1.W, w ≠ (3 : Fin cfg1.W) → (cfg1.win w).isOut = false := by decide
theorem hF1 (c : Dev nD) (w : Fin cfg1.W) : (dat1 (atRefs (N2 m)) c).arrAt w cfg1.N = atRefs (N3 m) c (Pipeline.arrRef spec1 w) :=
  arrAt_upd _ launch1.win (N2 m c) (A_eq1 _ c) 3 inWin1 w
theorem hrest1 (c : Dev nD) : ∀ b, b ∉ Finset.univ.image (Pipeline.arrRef spec1) → atRefs (N3 m) c b = atRefs (N2 m) c b :=
  upd_rest spec1 (N2 m c) 3 (o3 m c)
theorem inWin2 : ∀ w : Fin cfg2.W, w ≠ (2 : Fin cfg2.W) → (cfg2.win w).isOut = false := by decide
theorem hF2 (c : Dev nD) (w : Fin cfg2.W) : (dat2 (atRefs (N4 m)) c).arrAt w cfg2.N = atRefs (N5 m) c (Pipeline.arrRef spec2 w) :=
  arrAt_upd _ launch2.win (N4 m c) (A_eq2 _ c) 2 inWin2 w
theorem hrest2 (c : Dev nD) : ∀ b, b ∉ Finset.univ.image (Pipeline.arrRef spec2) → atRefs (N5 m) c b = atRefs (N4 m) c b :=
  upd_rest spec2 (N4 m c) 2 (o5 m c)
theorem inWin3 : ∀ w : Fin cfg3.W, w ≠ (10 : Fin cfg3.W) → (cfg3.win w).isOut = false := by decide
theorem hF3 (c : Dev nD) (w : Fin cfg3.W) : (dat3 (atRefs (N6 m)) c).arrAt w cfg3.N = atRefs (N7 m) c (Pipeline.arrRef spec3 w) :=
  arrAt_upd _ launch3.win (N6 m c) (A_eq3 _ c) 10 inWin3 w
theorem hrest3 (c : Dev nD) : ∀ b, b ∉ Finset.univ.image (Pipeline.arrRef spec3) → atRefs (N7 m) c b = atRefs (N6 m) c b :=
  upd_rest spec3 (N6 m c) 10 (o7 m c)
theorem inWin4 : ∀ w : Fin cfg4.W, w ≠ (2 : Fin cfg4.W) → (cfg4.win w).isOut = false := by decide
theorem hF4 (c : Dev nD) (w : Fin cfg4.W) : (dat4 (atRefs (N8 m)) c).arrAt w cfg4.N = atRefs (N9 m) c (Pipeline.arrRef spec4 w) :=
  arrAt_upd _ launch4.win (N8 m c) (A_eq4 _ c) 2 inWin4 w
theorem hrest4 (c : Dev nD) : ∀ b, b ∉ Finset.univ.image (Pipeline.arrRef spec4) → atRefs (N9 m) c b = atRefs (N8 m) c b :=
  upd_rest spec4 (N8 m c) 2 (o9 m c)
theorem inWin5 : ∀ w : Fin cfg5.W, w ≠ (10 : Fin cfg5.W) → (cfg5.win w).isOut = false := by decide
theorem hF5 (c : Dev nD) (w : Fin cfg5.W) : (dat5 (atRefs (N10 m)) c).arrAt w cfg5.N = atRefs (N11 m) c (Pipeline.arrRef spec5 w) :=
  arrAt_upd _ launch5.win (N10 m c) (A_eq5 _ c) 10 inWin5 w
theorem hrest5 (c : Dev nD) : ∀ b, b ∉ Finset.univ.image (Pipeline.arrRef spec5) → atRefs (N11 m) c b = atRefs (N10 m) c b :=
  upd_rest spec5 (N10 m c) 10 (o11 m c)
theorem inWin6 : ∀ w : Fin cfg6.W, w ≠ (2 : Fin cfg6.W) → (cfg6.win w).isOut = false := by decide
theorem hF6 (c : Dev nD) (w : Fin cfg6.W) : (dat6 (atRefs (N12 m)) c).arrAt w cfg6.N = atRefs (N13 m) c (Pipeline.arrRef spec6 w) :=
  arrAt_upd _ launch6.win (N12 m c) (A_eq6 _ c) 2 inWin6 w
theorem hrest6 (c : Dev nD) : ∀ b, b ∉ Finset.univ.image (Pipeline.arrRef spec6) → atRefs (N13 m) c b = atRefs (N12 m) c b :=
  upd_rest spec6 (N12 m c) 2 (o13 m c)
theorem inWin7 : ∀ w : Fin cfg7.W, w ≠ (10 : Fin cfg7.W) → (cfg7.win w).isOut = false := by decide
theorem hF7 (c : Dev nD) (w : Fin cfg7.W) : (dat7 (atRefs (N14 m)) c).arrAt w cfg7.N = atRefs (N15 m) c (Pipeline.arrRef spec7 w) :=
  arrAt_upd _ launch7.win (N14 m c) (A_eq7 _ c) 10 inWin7 w
theorem hrest7 (c : Dev nD) : ∀ b, b ∉ Finset.univ.image (Pipeline.arrRef spec7) → atRefs (N15 m) c b = atRefs (N14 m) c b :=
  upd_rest spec7 (N14 m c) 10 (o15 m c)
theorem inWin8 : ∀ w : Fin cfg8.W, w ≠ (2 : Fin cfg8.W) → (cfg8.win w).isOut = false := by decide
theorem hF8 (c : Dev nD) (w : Fin cfg8.W) : (dat8 (atRefs (N16 m)) c).arrAt w cfg8.N = atRefs (N17 m) c (Pipeline.arrRef spec8 w) :=
  arrAt_upd _ launch8.win (N16 m c) (A_eq8 _ c) 2 inWin8 w
theorem hrest8 (c : Dev nD) : ∀ b, b ∉ Finset.univ.image (Pipeline.arrRef spec8) → atRefs (N17 m) c b = atRefs (N16 m) c b :=
  upd_rest spec8 (N16 m c) 2 (o17 m c)

end Cert.KernelIdeal.Hand

end
-- ==== Proof.KI.SegOf.lean ====
import proofs.«428859_j12661563588730_1_alg».proof.Proof.KI.Chain

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- Separating conjunction commutes; the middle conjunct is not needed.
theorem ΦA_in {gr W : ℕ} (spec : Fin W → Pipeline.WinSpec sig gr) (c : Dev nD) (P : sProp 𝕄) :
    iprop((∃ r, prngReg c r) ∗ P ∗ Pipeline.scopedRest spec c) ⊢ Pipeline.ΦA spec c := by
  unfold Pipeline.ΦA
  iintro ⟨Hp, -, Hr⟩
  isplitl [Hr] <;> iassumption

theorem ΦA_out {gr W : ℕ} (spec : Fin W → Pipeline.WinSpec sig gr) (c : Dev nD) :
    (Pipeline.ΦA spec c : sProp 𝕄) ⊢ iprop((∃ r, prngReg c r) ∗ Pipeline.scopedRest spec c) := by
  unfold Pipeline.ΦA
  iintro ⟨Hr, Hp⟩
  isplitl [Hp] <;> iassumption

variable (m : (ℓ : Loc nD τ sig) → Buf (Elt F) ℓ)

-- The record at any index p, between contents N and N'; facts that hold by computation at each literal index are hypotheses.
def regOf (p : Fin 9) (L : Pipeline.LaunchFacts (nD := nD) (τ := τ) cfgs p) (N N' : Dev nD → Valuation τ sig (Elt F))
    (hbody : ∀ c, Pipeline.BodyObligationLoose (pdats m p c) defs₀ Variants.none () Set.univ)
    (howed : ∀ c t, (pdats m p c).owed t = 0) (hrec : ∀ c, (pdats m p c).recorded 0 = Set.univ)
    (hq : ∀ c w, (pdats m p c).q w = fullShare)
    (hA : ∀ c w, (pdats m p c).A w = atRefs N c (Pipeline.arrRef (cfgs p).spec w))
    (hF : ∀ c w, (pdats m p c).arrAt w (cfgs p).N = atRefs N' c (Pipeline.arrRef (cfgs p).spec w))
    (hrest : ∀ c b, b ∉ Finset.univ.image (Pipeline.arrRef (cfgs p).spec) → atRefs N' c b = atRefs N c b)
    (hin : ∀ c, iprop((∃ r, prngReg c r) ∗ Pipeline.prefHeld (pcfgs (F := F) p).pre c (fun _ => fullShare) (adm p).1
      ∗ Pipeline.scopedRest (cfgs p).spec c) ⊢ (pdats m p c).Φ 0)
    (hout : ∀ c, (pdats m p c).Φ (Fin.last (cfgs p).N) ⊢ iprop((∃ r, prngReg c r) ∗ Pipeline.scopedRest (cfgs p).spec c)) :
    Pipeline.RegionSeg (pcfgs (F := F)) adm (pdats m) () defs₀ Variants.none LL lvv p where
  win := L.win.to₀
  block_pos := L.block_pos
  stage_whole := L.stage_whole
  K := PEmpty
  osem k := k.elim
  ho := Pipeline.OwnSemFacts.none _
  hbody := hbody
  hwaits := Pipeline.hwaits_of_owed_zero _ _ _ _ LL lvv p howed
  pre c := iprop(StableHlo.held (c : Thread nD τ) (Pipeline.ucRefs τ sig) (N c) ∗ Rr c)
  post c := iprop(StableHlo.held (c : Thread nD τ) (Pipeline.ucRefs τ sig) (N' c) ∗ Rr c)
  X c := iprop(∃ r, prngReg c r)
  Y c := iprop(∃ r, prngReg c r)
  Z c := Pipeline.unscopedRest (Ix := Unit) (Name := ℕ) (U := UR sig nD τ) (Lvl := ℕ) (cfgs p).spec c (atRefs N c)
  hentry c := by
    rw [Pipeline.ownSems0_none]; unfold Pipeline.Dat.owesAt Pipeline.owesWithin Pipeline.Dat.bound; rw [howed, hrec]
    have hsplit := Pipeline.arrays_of_unscopedBufs (p := p) (pcfgs (F := F)) adm (pdats m) L.win L.arr_whole c
      ((pdats m p c).share_full (hq c)) (atRefs N c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp] <;> iassumption
  hin := hin
  hout c := by
    rw [Pipeline.ownSems0_none]; refine (hout c).trans ?_
    iintro ⟨Hp, Hr⟩
    isplitl [Hp]; · iexact Hp
    isplitr; · iempintro
    iexact Hr
  hexit c := by
    unfold Pipeline.Dat.owesAt Pipeline.owesWithin; rw [howed]
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atRefs N c) (atRefs N' c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Cert.KernelIdeal.Hand

end
-- ==== Proof.KI.Seg0.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg0 : Pipeline.RegionSeg (pcfgs (F := F)) adm (pdats m) () defs₀ Variants.none LL lvv 0 :=
  regOf m 0 launch0 (N1 m) (N2 m) (fun c => (body_obligation0 (atRefs (N1 m)) c).loose) (fun _ _ => rfl) (fun _ => rfl)
    (fun _ _ => rfl) (fun _ _ => rfl) (hF0 m) (hrest0 m) (fun c => ΦA_in _ c _) fun c => ΦA_out _ c

end Cert.KernelIdeal.Hand

end
-- ==== Proof.KI.Seg1.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg1 : Pipeline.RegionSeg (pcfgs (F := F)) adm (pdats m) () defs₀ Variants.none LL lvv 1 :=
  regOf m 1 launch1 (N2 m) (N3 m) (fun c => (body_obligation1 (atRefs (N2 m)) c).loose) (fun _ _ => rfl) (fun _ => rfl)
    (fun _ _ => rfl) (fun _ _ => rfl) (hF1 m) (hrest1 m) (fun c => ΦA_in _ c _) fun c => ΦA_out _ c

end Cert.KernelIdeal.Hand

end
-- ==== Proof.KI.Seg2.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg2 : Pipeline.RegionSeg (pcfgs (F := F)) adm (pdats m) () defs₀ Variants.none LL lvv 2 :=
  regOf m 2 launch2 (N4 m) (N5 m) (fun c => (body_obligation2 (atRefs (N4 m)) c).loose) (fun _ _ => rfl) (fun _ => rfl)
    (fun _ _ => rfl) (fun _ _ => rfl) (hF2 m) (hrest2 m) (fun c => ΦA_in _ c _) fun c => ΦA_out _ c

end Cert.KernelIdeal.Hand

end
-- ==== Proof.KI.Seg3.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg3 : Pipeline.RegionSeg (pcfgs (F := F)) adm (pdats m) () defs₀ Variants.none LL lvv 3 :=
  regOf m 3 launch3 (N6 m) (N7 m) (fun c => (body_obligation3 (atRefs (N6 m)) c).loose) (fun _ _ => rfl) (fun _ => rfl)
    (fun _ _ => rfl) (fun _ _ => rfl) (hF3 m) (hrest3 m) (fun c => ΦA_in _ c _) fun c => ΦA_out _ c

end Cert.KernelIdeal.Hand

end
-- ==== Proof.KI.Seg4.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg4 : Pipeline.RegionSeg (pcfgs (F := F)) adm (pdats m) () defs₀ Variants.none LL lvv 4 :=
  regOf m 4 launch4 (N8 m) (N9 m) (fun c => (body_obligation4 (atRefs (N8 m)) c).loose) (fun _ _ => rfl) (fun _ => rfl)
    (fun _ _ => rfl) (fun _ _ => rfl) (hF4 m) (hrest4 m) (fun c => ΦA_in _ c _) fun c => ΦA_out _ c

end Cert.KernelIdeal.Hand

end
-- ==== Proof.KI.Seg5.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg5 : Pipeline.RegionSeg (pcfgs (F := F)) adm (pdats m) () defs₀ Variants.none LL lvv 5 :=
  regOf m 5 launch5 (N10 m) (N11 m) (fun c => (body_obligation5 (atRefs (N10 m)) c).loose) (fun _ _ => rfl) (fun _ => rfl)
    (fun _ _ => rfl) (fun _ _ => rfl) (hF5 m) (hrest5 m) (fun c => ΦA_in _ c _) fun c => ΦA_out _ c

end Cert.KernelIdeal.Hand

end
-- ==== Proof.KI.Seg6.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg6 : Pipeline.RegionSeg (pcfgs (F := F)) adm (pdats m) () defs₀ Variants.none LL lvv 6 :=
  regOf m 6 launch6 (N12 m) (N13 m) (fun c => (body_obligation6 (atRefs (N12 m)) c).loose) (fun _ _ => rfl) (fun _ => rfl)
    (fun _ _ => rfl) (fun _ _ => rfl) (hF6 m) (hrest6 m) (fun c => ΦA_in _ c _) fun c => ΦA_out _ c

end Cert.KernelIdeal.Hand

end
-- ==== Proof.KI.Seg7.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg7 : Pipeline.RegionSeg (pcfgs (F := F)) adm (pdats m) () defs₀ Variants.none LL lvv 7 :=
  regOf m 7 launch7 (N14 m) (N15 m) (fun c => (body_obligation7 (atRefs (N14 m)) c).loose) (fun _ _ => rfl) (fun _ => rfl)
    (fun _ _ => rfl) (fun _ _ => rfl) (hF7 m) (hrest7 m) (fun c => ΦA_in _ c _) fun c => ΦA_out _ c

end Cert.KernelIdeal.Hand

end
-- ==== Proof.KI.Seg8.lean ====
import proofs.«428859_j12661563588730_1_alg».proof.Proof.KI.SegOf

noncomputable section

namespace Cert.KernelIdeal.Hand

open Cert.KernelIdeal Cert.KernelIdeal.Gen Idealize.ShloMosaic

variable {F : FTy → Type} [FloatOps F] (m : (ℓ : Loc nD τ sig) → Buf (Elt F) ℓ)

def reg8 : Pipeline.RegionSeg (pcfgs (F := F)) adm (pdats m) () defs₀ Variants.none LL lvv 8 :=
  regOf m 8 launch8 (N16 m) (N17 m) (fun c => (body_obligation8 (atRefs (N16 m)) c).loose) (fun _ _ => rfl) (fun _ => rfl)
    (fun _ _ => rfl) (fun _ _ => rfl) (hF8 m) (hrest8 m) (fun c => hin8 (atRefs (N16 m)) c _) (hout8 (atRefs (N16 m)))

end Cert.KernelIdeal.Hand

end
-- ==== Proof.KI.Run.lean ====
import proofs.«428859_j12661563588730_1_alg».proof.Proof.KI.Seg0
import proofs.«428859_j12661563588730_1_alg».proof.Proof.KI.Seg1
import proofs.«428859_j12661563588730_1_alg».proof.Proof.KI.Seg2
import proofs.«428859_j12661563588730_1_alg».proof.Proof.KI.Seg3
import proofs.«428859_j12661563588730_1_alg».proof.Proof.KI.Seg4
import proofs.«428859_j12661563588730_1_alg».proof.Proof.KI.Seg5
import proofs.«428859_j12661563588730_1_alg».proof.Proof.KI.Seg6
import proofs.«428859_j12661563588730_1_alg».proof.Proof.KI.Seg7
import proofs.«428859_j12661563588730_1_alg».proof.Proof.KI.Seg8
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EE : Fin 10 → Dev nD → sProp 𝕄 := fun _ c => Rr c

-- Held contents may be replaced by equal ones, on either side of an entailment.
theorem held_to {c : Dev nD} {V N : Valuation τ sig (Elt F)} (e : V = N) {R P : sProp 𝕄}
    (h : iprop(StableHlo.held (c : Thread nD τ) (Pipeline.ucRefs τ sig) N ∗ R) ⊢ P) :
    iprop(StableHlo.held (c : Thread nD τ) (Pipeline.ucRefs τ sig) V ∗ R) ⊢ P := e ▸ h
theorem held_from {c : Dev nD} {V N : Valuation τ sig (Elt F)} (e : V = N) {R P : sProp 𝕄}
    (h : P ⊢ iprop(StableHlo.held (c : Thread nD τ) (Pipeline.ucRefs τ sig) N ∗ R)) :
    P ⊢ iprop(StableHlo.held (c : Thread nD τ) (Pipeline.ucRefs τ sig) V ∗ R) := e ▸ h

-- Every argument buffer of core c in the memory s is as launched.
abbrev argsKept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)

set_option backward.isDefEq.respectTransparency.types false in
-- The program runs item by item over the named contents; the last of them gives the result buffer, and no item writes an argument.
theorem run_main : θ_run defs (onTc (τ := τ) (main (F := F))) ⟨m, fun _ => 0, ρ⟩ (fun r => ∀ c : Dev nD,
      r.2.mem ((c.tc : Thread nD τ).loc main_v133) = N18 m c main_v133 ∧ argsKept m c r.2) := by
  refine Pipeline.θ_run_regions_kit_dev (pcfgs (F := F)) adm (pdats m) () cellOf_inj emb₁ defs₀ Variants.none LL lvv m ρ main
    (segs m (outs m) Variants.none LL lvv (EE (F := F)) () (pdats m) (reg0 m) (reg1 m) (reg2 m) (reg3 m) (reg4 m) (reg5 m) (reg6 m) (reg7 m) (reg8 m))
    (fun c Q => by
      rewrite [main_chain c, Seg.run_eq_chain,
        show (segs m (outs m) Variants.none LL lvv (EE (F := F)) () (pdats m) (reg0 m) (reg1 m) (reg2 m) (reg3 m) (reg4 m) (reg5 m) (reg6 m) (reg7 m) (reg8 m) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9 ] from rfl]
      exact .rfl)
    (fun c => by simp only [segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V18 m (outs m) c))
    (hch := fun c => ⟨.rfl, held_to (V1_eq m c) .rfl, (held_from (V2_eq m c) .rfl).trans (held_to (V2_eq m c) .rfl), held_from (V3_eq m c) .rfl, held_to (V4_eq m c) .rfl, held_from (V5_eq m c) .rfl, held_to (V6_eq m c) .rfl,
      held_from (V7_eq m c) .rfl, held_to (V8_eq m c) .rfl, held_from (V9_eq m c) .rfl, held_to (V10_eq m c) .rfl, held_from (V11_eq m c) .rfl, held_to (V12_eq m c) .rfl,
      held_from (V13_eq m c) .rfl, held_to (V14_eq m c) .rfl, held_from (V15_eq m c) .rfl, held_to (V16_eq m c) .rfl, held_from (V17_eq m c) .rfl,
      sep_mono .rfl (by iintro ⟨-, H⟩; iexact H)⟩)
    (hinit := ?_) (QY := fun c s => s.mem ((c.tc : Thread nD τ).loc main_v133) = N18 m c main_v133 ∧ argsKept m c s)
    (hfin := fun c s' => ?_) (hQ := fun _ h => h)
  · refine Pipeline.initEach LL lvv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      have R := fun (r : Ref sig .tc) hr => h (Proc.devRef .tc r) (Finset.mem_filter.mpr ⟨StableHlo.devRef_mem_tcRefs r, hr⟩)
      exact ⟨(R main_v133 (by decide)).trans (congrFun (V18_eq m c) _),
        (R main_arg0 (by decide)).trans (V18_main_arg0 m (outs m) c),
        (R main_arg1 (by decide)).trans (V18_main_arg1 m (outs m) c),
        (R main_arg2 (by decide)).trans (V18_main_arg2 m (outs m) c),
        (R main_arg3 (by decide)).trans (V18_main_arg3 m (outs m) c),
        (R main_arg4 (by decide)).trans (V18_main_arg4 m (outs m) c),
        (R main_arg5 (by decide)).trans (V18_main_arg5 m (outs m) c),
        (R main_arg6 (by decide)).trans (V18_main_arg6 m (outs m) c),
        (R main_arg7 (by decide)).trans (V18_main_arg7 m (outs m) c),
        (R main_arg8 (by decide)).trans (V18_main_arg8 m (outs m) c),
        (R main_arg9 (by decide)).trans (V18_main_arg9 m (outs m) c),
        (R main_arg10 (by decide)).trans (V18_main_arg10 m (outs m) c),
        (R main_arg11 (by decide)).trans (V18_main_arg11 m (outs m) c),
        (R main_arg12 (by decide)).trans (V18_main_arg12 m (outs m) c),
        (R main_arg13 (by decide)).trans (V18_main_arg13 m (outs m) c),
        (R main_arg14 (by decide)).trans (V18_main_arg14 m (outs m) c),
        (R main_arg15 (by decide)).trans (V18_main_arg15 m (outs m) c),
        (R main_arg16 (by decide)).trans (V18_main_arg16 m (outs m) c),
        (R main_arg17 (by decide)).trans (V18_main_arg17 m (outs m) c)⟩
    · iexact HSI

theorem frame : θ_run defs (onTc (τ := τ) (main (F := F))) ⟨m, fun _ => 0, ρ⟩ (fun r => ∀ c : Dev nD, argsKept m c r.2) :=
  (θ_run defs _ _).mono (fun _ h c => (h c).2) (run_main m ρ)

end Cert.KernelIdeal.Hand

end
-- ==== Proof.RefRead.lean ====
import proofs.«428859_j12661563588730_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S50000x11, .f32⟩ : BufTy).Contents (Elt F)) (x1 : (⟨S2x800000, .i32⟩ : BufTy).Contents (Elt F)) (x2 : (⟨S800000x14, .f32⟩ : BufTy).Contents (Elt F)) (x3 : (⟨S50000, .i32⟩ : BufTy).Contents (Elt F))
  (x4 : (⟨S128x11, .f32⟩ : BufTy).Contents (Elt F)) (x5 : (⟨S128, .f32⟩ : BufTy).Contents (Elt F)) (x6 : (⟨S128x14, .f32⟩ : BufTy).Contents (Elt F)) (x7 : (⟨S128, .f32⟩ : BufTy).Contents (Elt F))
  (x8 : (⟨S3x128x128, .f32⟩ : BufTy).Contents (Elt F)) (x9 x10 x11 x12 x13 : (⟨S3x128, .f32⟩ : BufTy).Contents (Elt F)) (x14 : (⟨S3x128x128, .f32⟩ : BufTy).Contents (Elt F))
  (x15 : (⟨S3x128, .f32⟩ : BufTy).Contents (Elt F)) (x16 : (⟨S128x128, .f32⟩ : BufTy).Contents (Elt F)) (x17 : (⟨S128, .f32⟩ : BufTy).Contents (Elt F))

def val_main_v0 : (⟨S1x800000, .i32⟩ : BufTy).Contents (Elt F) :=
  extractStridedSlice S1x800000 ![0, 0] (x1) slices_S2x800000_S1x800000_0_0
def val_main_v1 : (⟨S800000, .i32⟩ : BufTy).Contents (Elt F) :=
  shapeCast _ (val_main_v0 (F := F) x1) shapeCasts_S1x800000_S800000
def val_main_v2 : (⟨S1x800000, .i32⟩ : BufTy).Contents (Elt F) :=
  extractStridedSlice S1x800000 ![1, 0] (x1) slices_S2x800000_S1x800000_1_0
def val_main_v3 : (⟨S800000, .i32⟩ : BufTy).Contents (Elt F) :=
  shapeCast _ (val_main_v2 (F := F) x1) shapeCasts_S1x800000_S800000
def val_main_v4 : (⟨S11x128, .f32⟩ : BufTy).Contents (Elt F) :=
  transpose S11x128 [1, 0] (x4) transposes_S128x11_S11x128_1_0
def val_main_v5 : (⟨S50000x128, .f32⟩ : BufTy).Contents (Elt F) :=
  Host.dotGeneral dot_S50000x11_S11x128_S50000x128_1_0_0_1_n_n none (x0) (val_main_v4 (F := F) x4)
theorem lhs_main_v5_0 (i : S50000x128.Idx) (q : dot_S50000x11_S11x128_S50000x128_1_0_0_1_n_n.contr.Idx) :
    (dot_S50000x11_S11x128_S50000x128_1_0_0_1_n_n.lhsIdx i q 0).val = (i 0).val := by
  unfold DotDims.lhsIdx
  rw [dif_neg (show ¬(0 : Fin S50000x11.rank) ∈ dot_S50000x11_S11x128_S50000x128_1_0_0_1_n_n.lhsBatch by decide), dif_pos (show (0 : Fin S50000x11.rank) ∈ dot_S50000x11_S11x128_S50000x128_1_0_0_1_n_n.lhsNonContracting by decide)]
  rfl
theorem lhs_main_v5_1 (i : S50000x128.Idx) (q : dot_S50000x11_S11x128_S50000x128_1_0_0_1_n_n.contr.Idx) :
    (dot_S50000x11_S11x128_S50000x128_1_0_0_1_n_n.lhsIdx i q 1).val = (q ⟨0, by decide⟩).val :=
  dot_S50000x11_S11x128_S50000x128_1_0_0_1_n_n.lhsIdx_val_of_single rfl i q
theorem rhs_main_v5_0 (i : S50000x128.Idx) (q : dot_S50000x11_S11x128_S50000x128_1_0_0_1_n_n.contr.Idx) :
    (dot_S50000x11_S11x128_S50000x128_1_0_0_1_n_n.rhsIdx i q 0).val = (q ⟨0, by decide⟩).val :=
  dot_S50000x11_S11x128_S50000x128_1_0_0_1_n_n.rhsIdx_val_of_single rfl i q
theorem rhs_main_v5_1 (i : S50000x128.Idx) (q : dot_S50000x11_S11x128_S50000x128_1_0_0_1_n_n.contr.Idx) :
    (dot_S50000x11_S11x128_S50000x128_1_0_0_1_n_n.rhsIdx i q 1).val = (i 1).val := by
  unfold DotDims.rhsIdx
  rw [dif_neg (show ¬(1 : Fin S11x128.rank) ∈ dot_S50000x11_S11x128_S50000x128_1_0_0_1_n_n.rhsBatch by decide), dif_pos (show (1 : Fin S11x128.rank) ∈ dot_S50000x11_S11x128_S50000x128_1_0_0_1_n_n.rhsNonContracting by decide)]
  rfl
abbrev lidx_main_v5 (i : S50000x128.Idx) (k : Fin 11) : S50000x11.Idx := fun a => match a with
  | ⟨0, _⟩ => ⟨(i 0).val, (i 0).isLt⟩
  | ⟨1, _⟩ => ⟨k.val, k.isLt⟩
abbrev ridx_main_v5 (i : S50000x128.Idx) (k : Fin 11) : S11x128.Idx := fun a => match a with
  | ⟨0, _⟩ => ⟨k.val, k.isLt⟩
  | ⟨1, _⟩ => ⟨(i 1).val, (i 1).isLt⟩
def val_main_v6 : (⟨S1x128, .f32⟩ : BufTy).Contents (Elt F) :=
  broadcastInDim S1x128 ![1] bcast_S128_S1x128_1 (x5)
abbrev idx_main_v6 (i : S1x128.Idx) : S128.Idx := fun a => match a with
  | ⟨0, _⟩ => ⟨(i 1).val, (i 1).isLt⟩
theorem val_main_v6_apply (i : S1x128.Idx) :
    val_main_v6 (F := F) x5 i = x5 (idx_main_v6 i) := by
  unfold val_main_v6
  exact broadcastInDim_apply _ bcast_S128_S1x128_1 x5 i (idx_main_v6 i) (fun a => match a with
    | ⟨0, _⟩ => by show (i 1).val = if (128 : Nat) = 1 then 0 else (i 1).val; rw [if_neg (by decide)])
def val_main_v7 : (⟨S50000x128, .f32⟩ : BufTy).Contents (Elt F) :=
  broadcastInDim S50000x128 ![0, 1] bcast_S1x128_S50000x128_0_1 (val_main_v6 (F := F) x5)
abbrev idx_main_v7 (i : S50000x128.Idx) : S1x128.Idx := fun a => match a with
  | ⟨0, _⟩ => ⟨0, Nat.one_pos⟩
  | ⟨1, _⟩ => ⟨(i 1).val, (i 1).isLt⟩
-- A row repeated down the 50000 rows, read at an index, is the row at the column.
theorem bcast_rows_apply (y : (⟨S1x128, .f32⟩ : BufTy).Contents (Elt F)) (i : S50000x128.Idx) :
    broadcastInDim S50000x128 ![0, 1] bcast_S1x128_S50000x128_0_1 y i = y (idx_main_v7 i) :=
  broadcastInDim_apply _ bcast_S1x128_S50000x128_0_1 y i (idx_main_v7 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
theorem val_main_v7_apply (i : S50000x128.Idx) :
    val_main_v7 (F := F) x5 i = val_main_v6 (F := F) x5 (idx_main_v7 i) :=
  bcast_rows_apply _ i
def val_main_v8 : (⟨S50000x128, .f32⟩ : BufTy).Contents (Elt F) :=
  addf (val_main_v5 (F := F) x0 x4) (val_main_v7 (F := F) x5)
theorem val_main_v8_apply (i : S50000x128.Idx) :
    val_main_v8 (F := F) x0 x4 x5 i = FloatOps.addf (val_main_v5 (F := F) x0 x4 i) (val_main_v7 (F := F) x5 i) := rfl
def val_main_v9 : (⟨S14x128, .f32⟩ : BufTy).Contents (Elt F) :=
  transpose S14x128 [1, 0] (x6) transposes_S128x14_S14x128_1_0
def val_main_v10 : (⟨S800000x128, .f32⟩ : BufTy).Contents (Elt F) :=
  Host.dotGeneral dot_S800000x14_S14x128_S800000x128_1_0_0_1_n_n none (x2) (val_main_v9 (F := F) x6)
theorem lhs_main_v10_0 (i : S800000x128.Idx) (q : dot_S800000x14_S14x128_S800000x128_1_0_0_1_n_n.contr.Idx) :
    (dot_S800000x14_S14x128_S800000x128_1_0_0_1_n_n.lhsIdx i q 0).val = (i 0).val := by
  unfold DotDims.lhsIdx
  rw [dif_neg (show ¬(0 : Fin S800000x14.rank) ∈ dot_S800000x14_S14x128_S800000x128_1_0_0_1_n_n.lhsBatch by decide), dif_pos (show (0 : Fin S800000x14.rank) ∈ dot_S800000x14_S14x128_S800000x128_1_0_0_1_n_n.lhsNonContracting by decide)]
  rfl
theorem lhs_main_v10_1 (i : S800000x128.Idx) (q : dot_S800000x14_S14x128_S800000x128_1_0_0_1_n_n.contr.Idx) :
    (dot_S800000x14_S14x128_S800000x128_1_0_0_1_n_n.lhsIdx i q 1).val = (q ⟨0, by decide⟩).val :=
  dot_S800000x14_S14x128_S800000x128_1_0_0_1_n_n.lhsIdx_val_of_single rfl i q
theorem rhs_main_v10_0 (i : S800000x128.Idx) (q : dot_S800000x14_S14x128_S800000x128_1_0_0_1_n_n.contr.Idx) :
    (dot_S800000x14_S14x128_S800000x128_1_0_0_1_n_n.rhsIdx i q 0).val = (q ⟨0, by decide⟩).val :=
  dot_S800000x14_S14x128_S800000x128_1_0_0_1_n_n.rhsIdx_val_of_single rfl i q
theorem rhs_main_v10_1 (i : S800000x128.Idx) (q : dot_S800000x14_S14x128_S800000x128_1_0_0_1_n_n.contr.Idx) :
    (dot_S800000x14_S14x128_S800000x128_1_0_0_1_n_n.rhsIdx i q 1).val = (i 1).val := by
  unfold DotDims.rhsIdx
  rw [dif_neg (show ¬(1 : Fin S14x128.rank) ∈ dot_S800000x14_S14x128_S800000x128_1_0_0_1_n_n.rhsBatch by decide), dif_pos (show (1 : Fin S14x128.rank) ∈ dot_S800000x14_S14x128_S800000x128_1_0_0_1_n_n.rhsNonContracting by decide)]
  rfl
abbrev lidx_main_v10 (i : S800000x128.Idx) (k : Fin 14) : S800000x14.Idx := fun a => match a with
  | ⟨0, _⟩ => ⟨(i 0).val, (i 0).isLt⟩
  | ⟨1, _⟩ => ⟨k.val, k.isLt⟩
abbrev ridx_main_v10 (i : S800000x128.Idx) (k : Fin 14) : S14x128.Idx := fun a => match a with
  | ⟨0, _⟩ => ⟨k.val, k.isLt⟩
  | ⟨1, _⟩ => ⟨(i 1).val, (i 1).isLt⟩
def val_main_v11 : (⟨S1x128, .f32⟩ : BufTy).Contents (Elt F) :=
  broadcastInDim S1x128 ![1] bcast_S128_S1x128_1 (x7)
abbrev idx_main_v11 (i : S1x128.Idx) : S128.Idx := fun a => match a with
  | ⟨0, _⟩ => ⟨(i 1).val, (i 1).isLt⟩
theorem val_main_v11_apply (i : S1x128.Idx) :
    val_main_v11 (F := F) x7 i = x7 (idx_main_v11 i) := by
  unfold val_main_v11
  exact broadcastInDim_apply _ bcast_S128_S1x128_1 x7 i (idx_main_v11 i) (fun a => match a with
    | ⟨0, _⟩ => by show (i 1).val = if (128 : Nat) = 1 then 0 else (i 1).val; rw [if_neg (by decide)])
def val_main_v12 : (⟨S800000x128, .f32⟩ : BufTy).Contents (Elt F) :=
  broadcastInDim S800000x128 ![0, 1] bcast_S1x128_S800000x128_0_1 (val_main_v11 (F := F) x7)
abbrev idx_main_v12 (i : S800000x128.Idx) : S1x128.Idx := fun a => match a with
  | ⟨0, _⟩ => ⟨0, Nat.one_pos⟩
  | ⟨1, _⟩ => ⟨(i 1).val, (i 1).isLt⟩
theorem val_main_v12_apply (i : S800000x128.Idx) :
    val_main_v12 (F := F) x7 i = val_main_v11 (F := F) x7 (idx_main_v12 i) := by
  unfold val_main_v12
  generalize val_main_v11 (F := F) x7 = y
  exact broadcastInDim_apply _ bcast_S1x128_S800000x128_0_1 y i (idx_main_v12 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v13 : (⟨S800000x128, .f32⟩ : BufTy).Contents (Elt F) :=
  addf (val_main_v10 (F := F) x2 x6) (val_main_v12 (F := F) x7)
theorem val_main_v13_apply (i : S800000x128.Idx) :
    val_main_v13 (F := F) x2 x6 x7 i = FloatOps.addf (val_main_v10 (F := F) x2 x6 i) (val_main_v12 (F := F) x7 i) := rfl
def val_main_c : (⟨S_, .i32⟩ : BufTy).Contents (Elt F) :=
  constantI S_ 32 0#32
def val_main_v14 : (⟨S800000, .i32⟩ : BufTy).Contents (Elt F) :=
  broadcastInDim S800000 ![] bcast_S_S800000 (val_main_c (F := F))
def val_main_v15 : (⟨S800000, .i1⟩ : BufTy).Contents (Elt F) :=
  cmpi .slt (val_main_v1 (F := F) x1) (val_main_v14 (F := F))
def val_main_c_0 : (⟨S_, .i32⟩ : BufTy).Contents (Elt F) :=
  constantI S_ 32 50000#32
def val_main_v16 : (⟨S800000, .i32⟩ : BufTy).Contents (Elt F) :=
  broadcastInDim S800000 ![] bcast_S_S800000 (val_main_c_0 (F := F))
def val_main_v17 : (⟨S800000, .i32⟩ : BufTy).Contents (Elt F) :=
  addi (val_main_v1 (F := F) x1) (val_main_v16 (F := F))
def val_main_v18 : (⟨S800000, .i32⟩ : BufTy).Contents (Elt F) :=
  select (val_main_v15 (F := F) x1) (val_main_v17 (F := F) x1) (val_main_v1 (F := F) x1)
def val_main_v19 : (⟨S800000x1, .i32⟩ : BufTy).Contents (Elt F) :=
  broadcastInDim S800000x1 ![0] bcast_S800000_S800000x1_0 (val_main_v18 (F := F) x1)
def val_main_v20 : (⟨S800000x128, .f32⟩ : BufTy).Contents (Elt F) :=
  Host.gather gather_S50000x128_S800000x1_S800000x128_1_0_n_n_0_1_1128 (val_main_v8 (F := F) x0 x4 x5) (val_main_v19 (F := F) x1)
def val_main_v21 : (⟨S800000x128, .f32⟩ : BufTy).Contents (Elt F) :=
  addf (val_main_v20 (F := F) x0 x1 x4 x5) (val_main_v13 (F := F) x2 x6 x7)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S800000x128, .f32⟩ : BufTy).Contents (Elt F) :=
  broadcastInDim S800000x128 ![] bcast_S_S800000x128 (val_main_call0_cst (F := F))
abbrev idx_main_call0_v0 (i : S800000x128.Idx) : S_.Idx := fun a => a.elim0
theorem val_main_call0_v0_apply (i : S800000x128.Idx) :
    val_main_call0_v0 (F := F) i = val_main_call0_cst (F := F) (idx_main_call0_v0 i) := by
  unfold val_main_call0_v0
  generalize val_main_call0_cst (F := F) = y
  exact broadcastInDim_apply _ bcast_S_S800000x128 y i (idx_main_call0_v0 i) (fun a => a.elim0)
def val_main_v22 : (⟨S800000x128, .f32⟩ : BufTy).Contents (Elt F) :=
  maximumf (val_main_v21 (F := F) x0 x1 x2 x4 x5 x6 x7) (val_main_call0_v0 (F := F))
def val_main_cst : (⟨S_, .f32⟩ : BufTy).Contents (Elt F) :=
  constant S_ .f32 0x00000000#32
def val_main_v23 : (⟨S50000x128, .f32⟩ : BufTy).Contents (Elt F) :=
  broadcastInDim S50000x128 ![] bcast_S_S50000x128 (val_main_cst (F := F))
def val_main_v24 : (⟨S800000x1, .i32⟩ : BufTy).Contents (Elt F) :=
  broadcastInDim S800000x1 ![0] bcast_S800000_S800000x1_0 (val_main_v3 (F := F) x1)
def val_main_v25 : (⟨S50000x128, .f32⟩ : BufTy).Contents (Elt F) :=
  Host.scatterAdd scatter_S50000x128_S800000x1_S800000x128_1_0_0_1 (val_main_v23 (F := F)) (val_main_v24 (F := F) x1) (val_main_v22 (F := F) x0 x1 x2 x4 x5 x6 x7)
def val_main_v26 : (⟨S50000x128, .f32⟩ : BufTy).Contents (Elt F) :=
  addf (val_main_v8 (F := F) x0 x4 x5) (val_main_v25 (F := F) x0 x1 x2 x4 x5 x6 x7)
theorem val_main_v26_apply (i : S50000x128.Idx) :
    val_main_v26 (F := F) x0 x1 x2 x4 x5 x6 x7 i = FloatOps.addf (val_main_v8 (F := F) x0 x4 x5 i) (val_main_v25 (F := F) x0 x1 x2 x4 x5 x6 x7 i) := rfl
def val_main_v27 : (⟨S1x128x128, .f32⟩ : BufTy).Contents (Elt F) :=
  extractStridedSlice S1x128x128 ![0, 0, 0] (x8) slices_S3x128x128_S1x128x128_0_0_0
def val_main_v28 : (⟨S128x128, .f32⟩ : BufTy).Contents (Elt F) :=
  shapeCast _ (val_main_v27 (F := F) x8) shapeCasts_S1x128x128_S128x128
def val_main_v29 : (⟨S128x128, .f32⟩ : BufTy).Contents (Elt F) :=
  transpose S128x128 [1, 0] (val_main_v28 (F := F) x8) transposes_S128x128_S128x128_1_0
def val_main_v30 : (⟨S50000x128, .f32⟩ : BufTy).Contents (Elt F) :=
  Host.dotGeneral dot_S50000x128_S128x128_S50000x128_1_0_0_1_n_n none (val_main_v26 (F := F) x0 x1 x2 x4 x5 x6 x7) (val_main_v29 (F := F) x8)
theorem lhs_main_v30_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v30_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v30_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v30_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v30 (i : S50000x128.Idx) (k : Fin 128) : S50000x128.Idx := fun a => match a with
  | ⟨0, _⟩ => ⟨(i 0).val, (i 0).isLt⟩
  | ⟨1, _⟩ => ⟨k.val, k.isLt⟩
abbrev ridx_main_v30 (i : S50000x128.Idx) (k : Fin 128) : S128x128.Idx := fun a => match a with
  | ⟨0, _⟩ => ⟨k.val, k.isLt⟩
  | ⟨1, _⟩ => ⟨(i 1).val, (i 1).isLt⟩
def val_main_v31 : (⟨S1x128, .f32⟩ : BufTy).Contents (Elt F) :=
  extractStridedSlice S1x128 ![0, 0] (x9) slices_S3x128_S1x128_0_0
def val_main_v32 : (⟨S128, .f32⟩ : BufTy).Contents (Elt F) :=
  shapeCast _ (val_main_v31 (F := F) x9) shapeCasts_S1x128_S128
def val_main_v33 : (⟨S1x128, .f32⟩ : BufTy).Contents (Elt F) :=
  broadcastInDim S1x128 ![1] bcast_S128_S1x128_1 (val_main_v32 (F := F) x9)
abbrev idx_main_v33 (i : S1x128.Idx) : S128.Idx := fun a => match a with
  | ⟨0, _⟩ => ⟨(i 1).val, (i 1).isLt⟩
-- A vector laid out as a single row, read at an index, is the vector at the column.
theorem bcast_row_apply (y : (⟨S128, .f32⟩ : BufTy).Contents (Elt F)) (i : S1x128.Idx) :
    broadcastInDim S1x128 ![1] bcast_S128_S1x128_1 y i = y (idx_main_v33 i) :=
  broadcastInDim_apply _ bcast_S128_S1x128_1 y i (idx_main_v33 i) (fun a => match a with
    | ⟨0, _⟩ => by show (i 1).val = if (128 : Nat) = 1 then 0 else (i 1).val; rw [if_neg (by decide)])
theorem val_main_v33_apply (i : S1x128.Idx) :
    val_main_v33 (F := F) x9 i = val_main_v32 (F := F) x9 (idx_main_v33 i) :=
  bcast_row_apply _ i
def val_main_v34 : (⟨S50000x128, .f32⟩ : BufTy).Contents (Elt F) :=
  broadcastInDim S50000x128 ![0, 1] bcast_S1x128_S50000x128_0_1 (val_main_v33 (F := F) x9)
abbrev idx_main_v34 (i : S50000x128.Idx) : S1x128.Idx := fun a => match a with
  | ⟨0, _⟩ => ⟨0, Nat.one_pos⟩
  | ⟨1, _⟩ => ⟨(i 1).val, (i 1).isLt⟩
theorem val_main_v34_apply (i : S50000x128.Idx) :
    val_main_v34 (F := F) x9 i = val_main_v33 (F := F) x9 (idx_main_v34 i) :=
  bcast_rows_apply _ i
def val_main_v35 : (⟨S50000x128, .f32⟩ : BufTy).Contents (Elt F) :=
  addf (val_main_v30 (F := F) x0 x1 x2 x4 x5 x6 x7 x8) (val_main_v34 (F := F) x9)
theorem val_main_v35_apply (i : S50000x128.Idx) :
    val_main_v35 (F := F) x0 x1 x2 x4 x5 x6 x7 x8 x9 i = FloatOps.addf (val_main_v30 (F := F) x0 x1 x2 x4 x5 x6 x7 x8 i) (val_main_v34 (F := F) x9 i) := rfl
def val_main_v36 : (⟨S1x128, .f32⟩ : BufTy).Contents (Elt F) :=
  extractStridedSlice S1x128 ![0, 0] (x12) slices_S3x128_S1x128_0_0
def val_main_v37 : (⟨S128, .f32⟩ : BufTy).Contents (Elt F) :=
  shapeCast _ (val_main_v36 (F := F) x12) shapeCasts_S1x128_S128
def val_main_v38 : (⟨S1x128, .f32⟩ : BufTy).Contents (Elt F) :=
  broadcastInDim S1x128 ![1] bcast_S128_S1x128_1 (val_main_v37 (F := F) x12)
abbrev idx_main_v38 (i : S1x128.Idx) : S128.Idx := fun a => match a with
  | ⟨0, _⟩ => ⟨(i 1).val, (i 1).isLt⟩
theorem val_main_v38_apply (i : S1x128.Idx) :
    val_main_v38 (F := F) x12 i = val_main_v37 (F := F) x12 (idx_main_v38 i) :=
  bcast_row_apply _ i
def val_main_v39 : (⟨S50000x128, .f32⟩ : BufTy).Contents (Elt F) :=
  broadcastInDim S50000x128 ![0, 1] bcast_S1x128_S50000x128_0_1 (val_main_v38 (F := F) x12)
abbrev idx_main_v39 (i : S50000x128.Idx) : S1x128.Idx := fun a => match a with
  | ⟨0, _⟩ => ⟨0, Nat.one_pos⟩
  | ⟨1, _⟩ => ⟨(i 1).val, (i 1).isLt⟩
theorem val_main_v39_apply (i : S50000x128.Idx) :
    val_main_v39 (F := F) x12 i = val_main_v38 (F := F) x12 (idx_main_v39 i) :=
  bcast_rows_apply _ i
def val_main_v40 : (⟨S50000x128, .f32⟩ : BufTy).Contents (Elt F) :=
  subf (val_main_v35 (F := F) x0 x1 x2 x4 x5 x6 x7 x8 x9) (val_main_v39 (F := F) x12)
theorem val_main_v40_apply (i : S50000x128.Idx) :
    val_main_v40 (F := F) x0 x1 x2 x4 x5 x6 x7 x8 x9 x12 i = FloatOps.subf (val_main_v35 (F := F) x0 x1 x2 x4 x5 x6 x7 x8 x9 i) (val_main_v39 (F := F) x12 i) := rfl
def val_main_v41 : (⟨S1x128, .f32⟩ : BufTy).Contents (Elt F) :=
  extractStridedSlice S1x128 ![0, 0] (x10) slices_S3x128_S1x128_0_0
def val_main_v42 : (⟨S128, .f32⟩ : BufTy).Contents (Elt F) :=
  shapeCast _ (val_main_v41 (F := F) x10) shapeCasts_S1x128_S128
def val_main_v43 : (⟨S1x128, .f32⟩ : BufTy).Contents (Elt F) :=
  extractStridedSlice S1x128 ![0, 0] (x13) slices_S3x128_S1x128_0_0
def val_main_v44 : (⟨S128, .f32⟩ : BufTy).Contents (Elt F) :=
  shapeCast _ (val_main_v43 (F := F) x13) shapeCasts_S1x128_S128
def val_main_cst_1 : (⟨S_, .f32⟩ : BufTy).Contents (Elt F) :=
  constant S_ .f32 0x3727C5AC#32
theorem val_main_cst_1_apply (i : S_.Idx) :
    val_main_cst_1 (F := F) i = FloatOps.ofBits .f32 0x3727C5AC#32 := rfl
def val_main_v45 : (⟨S128, .f32⟩ : BufTy).Contents (Elt F) :=
  broadcastInDim S128 ![] bcast_S_S128 (val_main_cst_1 (F := F))
abbrev idx_main_v45 (i : S128.Idx) : S_.Idx := fun a => a.elim0
theorem val_main_v45_apply (i : S128.Idx) :
    val_main_v45 (F := F) i = val_main_cst_1 (F := F) (idx_main_v45 i) := by
  unfold val_main_v45
  generalize val_main_cst_1 (F := F) = y
  exact broadcastInDim_apply _ bcast_S_S128 y i (idx_main_v45 i) (fun a => a.elim0)
def val_main_v46 : (⟨S128, .f32⟩ : BufTy).Contents (Elt F) :=
  addf (val_main_v44 (F := F) x13) (val_main_v45 (F := F))
theorem val_main_v46_apply (i : S128.Idx) :
    val_main_v46 (F := F) x13 i = FloatOps.addf (val_main_v44 (F := F) x13 i) (val_main_v45 (F := F) i) := rfl
def val_main_v47 : (⟨S128, .f32⟩ : BufTy).Contents (Elt F) :=
  Host.rsqrt (val_main_v46 (F := F) x13)
theorem val_main_v47_apply (i : S128.Idx) :
    val_main_v47 (F := F) x13 i = FloatOps.hostUnary .rsqrt (val_main_v46 (F := F) x13 i) := rfl
def val_main_v48 : (⟨S128, .f32⟩ : BufTy).Contents (Elt F) :=
  mulf (val_main_v42 (F := F) x10) (val_main_v47 (F := F) x13)
theorem val_main_v48_apply (i : S128.Idx) :
    val_main_v48 (F := F) x10 x13 i = FloatOps.mulf (val_main_v42 (F := F) x10 i) (val_main_v47 (F := F) x13 i) := rfl
def val_main_v49 : (⟨S1x128, .f32⟩ : BufTy).Contents (Elt F) :=
  broadcastInDim S1x128 ![1] bcast_S128_S1x128_1 (val_main_v48 (F := F) x10 x13)
abbrev idx_main_v49 (i : S1x128.Idx) : S128.Idx := fun a => match a with
  | ⟨0, _⟩ => ⟨(i 1).val, (i 1).isLt⟩
theorem val_main_v49_apply (i : S1x128.Idx) :
    val_main_v49 (F := F) x10 x13 i = val_main_v48 (F := F) x10 x13 (idx_main_v49 i) :=
  bcast_row_apply _ i
def val_main_v50 : (⟨S50000x128, .f32⟩ : BufTy).Contents (Elt F) :=
  broadcastInDim S50000x128 ![0, 1] bcast_S1x128_S50000x128_0_1 (val_main_v49 (F := F) x10 x13)
abbrev idx_main_v50 (i : S50000x128.Idx) : S1x128.Idx := fun a => match a with
  | ⟨0, _⟩ => ⟨0, Nat.one_pos⟩
  | ⟨1, _⟩ => ⟨(i 1).val, (i 1).isLt⟩
theorem val_main_v50_apply (i : S50000x128.Idx) :
    val_main_v50 (F := F) x10 x13 i = val_main_v49 (F := F) x10 x13 (idx_main_v50 i) :=
  bcast_rows_apply _ i
def val_main_v51 : (⟨S50000x128, .f32⟩ : BufTy).Contents (Elt F) :=
  mulf (val_main_v40 (F := F) x0 x1 x2 x4 x5 x6 x7 x8 x9 x12) (val_main_v50 (F := F) x10 x13)
theorem val_main_v51_apply (i : S50000x128.Idx) :
    val_main_v51 (F := F) x0 x1 x2 x4 x5 x6 x7 x8 x9 x10 x12 x13 i = FloatOps.mulf (val_main_v40 (F := F) x0 x1 x2 x4 x5 x6 x7 x8 x9 x12 i) (val_main_v50 (F := F) x10 x13 i) := rfl
def val_main_v52 : (⟨S1x128, .f32⟩ : BufTy).Contents (Elt F) :=
  extractStridedSlice S1x128 ![0, 0] (x11) slices_S3x128_S1x128_0_0
def val_main_v53 : (⟨S128, .f32⟩ : BufTy).Contents (Elt F) :=
  shapeCast _ (val_main_v52 (F := F) x11) shapeCasts_S1x128_S128
def val_main_v54 : (⟨S1x128, .f32⟩ : BufTy).Contents (Elt F) :=
  broadcastInDim S1x128 ![1] bcast_S128_S1x128_1 (val_main_v53 (F := F) x11)
abbrev idx_main_v54 (i : S1x128.Idx) : S128.Idx := fun a => match a with
  | ⟨0, _⟩ => ⟨(i 1).val, (i 1).isLt⟩
theorem val_main_v54_apply (i : S1x128.Idx) :
    val_main_v54 (F := F) x11 i = val_main_v53 (F := F) x11 (idx_main_v54 i) :=
  bcast_row_apply _ i
def val_main_v55 : (⟨S50000x128, .f32⟩ : BufTy).Contents (Elt F) :=
  broadcastInDim S50000x128 ![0, 1] bcast_S1x128_S50000x128_0_1 (val_main_v54 (F := F) x11)
abbrev idx_main_v55 (i : S50000x128.Idx) : S1x128.Idx := fun a => match a with
  | ⟨0, _⟩ => ⟨0, Nat.one_pos⟩
  | ⟨1, _⟩ => ⟨(i 1).val, (i 1).isLt⟩
theorem val_main_v55_apply (i : S50000x128.Idx) :
    val_main_v55 (F := F) x11 i = val_main_v54 (F := F) x11 (idx_main_v55 i) :=
  bcast_rows_apply _ i
def val_main_v56 : (⟨S50000x128, .f32⟩ : BufTy).Contents (Elt F) :=
  addf (val_main_v51 (F := F) x0 x1 x2 x4 x5 x6 x7 x8 x9 x10 x12 x13) (val_main_v55 (F := F) x11)
theorem val_main_v56_apply (i : S50000x128.Idx) :
    val_main_v56 (F := F) x0 x1 x2 x4 x5 x6 x7 x8 x9 x10 x11 x12 x13 i = FloatOps.addf (val_main_v51 (F := F) x0 x1 x2 x4 x5 x6 x7 x8 x9 x10 x12 x13 i) (val_main_v55 (F := F) x11 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S50000x128, .f32⟩ : BufTy).Contents (Elt F) :=
  broadcastInDim S50000x128 ![] bcast_S_S50000x128 (val_main_call1_cst (F := F))
abbrev idx_main_call1_v0 (i : S50000x128.Idx) : S_.Idx := fun a => a.elim0
theorem val_main_call1_v0_apply (i : S50000x128.Idx) :
    val_main_call1_v0 (F := F) i = val_main_call1_cst (F := F) (idx_main_call1_v0 i) := by
  unfold val_main_call1_v0
  generalize val_main_call1_cst (F := F) = y
  exact broadcastInDim_apply _ bcast_S_S50000x128 y i (idx_main_call1_v0 i) (fun a => a.elim0)
def val_main_v57 : (⟨S50000x128, .f32⟩ : BufTy).Contents (Elt F) :=
  maximumf (val_main_v56 (F := F) x0 x1 x2 x4 x5 x6 x7 x8 x9 x10 x11 x12 x13) (val_main_call1_v0 (F := F))
theorem val_main_v57_apply (i : S50000x128.Idx) :
    val_main_v57 (F := F) x0 x1 x2 x4 x5 x6 x7 x8 x9 x10 x11 x12 x13 i = FloatOps.maximumf (val_main_v56 (F := F) x0 x1 x2 x4 x5 x6 x7 x8 x9 x10 x11 x12 x13 i) (val_main_call1_v0 (F := F) i) := rfl
def val_main_v58 : (⟨S1x128x128, .f32⟩ : BufTy).Contents (Elt F) :=
  extractStridedSlice S1x128x128 ![0, 0, 0] (x14) slices_S3x128x128_S1x128x128_0_0_0
def val_main_v59 : (⟨S128x128, .f32⟩ : BufTy).Contents (Elt F) :=
  shapeCast _ (val_main_v58 (F := F) x14) shapeCasts_S1x128x128_S128x128
def val_main_v60 : (⟨S128x128, .f32⟩ : BufTy).Contents (Elt F) :=
  transpose S128x128 [1, 0] (val_main_v59 (F := F) x14) transposes_S128x128_S128x128_1_0
def val_main_v61 : (⟨S50000x128, .f32⟩ : BufTy).Contents (Elt F) :=
  Host.dotGeneral dot_S50000x128_S128x128_S50000x128_1_0_0_1_n_n none (val_main_v57 (F := F) x0 x1 x2 x4 x5 x6 x7 x8 x9 x10 x11 x12 x13) (val_main_v60 (F := F) x14)
abbrev lidx_main_v61 (i : S50000x128.Idx) (k : Fin 128) : S50000x128.Idx := fun a => match a with
  | ⟨0, _⟩ => ⟨(i 0).val, (i 0).isLt⟩
  | ⟨1, _⟩ => ⟨k.val, k.isLt⟩
abbrev ridx_main_v61 (i : S50000x128.Idx) (k : Fin 128) : S128x128.Idx := fun a => match a with
  | ⟨0, _⟩ => ⟨k.val, k.isLt⟩
  | ⟨1, _⟩ => ⟨(i 1).val, (i 1).isLt⟩
def val_main_v62 : (⟨S1x128, .f32⟩ : BufTy).Contents (Elt F) :=
  extractStridedSlice S1x128 ![0, 0] (x15) slices_S3x128_S1x128_0_0
def val_main_v63 : (⟨S128, .f32⟩ : BufTy).Contents (Elt F) :=
  shapeCast _ (val_main_v62 (F := F) x15) shapeCasts_S1x128_S128
def val_main_v64 : (⟨S1x128, .f32⟩ : BufTy).Contents (Elt F) :=
  broadcastInDim S1x128 ![1] bcast_S128_S1x128_1 (val_main_v63 (F := F) x15)
abbrev idx_main_v64 (i : S1x128.Idx) : S128.Idx := fun a => match a with
  | ⟨0, _⟩ => ⟨(i 1).val, (i 1).isLt⟩
theorem val_main_v64_apply (i : S1x128.Idx) :
    val_main_v64 (F := F) x15 i = val_main_v63 (F := F) x15 (idx_main_v64 i) :=
  bcast_row_apply _ i
def val_main_v65 : (⟨S50000x128, .f32⟩ : BufTy).Contents (Elt F) :=
  broadcastInDim S50000x128 ![0, 1] bcast_S1x128_S50000x128_0_1 (val_main_v64 (F := F) x15)
abbrev idx_main_v65 (i : S50000x128.Idx) : S1x128.Idx := fun a => match a with
  | ⟨0, _⟩ => ⟨0, Nat.one_pos⟩
  | ⟨1, _⟩ => ⟨(i 1).val, (i 1).isLt⟩
theorem val_main_v65_apply (i : S50000x128.Idx) :
    val_main_v65 (F := F) x15 i = val_main_v64 (F := F) x15 (idx_main_v65 i) :=
  bcast_rows_apply _ i
def val_main_v66 : (⟨S50000x128, .f32⟩ : BufTy).Contents (Elt F) :=
  addf (val_main_v61 (F := F) x0 x1 x2 x4 x5 x6 x7 x8 x9 x10 x11 x12 x13 x14) (val_main_v65 (F := F) x15)
theorem val_main_v66_apply (i : S50000x128.Idx) :
    val_main_v66 (F := F) x0 x1 x2 x4 x5 x6 x7 x8 x9 x10 x11 x12 x13 x14 x15 i = FloatOps.addf (val_main_v61 (F := F) x0 x1 x2 x4 x5 x6 x7 x8 x9 x10 x11 x12 x13 x14 i) (val_main_v65 (F := F) x15 i) := rfl
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl
def val_main_call2_v0 : (⟨S50000x128, .f32⟩ : BufTy).Contents (Elt F) :=
  broadcastInDim S50000x128 ![] bcast_S_S50000x128 (val_main_call2_cst (F := F))
abbrev idx_main_call2_v0 (i : S50000x128.Idx) : S_.Idx := fun a => a.elim0
theorem val_main_call2_v0_apply (i : S50000x128.Idx) :
    val_main_call2_v0 (F := F) i = val_main_call2_cst (F := F) (idx_main_call2_v0 i) := by
  unfold val_main_call2_v0
  generalize val_main_call2_cst (F := F) = y
  exact broadcastInDim_apply _ bcast_S_S50000x128 y i (idx_main_call2_v0 i) (fun a => a.elim0)
def val_main_v67 : (⟨S50000x128, .f32⟩ : BufTy).Contents (Elt F) :=
  maximumf (val_main_v66 (F := F) x0 x1 x2 x4 x5 x6 x7 x8 x9 x10 x11 x12 x13 x14 x15) (val_main_call2_v0 (F := F))
theorem val_main_v67_apply (i : S50000x128.Idx) :
    val_main_v67 (F := F) x0 x1 x2 x4 x5 x6 x7 x8 x9 x10 x11 x12 x13 x14 x15 i = FloatOps.maximumf (val_main_v66 (F := F) x0 x1 x2 x4 x5 x6 x7 x8 x9 x10 x11 x12 x13 x14 x15 i) (val_main_call2_v0 (F := F) i) := rfl
def val_main_v68 : (⟨S50000x128, .f32⟩ : BufTy).Contents (Elt F) :=
  addf (val_main_v67 (F := F) x0 x1 x2 x4 x5 x6 x7 x8 x9 x10 x11 x12 x13 x14 x15) (val_main_v8 (F := F) x0 x4 x5)
theorem val_main_v68_apply (i : S50000x128.Idx) :
    val_main_v68 (F := F) x0 x1 x2 x4 x5 x6 x7 x8 x9 x10 x11 x12 x13 x14 x15 i = FloatOps.addf (val_main_v67 (F := F) x0 x1 x2 x4 x5 x6 x7 x8 x9 x10 x11 x12 x13 x14 x15 i) (val_main_v8 (F := F) x0 x4 x5 i) := rfl
def val_main_c_2 : (⟨S_, .i32⟩ : BufTy).Contents (Elt F) :=
  constantI S_ 32 0#32
def val_main_v69 : (⟨S800000, .i32⟩ : BufTy).Contents (Elt F) :=
  broadcastInDim S800000 ![] bcast_S_S800000 (val_main_c_2 (F := F))
def val_main_v70 : (⟨S800000, .i1⟩ : BufTy).Contents (Elt F) :=
  cmpi .slt (val_main_v1 (F := F) x1) (val_main_v69 (F := F))
def val_main_c_3 : (⟨S_, .i32⟩ : BufTy).Contents (Elt F) :=
  constantI S_ 32 50000#32
def val_main_v71 : (⟨S800000, .i32⟩ : BufTy).Contents (Elt F) :=
  broadcastInDim S800000 ![] bcast_S_S800000 (val_main_c_3 (F := F))
def val_main_v72 : (⟨S800000, .i32⟩ : BufTy).Contents (Elt F) :=
  addi (val_main_v1 (F := F) x1) (val_main_v71 (F := F))
def val_main_v73 : (⟨S800000, .i32⟩ : BufTy).Contents (Elt F) :=
  select (val_main_v70 (F := F) x1) (val_main_v72 (F := F) x1) (val_main_v1 (F := F) x1)
def val_main_v74 : (⟨S800000x1, .i32⟩ : BufTy).Contents (Elt F) :=
  broadcastInDim S800000x1 ![0] bcast_S800000_S800000x1_0 (val_main_v73 (F := F) x1)
def val_main_v75 : (⟨S800000x128, .f32⟩ : BufTy).Contents (Elt F) :=
  Host.gather gather_S50000x128_S800000x1_S800000x128_1_0_n_n_0_1_1128 (val_main_v68 (F := F) x0 x1 x2 x4 x5 x6 x7 x8 x9 x10 x11 x12 x13 x14 x15) (val_main_v74 (F := F) x1)
def val_main_v76 : (⟨S800000x128, .f32⟩ : BufTy).Contents (Elt F) :=
  addf (val_main_v75 (F := F) x0 x1 x2 x4 x5 x6 x7 x8 x9 x10 x11 x12 x13 x14 x15) (val_main_v13 (F := F) x2 x6 x7)
def val_main_call3_cst : (⟨S_, .f32⟩ : BufTy).Contents (Elt F) :=
  constant S_ .f32 0x00000000#32
theorem val_main_call3_cst_apply (i : S_.Idx) :
    val_main_call3_cst (F := F) i = FloatOps.ofBits .f32 0x00000000#32 := rfl
def val_main_call3_v0 : (⟨S800000x128, .f32⟩ : BufTy).Contents (Elt F) :=
  broadcastInDim S800000x128 ![] bcast_S_S800000x128 (val_main_call3_cst (F := F))
abbrev idx_main_call3_v0 (i : S800000x128.Idx) : S_.Idx := fun a => a.elim0
theorem val_main_call3_v0_apply (i : S800000x128.Idx) :
    val_main_call3_v0 (F := F) i = val_main_call3_cst (F := F) (idx_main_call3_v0 i) := by
  unfold val_main_call3_v0
  generalize val_main_call3_cst (F := F) = y
  exact broadcastInDim_apply _ bcast_S_S800000x128 y i (idx_main_call3_v0 i) (fun a => a.elim0)
def val_main_v77 : (⟨S800000x128, .f32⟩ : BufTy).Contents (Elt F) :=
  maximumf (val_main_v76 (F := F) x0 x1 x2 x4 x5 x6 x7 x8 x9 x10 x11 x12 x13 x14 x15) (val_main_call3_v0 (F := F))
def val_main_cst_4 : (⟨S_, .f32⟩ : BufTy).Contents (Elt F) :=
  constant S_ .f32 0x00000000#32
def val_main_v78 : (⟨S50000x128, .f32⟩ : BufTy).Contents (Elt F) :=
  broadcastInDim S50000x128 ![] bcast_S_S50000x128 (val_main_cst_4 (F := F))
def val_main_v79 : (⟨S800000x1, .i32⟩ : BufTy).Contents (Elt F) :=
  broadcastInDim S800000x1 ![0] bcast_S800000_S800000x1_0 (val_main_v3 (F := F) x1)
def val_main_v80 : (⟨S50000x128, .f32⟩ : BufTy).Contents (Elt F) :=
  Host.scatterAdd scatter_S50000x128_S800000x1_S800000x128_1_0_0_1 (val_main_v78 (F := F)) (val_main_v79 (F := F) x1) (val_main_v77 (F := F) x0 x1 x2 x4 x5 x6 x7 x8 x9 x10 x11 x12 x13 x14 x15)
def val_main_v81 : (⟨S50000x128, .f32⟩ : BufTy).Contents (Elt F) :=
  addf (val_main_v68 (F := F) x0 x1 x2 x4 x5 x6 x7 x8 x9 x10 x11 x12 x13 x14 x15) (val_main_v80 (F := F) x0 x1 x2 x4 x5 x6 x7 x8 x9 x10 x11 x12 x13 x14 x15)
theorem val_main_v81_apply (i : S50000x128.Idx) :
    val_main_v81 (F := F) x0 x1 x2 x4 x5 x6 x7 x8 x9 x10 x11 x12 x13 x14 x15 i = FloatOps.addf (val_main_v68 (F := F) x0 x1 x2 x4 x5 x6 x7 x8 x9 x10 x11 x12 x13 x14 x15 i) (val_main_v80 (F := F) x0 x1 x2 x4 x5 x6 x7 x8 x9 x10 x11 x12 x13 x14 x15 i) := rfl
def val_main_v82 : (⟨S1x128x128, .f32⟩ : BufTy).Contents (Elt F) :=
  extractStridedSlice S1x128x128 ![1, 0, 0] (x8) slices_S3x128x128_S1x128x128_1_0_0
def val_main_v83 : (⟨S128x128, .f32⟩ : BufTy).Contents (Elt F) :=
  shapeCast _ (val_main_v82 (F := F) x8) shapeCasts_S1x128x128_S128x128
def val_main_v84 : (⟨S128x128, .f32⟩ : BufTy).Contents (Elt F) :=
  transpose S128x128 [1, 0] (val_main_v83 (F := F) x8) transposes_S128x128_S128x128_1_0
def val_main_v85 : (⟨S50000x128, .f32⟩ : BufTy).Contents (Elt F) :=
  Host.dotGeneral dot_S50000x128_S128x128_S50000x128_1_0_0_1_n_n none (val_main_v81 (F := F) x0 x1 x2 x4 x5 x6 x7 x8 x9 x10 x11 x12 x13 x14 x15) (val_main_v84 (F := F) x8)
abbrev lidx_main_v85 (i : S50000x128.Idx) (k : Fin 128) : S50000x128.Idx := fun a => match a with
  | ⟨0, _⟩ => ⟨(i 0).val, (i 0).isLt⟩
  | ⟨1, _⟩ => ⟨k.val, k.isLt⟩
abbrev ridx_main_v85 (i : S50000x128.Idx) (k : Fin 128) : S128x128.Idx := fun a => match a with
  | ⟨0, _⟩ => ⟨k.val, k.isLt⟩
  | ⟨1, _⟩ => ⟨(i 1).val, (i 1).isLt⟩
def val_main_v86 : (⟨S1x128, .f32⟩ : BufTy).Contents (Elt F) :=
  extractStridedSlice S1x128 ![1, 0] (x9) slices_S3x128_S1x128_1_0
def val_main_v87 : (⟨S128, .f32⟩ : BufTy).Contents (Elt F) :=
  shapeCast _ (val_main_v86 (F := F) x9) shapeCasts_S1x128_S128
def val_main_v88 : (⟨S1x128, .f32⟩ : BufTy).Contents (Elt F) :=
  broadcastInDim S1x128 ![1] bcast_S128_S1x128_1 (val_main_v87 (F := F) x9)
abbrev idx_main_v88 (i : S1x128.Idx) : S128.Idx := fun a => match a with
  | ⟨0, _⟩ => ⟨(i 1).val, (i 1).isLt⟩
theorem val_main_v88_apply (i : S1x128.Idx) :
    val_main_v88 (F := F) x9 i = val_main_v87 (F := F) x9 (idx_main_v88 i) :=
  bcast_row_apply _ i
def val_main_v89 : (⟨S50000x128, .f32⟩ : BufTy).Contents (Elt F) :=
  broadcastInDim S50000x128 ![0, 1] bcast_S1x128_S50000x128_0_1 (val_main_v88 (F := F) x9)
abbrev idx_main_v89 (i : S50000x128.Idx) : S1x128.Idx := fun a => match a with
  | ⟨0, _⟩ => ⟨0, Nat.one_pos⟩
  | ⟨1, _⟩ => ⟨(i 1).val, (i 1).isLt⟩
theorem val_main_v89_apply (i : S50000x128.Idx) :
    val_main_v89 (F := F) x9 i = val_main_v88 (F := F) x9 (idx_main_v89 i) :=
  bcast_rows_apply _ i
def val_main_v90 : (⟨S50000x128, .f32⟩ : BufTy).Contents (Elt F) :=
  addf (val_main_v85 (F := F) x0 x1 x2 x4 x5 x6 x7 x8 x9 x10 x11 x12 x13 x14 x15) (val_main_v89 (F := F) x9)
theorem val_main_v90_apply (i : S50000x128.Idx) :
    val_main_v90 (F := F) x0 x1 x2 x4 x5 x6 x7 x8 x9 x10 x11 x12 x13 x14 x15 i = FloatOps.addf (val_main_v85 (F := F) x0 x1 x2 x4 x5 x6 x7 x8 x9 x10 x11 x12 x13 x14 x15 i) (val_main_v89 (F := F) x9 i) := rfl
def val_main_v91 : (⟨S1x128, .f32⟩ : BufTy).Contents (Elt F) :=
  extractStridedSlice S1x128 ![1, 0] (x12) slices_S3x128_S1x128_1_0
def val_main_v92 : (⟨S128, .f32⟩ : BufTy).Contents (Elt F) :=
  shapeCast _ (val_main_v91 (F := F) x12) shapeCasts_S1x128_S128
def val_main_v93 : (⟨S1x128, .f32⟩ : BufTy).Contents (Elt F) :=
  broadcastInDim S1x128 ![1] bcast_S128_S1x128_1 (val_main_v92 (F := F) x12)
abbrev idx_main_v93 (i : S1x128.Idx) : S128.Idx := fun a => match a with
  | ⟨0, _⟩ => ⟨(i 1).val, (i 1).isLt⟩
theorem val_main_v93_apply (i : S1x128.Idx) :
    val_main_v93 (F := F) x12 i = val_main_v92 (F := F) x12 (idx_main_v93 i) :=
  bcast_row_apply _ i
def val_main_v94 : (⟨S50000x128, .f32⟩ : BufTy).Contents (Elt F) :=
  broadcastInDim S50000x128 ![0, 1] bcast_S1x128_S50000x128_0_1 (val_main_v93 (F := F) x12)
abbrev idx_main_v94 (i : S50000x128.Idx) : S1x128.Idx := fun a => match a with
  | ⟨0, _⟩ => ⟨0, Nat.one_pos⟩
  | ⟨1, _⟩ => ⟨(i 1).val, (i 1).isLt⟩
theorem val_main_v94_apply (i : S50000x128.Idx) :
    val_main_v94 (F := F) x12 i = val_main_v93 (F := F) x12 (idx_main_v94 i) :=
  bcast_rows_apply _ i
def val_main_v95 : (⟨S50000x128, .f32⟩ : BufTy).Contents (Elt F) :=
  subf (val_main_v90 (F := F) x0 x1 x2 x4 x5 x6 x7 x8 x9 x10 x11 x12 x13 x14 x15) (val_main_v94 (F := F) x12)
theorem val_main_v95_apply (i : S50000x128.Idx) :
    val_main_v95 (F := F) x0 x1 x2 x4 x5 x6 x7 x8 x9 x10 x11 x12 x13 x14 x15 i = FloatOps.subf (val_main_v90 (F := F) x0 x1 x2 x4 x5 x6 x7 x8 x9 x10 x11 x12 x13 x14 x15 i) (val_main_v94 (F := F) x12 i) := rfl
def val_main_v96 : (⟨S1x128, .f32⟩ : BufTy).Contents (Elt F) :=
  extractStridedSlice S1x128 ![1, 0] (x10) slices_S3x128_S1x128_1_0
def val_main_v97 : (⟨S128, .f32⟩ : BufTy).Contents (Elt F) :=
  shapeCast _ (val_main_v96 (F := F) x10) shapeCasts_S1x128_S128
def val_main_v98 : (⟨S1x128, .f32⟩ : BufTy).Contents (Elt F) :=
  extractStridedSlice S1x128 ![1, 0] (x13) slices_S3x128_S1x128_1_0
def val_main_v99 : (⟨S128, .f32⟩ : BufTy).Contents (Elt F) :=
  shapeCast _ (val_main_v98 (F := F) x13) shapeCasts_S1x128_S128
def val_main_cst_5 : (⟨S_, .f32⟩ : BufTy).Contents (Elt F) :=
  constant S_ .f32 0x3727C5AC#32
theorem val_main_cst_5_apply (i : S_.Idx) :
    val_main_cst_5 (F := F) i = FloatOps.ofBits .f32 0x3727C5AC#32 := rfl
def val_main_v100 : (⟨S128, .f32⟩ : BufTy).Contents (Elt F) :=
  broadcastInDim S128 ![] bcast_S_S128 (val_main_cst_5 (F := F))
abbrev idx_main_v100 (i : S128.Idx) : S_.Idx := fun a => a.elim0
theorem val_main_v100_apply (i : S128.Idx) :
    val_main_v100 (F := F) i = val_main_cst_5 (F := F) (idx_main_v100 i) := by
  unfold val_main_v100
  generalize val_main_cst_5 (F := F) = y
  exact broadcastInDim_apply _ bcast_S_S128 y i (idx_main_v100 i) (fun a => a.elim0)
def val_main_v101 : (⟨S128, .f32⟩ : BufTy).Contents (Elt F) :=
  addf (val_main_v99 (F := F) x13) (val_main_v100 (F := F))
theorem val_main_v101_apply (i : S128.Idx) :
    val_main_v101 (F := F) x13 i = FloatOps.addf (val_main_v99 (F := F) x13 i) (val_main_v100 (F := F) i) := rfl
def val_main_v102 : (⟨S128, .f32⟩ : BufTy).Contents (Elt F) :=
  Host.rsqrt (val_main_v101 (F := F) x13)
theorem val_main_v102_apply (i : S128.Idx) :
    val_main_v102 (F := F) x13 i = FloatOps.hostUnary .rsqrt (val_main_v101 (F := F) x13 i) := rfl
def val_main_v103 : (⟨S128, .f32⟩ : BufTy).Contents (Elt F) :=
  mulf (val_main_v97 (F := F) x10) (val_main_v102 (F := F) x13)
theorem val_main_v103_apply (i : S128.Idx) :
    val_main_v103 (F := F) x10 x13 i = FloatOps.mulf (val_main_v97 (F := F) x10 i) (val_main_v102 (F := F) x13 i) := rfl
def val_main_v104 : (⟨S1x128, .f32⟩ : BufTy).Contents (Elt F) :=
  broadcastInDim S1x128 ![1] bcast_S128_S1x128_1 (val_main_v103 (F := F) x10 x13)
abbrev idx_main_v104 (i : S1x128.Idx) : S128.Idx := fun a => match a with
  | ⟨0, _⟩ => ⟨(i 1).val, (i 1).isLt⟩
theorem val_main_v104_apply (i : S1x128.Idx) :
    val_main_v104 (F := F) x10 x13 i = val_main_v103 (F := F) x10 x13 (idx_main_v104 i) :=
  bcast_row_apply _ i
def val_main_v105 : (⟨S50000x128, .f32⟩ : BufTy).Contents (Elt F) :=
  broadcastInDim S50000x128 ![0, 1] bcast_S1x128_S50000x128_0_1 (val_main_v104 (F := F) x10 x13)
abbrev idx_main_v105 (i : S50000x128.Idx) : S1x128.Idx := fun a => match a with
  | ⟨0, _⟩ => ⟨0, Nat.one_pos⟩
  | ⟨1, _⟩ => ⟨(i 1).val, (i 1).isLt⟩
theorem val_main_v105_apply (i : S50000x128.Idx) :
    val_main_v105 (F := F) x10 x13 i = val_main_v104 (F := F) x10 x13 (idx_main_v105 i) :=
  bcast_rows_apply _ i
def val_main_v106 : (⟨S50000x128, .f32⟩ : BufTy).Contents (Elt F) :=
  mulf (val_main_v95 (F := F) x0 x1 x2 x4 x5 x6 x7 x8 x9 x10 x11 x12 x13 x14 x15) (val_main_v105 (F := F) x10 x13)
theorem val_main_v106_apply (i : S50000x128.Idx) :
    val_main_v106 (F := F) x0 x1 x2 x4 x5 x6 x7 x8 x9 x10 x11 x12 x13 x14 x15 i = FloatOps.mulf (val_main_v95 (F := F) x0 x1 x2 x4 x5 x6 x7 x8 x9 x10 x11 x12 x13 x14 x15 i) (val_main_v105 (F := F) x10 x13 i) := rfl
def val_main_v107 : (⟨S1x128, .f32⟩ : BufTy).Contents (Elt F) :=
  extractStridedSlice S1x128 ![1, 0] (x11) slices_S3x128_S1x128_1_0
def val_main_v108 : (⟨S128, .f32⟩ : BufTy).Contents (Elt F) :=
  shapeCast _ (val_main_v107 (F := F) x11) shapeCasts_S1x128_S128
def val_main_v109 : (⟨S1x128, .f32⟩ : BufTy).Contents (Elt F) :=
  broadcastInDim S1x128 ![1] bcast_S128_S1x128_1 (val_main_v108 (F := F) x11)
abbrev idx_main_v109 (i : S1x128.Idx) : S128.Idx := fun a => match a with
  | ⟨0, _⟩ => ⟨(i 1).val, (i 1).isLt⟩
theorem val_main_v109_apply (i : S1x128.Idx) :
    val_main_v109 (F := F) x11 i = val_main_v108 (F := F) x11 (idx_main_v109 i) :=
  bcast_row_apply _ i
def val_main_v110 : (⟨S50000x128, .f32⟩ : BufTy).Contents (Elt F) :=
  broadcastInDim S50000x128 ![0, 1] bcast_S1x128_S50000x128_0_1 (val_main_v109 (F := F) x11)
abbrev idx_main_v110 (i : S50000x128.Idx) : S1x128.Idx := fun a => match a with
  | ⟨0, _⟩ => ⟨0, Nat.one_pos⟩
  | ⟨1, _⟩ => ⟨(i 1).val, (i 1).isLt⟩
theorem val_main_v110_apply (i : S50000x128.Idx) :
    val_main_v110 (F := F) x11 i = val_main_v109 (F := F) x11 (idx_main_v110 i) :=
  bcast_rows_apply _ i
def val_main_v111 : (⟨S50000x128, .f32⟩ : BufTy).Contents (Elt F) :=
  addf (val_main_v106 (F := F) x0 x1 x2 x4 x5 x6 x7 x8 x9 x10 x11 x12 x13 x14 x15) (val_main_v110 (F := F) x11)
theorem val_main_v111_apply (i : S50000x128.Idx) :
    val_main_v111 (F := F) x0 x1 x2 x4 x5 x6 x7 x8 x9 x10 x11 x12 x13 x14 x15 i = FloatOps.addf (val_main_v106 (F := F) x0 x1 x2 x4 x5 x6 x7 x8 x9 x10 x11 x12 x13 x14 x15 i) (val_main_v110 (F := F) x11 i) := rfl
def val_main_call4_cst : (⟨S_, .f32⟩ : BufTy).Contents (Elt F) :=
  constant S_ .f32 0x00000000#32
theorem val_main_call4_cst_apply (i : S_.Idx) :
    val_main_call4_cst (F := F) i = FloatOps.ofBits .f32 0x00000000#32 := rfl
def val_main_call4_v0 : (⟨S50000x128, .f32⟩ : BufTy).Contents (Elt F) :=
  broadcastInDim S50000x128 ![] bcast_S_S50000x128 (val_main_call4_cst (F := F))
abbrev idx_main_call4_v0 (i : S50000x128.Idx) : S_.Idx := fun a => a.elim0
theorem val_main_call4_v0_apply (i : S50000x128.Idx) :
    val_main_call4_v0 (F := F) i = val_main_call4_cst (F := F) (idx_main_call4_v0 i) := by
  unfold val_main_call4_v0
  generalize val_main_call4_cst (F := F) = y
  exact broadcastInDim_apply _ bcast_S_S50000x128 y i (idx_main_call4_v0 i) (fun a => a.elim0)
def val_main_v112 : (⟨S50000x128, .f32⟩ : BufTy).Contents (Elt F) :=
  maximumf (val_main_v111 (F := F) x0 x1 x2 x4 x5 x6 x7 x8 x9 x10 x11 x12 x13 x14 x15) (val_main_call4_v0 (F := F))
theorem val_main_v112_apply (i : S50000x128.Idx) :
    val_main_v112 (F := F) x0 x1 x2 x4 x5 x6 x7 x8 x9 x10 x11 x12 x13 x14 x15 i = FloatOps.maximumf (val_main_v111 (F := F) x0 x1 x2 x4 x5 x6 x7 x8 x9 x10 x11 x12 x13 x14 x15 i) (val_main_call4_v0 (F := F) i) := rfl
def val_main_v113 : (⟨S1x128x128, .f32⟩ : BufTy).Contents (Elt F) :=
  extractStridedSlice S1x128x128 ![1, 0, 0] (x14) slices_S3x128x128_S1x128x128_1_0_0
def val_main_v114 : (⟨S128x128, .f32⟩ : BufTy).Contents (Elt F) :=
  shapeCast _ (val_main_v113 (F := F) x14) shapeCasts_S1x128x128_S128x128
def val_main_v115 : (⟨S128x128, .f32⟩ : BufTy).Contents (Elt F) :=
  transpose S128x128 [1, 0] (val_main_v114 (F := F) x14) transposes_S128x128_S128x128_1_0
def val_main_v116 : (⟨S50000x128, .f32⟩ : BufTy).Contents (Elt F) :=
  Host.dotGeneral dot_S50000x128_S128x128_S50000x128_1_0_0_1_n_n none (val_main_v112 (F := F) x0 x1 x2 x4 x5 x6 x7 x8 x9 x10 x11 x12 x13 x14 x15) (val_main_v115 (F := F) x14)
abbrev lidx_main_v116 (i : S50000x128.Idx) (k : Fin 128) : S50000x128.Idx := fun a => match a with
  | ⟨0, _⟩ => ⟨(i 0).val, (i 0).isLt⟩
  | ⟨1, _⟩ => ⟨k.val, k.isLt⟩
abbrev ridx_main_v116 (i : S50000x128.Idx) (k : Fin 128) : S128x128.Idx := fun a => match a with
  | ⟨0, _⟩ => ⟨k.val, k.isLt⟩
  | ⟨1, _⟩ => ⟨(i 1).val, (i 1).isLt⟩
def val_main_v117 : (⟨S1x128, .f32⟩ : BufTy).Contents (Elt F) :=
  extractStridedSlice S1x128 ![1, 0] (x15) slices_S3x128_S1x128_1_0
def val_main_v118 : (⟨S128, .f32⟩ : BufTy).Contents (Elt F) :=
  shapeCast _ (val_main_v117 (F := F) x15) shapeCasts_S1x128_S128
def val_main_v119 : (⟨S1x128, .f32⟩ : BufTy).Contents (Elt F) :=
  broadcastInDim S1x128 ![1] bcast_S128_S1x128_1 (val_main_v118 (F := F) x15)
abbrev idx_main_v119 (i : S1x128.Idx) : S128.Idx := fun a => match a with
  | ⟨0, _⟩ => ⟨(i 1).val, (i 1).isLt⟩
theorem val_main_v119_apply (i : S1x128.Idx) :
    val_main_v119 (F := F) x15 i = val_main_v118 (F := F) x15 (idx_main_v119 i) :=
  bcast_row_apply _ i
def val_main_v120 : (⟨S50000x128, .f32⟩ : BufTy).Contents (Elt F) :=
  broadcastInDim S50000x128 ![0, 1] bcast_S1x128_S50000x128_0_1 (val_main_v119 (F := F) x15)
abbrev idx_main_v120 (i : S50000x128.Idx) : S1x128.Idx := fun a => match a with
  | ⟨0, _⟩ => ⟨0, Nat.one_pos⟩
  | ⟨1, _⟩ => ⟨(i 1).val, (i 1).isLt⟩
theorem val_main_v120_apply (i : S50000x128.Idx) :
    val_main_v120 (F := F) x15 i = val_main_v119 (F := F) x15 (idx_main_v120 i) :=
  bcast_rows_apply _ i
def val_main_v121 : (⟨S50000x128, .f32⟩ : BufTy).Contents (Elt F) :=
  addf (val_main_v116 (F := F) x0 x1 x2 x4 x5 x6 x7 x8 x9 x10 x11 x12 x13 x14 x15) (val_main_v120 (F := F) x15)
theorem val_main_v121_apply (i : S50000x128.Idx) :
    val_main_v121 (F := F) x0 x1 x2 x4 x5 x6 x7 x8 x9 x10 x11 x12 x13 x14 x15 i = FloatOps.addf (val_main_v116 (F := F) x0 x1 x2 x4 x5 x6 x7 x8 x9 x10 x11 x12 x13 x14 x15 i) (val_main_v120 (F := F) x15 i) := rfl
def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl
def val_main_call5_v0 : (⟨S50000x128, .f32⟩ : BufTy).Contents (Elt F) :=
  broadcastInDim S50000x128 ![] bcast_S_S50000x128 (val_main_call5_cst (F := F))
abbrev idx_main_call5_v0 (i : S50000x128.Idx) : S_.Idx := fun a => a.elim0
theorem val_main_call5_v0_apply (i : S50000x128.Idx) :
    val_main_call5_v0 (F := F) i = val_main_call5_cst (F := F) (idx_main_call5_v0 i) := by
  unfold val_main_call5_v0
  generalize val_main_call5_cst (F := F) = y
  exact broadcastInDim_apply _ bcast_S_S50000x128 y i (idx_main_call5_v0 i) (fun a => a.elim0)
def val_main_v122 : (⟨S50000x128, .f32⟩ : BufTy).Contents (Elt F) :=
  maximumf (val_main_v121 (F := F) x0 x1 x2 x4 x5 x6 x7 x8 x9 x10 x11 x12 x13 x14 x15) (val_main_call5_v0 (F := F))
theorem val_main_v122_apply (i : S50000x128.Idx) :
    val_main_v122 (F := F) x0 x1 x2 x4 x5 x6 x7 x8 x9 x10 x11 x12 x13 x14 x15 i = FloatOps.maximumf (val_main_v121 (F := F) x0 x1 x2 x4 x5 x6 x7 x8 x9 x10 x11 x12 x13 x14 x15 i) (val_main_call5_v0 (F := F) i) := rfl
def val_main_v123 : (⟨S50000x128, .f32⟩ : BufTy).Contents (Elt F) :=
  addf (val_main_v122 (F := F) x0 x1 x2 x4 x5 x6 x7 x8 x9 x10 x11 x12 x13 x14 x15) (val_main_v68 (F := F) x0 x1 x2 x4 x5 x6 x7 x8 x9 x10 x11 x12 x13 x14 x15)
theorem val_main_v123_apply (i : S50000x128.Idx) :
    val_main_v123 (F := F) x0 x1 x2 x4 x5 x6 x7 x8 x9 x10 x11 x12 x13 x14 x15 i = FloatOps.addf (val_main_v122 (F := F) x0 x1 x2 x4 x5 x6 x7 x8 x9 x10 x11 x12 x13 x14 x15 i) (val_main_v68 (F := F) x0 x1 x2 x4 x5 x6 x7 x8 x9 x10 x11 x12 x13 x14 x15 i) := rfl
def val_main_c_6 : (⟨S_, .i32⟩ : BufTy).Contents (Elt F) :=
  constantI S_ 32 0#32
def val_main_v124 : (⟨S800000, .i32⟩ : BufTy).Contents (Elt F) :=
  broadcastInDim S800000 ![] bcast_S_S800000 (val_main_c_6 (F := F))
def val_main_v125 : (⟨S800000, .i1⟩ : BufTy).Contents (Elt F) :=
  cmpi .slt (val_main_v1 (F := F) x1) (val_main_v124 (F := F))
def val_main_c_7 : (⟨S_, .i32⟩ : BufTy).Contents (Elt F) :=
  constantI S_ 32 50000#32
def val_main_v126 : (⟨S800000, .i32⟩ : BufTy).Contents (Elt F) :=
  broadcastInDim S800000 ![] bcast_S_S800000 (val_main_c_7 (F := F))
def val_main_v127 : (⟨S800000, .i32⟩ : BufTy).Contents (Elt F) :=
  addi (val_main_v1 (F := F) x1) (val_main_v126 (F := F))
def val_main_v128 : (⟨S800000, .i32⟩ : BufTy).Contents (Elt F) :=
  select (val_main_v125 (F := F) x1) (val_main_v127 (F := F) x1) (val_main_v1 (F := F) x1)
def val_main_v129 : (⟨S800000x1, .i32⟩ : BufTy).Contents (Elt F) :=
  broadcastInDim S800000x1 ![0] bcast_S800000_S800000x1_0 (val_main_v128 (F := F) x1)
def val_main_v130 : (⟨S800000x128, .f32⟩ : BufTy).Contents (Elt F) :=
  Host.gather gather_S50000x128_S800000x1_S800000x128_1_0_n_n_0_1_1128 (val_main_v123 (F := F) x0 x1 x2 x4 x5 x6 x7 x8 x9 x10 x11 x12 x13 x14 x15) (val_main_v129 (F := F) x1)
def val_main_v131 : (⟨S800000x128, .f32⟩ : BufTy).Contents (Elt F) :=
  addf (val_main_v130 (F := F) x0 x1 x2 x4 x5 x6 x7 x8 x9 x10 x11 x12 x13 x14 x15) (val_main_v13 (F := F) x2 x6 x7)
def val_main_call6_cst : (⟨S_, .f32⟩ : BufTy).Contents (Elt F) :=
  constant S_ .f32 0x00000000#32
theorem val_main_call6_cst_apply (i : S_.Idx) :
    val_main_call6_cst (F := F) i = FloatOps.ofBits .f32 0x00000000#32 := rfl
def val_main_call6_v0 : (⟨S800000x128, .f32⟩ : BufTy).Contents (Elt F) :=
  broadcastInDim S800000x128 ![] bcast_S_S800000x128 (val_main_call6_cst (F := F))
abbrev idx_main_call6_v0 (i : S800000x128.Idx) : S_.Idx := fun a => a.elim0
theorem val_main_call6_v0_apply (i : S800000x128.Idx) :
    val_main_call6_v0 (F := F) i = val_main_call6_cst (F := F) (idx_main_call6_v0 i) := by
  unfold val_main_call6_v0
  generalize val_main_call6_cst (F := F) = y
  exact broadcastInDim_apply _ bcast_S_S800000x128 y i (idx_main_call6_v0 i) (fun a => a.elim0)
def val_main_v132 : (⟨S800000x128, .f32⟩ : BufTy).Contents (Elt F) :=
  maximumf (val_main_v131 (F := F) x0 x1 x2 x4 x5 x6 x7 x8 x9 x10 x11 x12 x13 x14 x15) (val_main_call6_v0 (F := F))
def val_main_cst_8 : (⟨S_, .f32⟩ : BufTy).Contents (Elt F) :=
  constant S_ .f32 0x00000000#32
def val_main_v133 : (⟨S50000x128, .f32⟩ : BufTy).Contents (Elt F) :=
  broadcastInDim S50000x128 ![] bcast_S_S50000x128 (val_main_cst_8 (F := F))
def val_main_v134 : (⟨S800000x1, .i32⟩ : BufTy).Contents (Elt F) :=
  broadcastInDim S800000x1 ![0] bcast_S800000_S800000x1_0 (val_main_v3 (F := F) x1)
def val_main_v135 : (⟨S50000x128, .f32⟩ : BufTy).Contents (Elt F) :=
  Host.scatterAdd scatter_S50000x128_S800000x1_S800000x128_1_0_0_1 (val_main_v133 (F := F)) (val_main_v134 (F := F) x1) (val_main_v132 (F := F) x0 x1 x2 x4 x5 x6 x7 x8 x9 x10 x11 x12 x13 x14 x15)
def val_main_v136 : (⟨S50000x128, .f32⟩ : BufTy).Contents (Elt F) :=
  addf (val_main_v123 (F := F) x0 x1 x2 x4 x5 x6 x7 x8 x9 x10 x11 x12 x13 x14 x15) (val_main_v135 (F := F) x0 x1 x2 x4 x5 x6 x7 x8 x9 x10 x11 x12 x13 x14 x15)
theorem val_main_v136_apply (i : S50000x128.Idx) :
    val_main_v136 (F := F) x0 x1 x2 x4 x5 x6 x7 x8 x9 x10 x11 x12 x13 x14 x15 i = FloatOps.addf (val_main_v123 (F := F) x0 x1 x2 x4 x5 x6 x7 x8 x9 x10 x11 x12 x13 x14 x15 i) (val_main_v135 (F := F) x0 x1 x2 x4 x5 x6 x7 x8 x9 x10 x11 x12 x13 x14 x15 i) := rfl
def val_main_v137 : (⟨S1x128x128, .f32⟩ : BufTy).Contents (Elt F) :=
  extractStridedSlice S1x128x128 ![2, 0, 0] (x8) slices_S3x128x128_S1x128x128_2_0_0
def val_main_v138 : (⟨S128x128, .f32⟩ : BufTy).Contents (Elt F) :=
  shapeCast _ (val_main_v137 (F := F) x8) shapeCasts_S1x128x128_S128x128
def val_main_v139 : (⟨S128x128, .f32⟩ : BufTy).Contents (Elt F) :=
  transpose S128x128 [1, 0] (val_main_v138 (F := F) x8) transposes_S128x128_S128x128_1_0
def val_main_v140 : (⟨S50000x128, .f32⟩ : BufTy).Contents (Elt F) :=
  Host.dotGeneral dot_S50000x128_S128x128_S50000x128_1_0_0_1_n_n none (val_main_v136 (F := F) x0 x1 x2 x4 x5 x6 x7 x8 x9 x10 x11 x12 x13 x14 x15) (val_main_v139 (F := F) x8)
abbrev lidx_main_v140 (i : S50000x128.Idx) (k : Fin 128) : S50000x128.Idx := fun a => match a with
  | ⟨0, _⟩ => ⟨(i 0).val, (i 0).isLt⟩
  | ⟨1, _⟩ => ⟨k.val, k.isLt⟩
abbrev ridx_main_v140 (i : S50000x128.Idx) (k : Fin 128) : S128x128.Idx := fun a => match a with
  | ⟨0, _⟩ => ⟨k.val, k.isLt⟩
  | ⟨1, _⟩ => ⟨(i 1).val, (i 1).isLt⟩
def val_main_v141 : (⟨S1x128, .f32⟩ : BufTy).Contents (Elt F) :=
  extractStridedSlice S1x128 ![2, 0] (x9) slices_S3x128_S1x128_2_0
def val_main_v142 : (⟨S128, .f32⟩ : BufTy).Contents (Elt F) :=
  shapeCast _ (val_main_v141 (F := F) x9) shapeCasts_S1x128_S128
def val_main_v143 : (⟨S1x128, .f32⟩ : BufTy).Contents (Elt F) :=
  broadcastInDim S1x128 ![1] bcast_S128_S1x128_1 (val_main_v142 (F := F) x9)
abbrev idx_main_v143 (i : S1x128.Idx) : S128.Idx := fun a => match a with
  | ⟨0, _⟩ => ⟨(i 1).val, (i 1).isLt⟩
theorem val_main_v143_apply (i : S1x128.Idx) :
    val_main_v143 (F := F) x9 i = val_main_v142 (F := F) x9 (idx_main_v143 i) :=
  bcast_row_apply _ i
def val_main_v144 : (⟨S50000x128, .f32⟩ : BufTy).Contents (Elt F) :=
  broadcastInDim S50000x128 ![0, 1] bcast_S1x128_S50000x128_0_1 (val_main_v143 (F := F) x9)
abbrev idx_main_v144 (i : S50000x128.Idx) : S1x128.Idx := fun a => match a with
  | ⟨0, _⟩ => ⟨0, Nat.one_pos⟩
  | ⟨1, _⟩ => ⟨(i 1).val, (i 1).isLt⟩
theorem val_main_v144_apply (i : S50000x128.Idx) :
    val_main_v144 (F := F) x9 i = val_main_v143 (F := F) x9 (idx_main_v144 i) :=
  bcast_rows_apply _ i
def val_main_v145 : (⟨S50000x128, .f32⟩ : BufTy).Contents (Elt F) :=
  addf (val_main_v140 (F := F) x0 x1 x2 x4 x5 x6 x7 x8 x9 x10 x11 x12 x13 x14 x15) (val_main_v144 (F := F) x9)
theorem val_main_v145_apply (i : S50000x128.Idx) :
    val_main_v145 (F := F) x0 x1 x2 x4 x5 x6 x7 x8 x9 x10 x11 x12 x13 x14 x15 i = FloatOps.addf (val_main_v140 (F := F) x0 x1 x2 x4 x5 x6 x7 x8 x9 x10 x11 x12 x13 x14 x15 i) (val_main_v144 (F := F) x9 i) := rfl
def val_main_v146 : (⟨S1x128, .f32⟩ : BufTy).Contents (Elt F) :=
  extractStridedSlice S1x128 ![2, 0] (x12) slices_S3x128_S1x128_2_0
def val_main_v147 : (⟨S128, .f32⟩ : BufTy).Contents (Elt F) :=
  shapeCast _ (val_main_v146 (F := F) x12) shapeCasts_S1x128_S128
def val_main_v148 : (⟨S1x128, .f32⟩ : BufTy).Contents (Elt F) :=
  broadcastInDim S1x128 ![1] bcast_S128_S1x128_1 (val_main_v147 (F := F) x12)
abbrev idx_main_v148 (i : S1x128.Idx) : S128.Idx := fun a => match a with
  | ⟨0, _⟩ => ⟨(i 1).val, (i 1).isLt⟩
theorem val_main_v148_apply (i : S1x128.Idx) :
    val_main_v148 (F := F) x12 i = val_main_v147 (F := F) x12 (idx_main_v148 i) :=
  bcast_row_apply _ i
def val_main_v149 : (⟨S50000x128, .f32⟩ : BufTy).Contents (Elt F) :=
  broadcastInDim S50000x128 ![0, 1] bcast_S1x128_S50000x128_0_1 (val_main_v148 (F := F) x12)
abbrev idx_main_v149 (i : S50000x128.Idx) : S1x128.Idx := fun a => match a with
  | ⟨0, _⟩ => ⟨0, Nat.one_pos⟩
  | ⟨1, _⟩ => ⟨(i 1).val, (i 1).isLt⟩
theorem val_main_v149_apply (i : S50000x128.Idx) :
    val_main_v149 (F := F) x12 i = val_main_v148 (F := F) x12 (idx_main_v149 i) :=
  bcast_rows_apply _ i
def val_main_v150 : (⟨S50000x128, .f32⟩ : BufTy).Contents (Elt F) :=
  subf (val_main_v145 (F := F) x0 x1 x2 x4 x5 x6 x7 x8 x9 x10 x11 x12 x13 x14 x15) (val_main_v149 (F := F) x12)
theorem val_main_v150_apply (i : S50000x128.Idx) :
    val_main_v150 (F := F) x0 x1 x2 x4 x5 x6 x7 x8 x9 x10 x11 x12 x13 x14 x15 i = FloatOps.subf (val_main_v145 (F := F) x0 x1 x2 x4 x5 x6 x7 x8 x9 x10 x11 x12 x13 x14 x15 i) (val_main_v149 (F := F) x12 i) := rfl
def val_main_v151 : (⟨S1x128, .f32⟩ : BufTy).Contents (Elt F) :=
  extractStridedSlice S1x128 ![2, 0] (x10) slices_S3x128_S1x128_2_0
def val_main_v152 : (⟨S128, .f32⟩ : BufTy).Contents (Elt F) :=
  shapeCast _ (val_main_v151 (F := F) x10) shapeCasts_S1x128_S128
def val_main_v153 : (⟨S1x128, .f32⟩ : BufTy).Contents (Elt F) :=
  extractStridedSlice S1x128 ![2, 0] (x13) slices_S3x128_S1x128_2_0
def val_main_v154 : (⟨S128, .f32⟩ : BufTy).Contents (Elt F) :=
  shapeCast _ (val_main_v153 (F := F) x13) shapeCasts_S1x128_S128
def val_main_cst_9 : (⟨S_, .f32⟩ : BufTy).Contents (Elt F) :=
  constant S_ .f32 0x3727C5AC#32
theorem val_main_cst_9_apply (i : S_.Idx) :
    val_main_cst_9 (F := F) i = FloatOps.ofBits .f32 0x3727C5AC#32 := rfl
def val_main_v155 : (⟨S128, .f32⟩ : BufTy).Contents (Elt F) :=
  broadcastInDim S128 ![] bcast_S_S128 (val_main_cst_9 (F := F))
abbrev idx_main_v155 (i : S128.Idx) : S_.Idx := fun a => a.elim0
theorem val_main_v155_apply (i : S128.Idx) :
    val_main_v155 (F := F) i = val_main_cst_9 (F := F) (idx_main_v155 i) := by
  unfold val_main_v155
  generalize val_main_cst_9 (F := F) = y
  exact broadcastInDim_apply _ bcast_S_S128 y i (idx_main_v155 i) (fun a => a.elim0)
def val_main_v156 : (⟨S128, .f32⟩ : BufTy).Contents (Elt F) :=
  addf (val_main_v154 (F := F) x13) (val_main_v155 (F := F))
theorem val_main_v156_apply (i : S128.Idx) :
    val_main_v156 (F := F) x13 i = FloatOps.addf (val_main_v154 (F := F) x13 i) (val_main_v155 (F := F) i) := rfl
def val_main_v157 : (⟨S128, .f32⟩ : BufTy).Contents (Elt F) :=
  Host.rsqrt (val_main_v156 (F := F) x13)
theorem val_main_v157_apply (i : S128.Idx) :
    val_main_v157 (F := F) x13 i = FloatOps.hostUnary .rsqrt (val_main_v156 (F := F) x13 i) := rfl
def val_main_v158 : (⟨S128, .f32⟩ : BufTy).Contents (Elt F) :=
  mulf (val_main_v152 (F := F) x10) (val_main_v157 (F := F) x13)
theorem val_main_v158_apply (i : S128.Idx) :
    val_main_v158 (F := F) x10 x13 i = FloatOps.mulf (val_main_v152 (F := F) x10 i) (val_main_v157 (F := F) x13 i) := rfl
def val_main_v159 : (⟨S1x128, .f32⟩ : BufTy).Contents (Elt F) :=
  broadcastInDim S1x128 ![1] bcast_S128_S1x128_1 (val_main_v158 (F := F) x10 x13)
abbrev idx_main_v159 (i : S1x128.Idx) : S128.Idx := fun a => match a with
  | ⟨0, _⟩ => ⟨(i 1).val, (i 1).isLt⟩
theorem val_main_v159_apply (i : S1x128.Idx) :
    val_main_v159 (F := F) x10 x13 i = val_main_v158 (F := F) x10 x13 (idx_main_v159 i) :=
  bcast_row_apply _ i
def val_main_v160 : (⟨S50000x128, .f32⟩ : BufTy).Contents (Elt F) :=
  broadcastInDim S50000x128 ![0, 1] bcast_S1x128_S50000x128_0_1 (val_main_v159 (F := F) x10 x13)
abbrev idx_main_v160 (i : S50000x128.Idx) : S1x128.Idx := fun a => match a with
  | ⟨0, _⟩ => ⟨0, Nat.one_pos⟩
  | ⟨1, _⟩ => ⟨(i 1).val, (i 1).isLt⟩
theorem val_main_v160_apply (i : S50000x128.Idx) :
    val_main_v160 (F := F) x10 x13 i = val_main_v159 (F := F) x10 x13 (idx_main_v160 i) :=
  bcast_rows_apply _ i
def val_main_v161 : (⟨S50000x128, .f32⟩ : BufTy).Contents (Elt F) :=
  mulf (val_main_v150 (F := F) x0 x1 x2 x4 x5 x6 x7 x8 x9 x10 x11 x12 x13 x14 x15) (val_main_v160 (F := F) x10 x13)
theorem val_main_v161_apply (i : S50000x128.Idx) :
    val_main_v161 (F := F) x0 x1 x2 x4 x5 x6 x7 x8 x9 x10 x11 x12 x13 x14 x15 i = FloatOps.mulf (val_main_v150 (F := F) x0 x1 x2 x4 x5 x6 x7 x8 x9 x10 x11 x12 x13 x14 x15 i) (val_main_v160 (F := F) x10 x13 i) := rfl
def val_main_v162 : (⟨S1x128, .f32⟩ : BufTy).Contents (Elt F) :=
  extractStridedSlice S1x128 ![2, 0] (x11) slices_S3x128_S1x128_2_0
def val_main_v163 : (⟨S128, .f32⟩ : BufTy).Contents (Elt F) :=
  shapeCast _ (val_main_v162 (F := F) x11) shapeCasts_S1x128_S128
def val_main_v164 : (⟨S1x128, .f32⟩ : BufTy).Contents (Elt F) :=
  broadcastInDim S1x128 ![1] bcast_S128_S1x128_1 (val_main_v163 (F := F) x11)
abbrev idx_main_v164 (i : S1x128.Idx) : S128.Idx := fun a => match a with
  | ⟨0, _⟩ => ⟨(i 1).val, (i 1).isLt⟩
theorem val_main_v164_apply (i : S1x128.Idx) :
    val_main_v164 (F := F) x11 i = val_main_v163 (F := F) x11 (idx_main_v164 i) :=
  bcast_row_apply _ i
def val_main_v165 : (⟨S50000x128, .f32⟩ : BufTy).Contents (Elt F) :=
  broadcastInDim S50000x128 ![0, 1] bcast_S1x128_S50000x128_0_1 (val_main_v164 (F := F) x11)
abbrev idx_main_v165 (i : S50000x128.Idx) : S1x128.Idx := fun a => match a with
  | ⟨0, _⟩ => ⟨0, Nat.one_pos⟩
  | ⟨1, _⟩ => ⟨(i 1).val, (i 1).isLt⟩
theorem val_main_v165_apply (i : S50000x128.Idx) :
    val_main_v165 (F := F) x11 i = val_main_v164 (F := F) x11 (idx_main_v165 i) :=
  bcast_rows_apply _ i
def val_main_v166 : (⟨S50000x128, .f32⟩ : BufTy).Contents (Elt F) :=
  addf (val_main_v161 (F := F) x0 x1 x2 x4 x5 x6 x7 x8 x9 x10 x11 x12 x13 x14 x15) (val_main_v165 (F := F) x11)
theorem val_main_v166_apply (i : S50000x128.Idx) :
    val_main_v166 (F := F) x0 x1 x2 x4 x5 x6 x7 x8 x9 x10 x11 x12 x13 x14 x15 i = FloatOps.addf (val_main_v161 (F := F) x0 x1 x2 x4 x5 x6 x7 x8 x9 x10 x11 x12 x13 x14 x15 i) (val_main_v165 (F := F) x11 i) := rfl
def val_main_call7_cst : (⟨S_, .f32⟩ : BufTy).Contents (Elt F) :=
  constant S_ .f32 0x00000000#32
theorem val_main_call7_cst_apply (i : S_.Idx) :
    val_main_call7_cst (F := F) i = FloatOps.ofBits .f32 0x00000000#32 := rfl
def val_main_call7_v0 : (⟨S50000x128, .f32⟩ : BufTy).Contents (Elt F) :=
  broadcastInDim S50000x128 ![] bcast_S_S50000x128 (val_main_call7_cst (F := F))
abbrev idx_main_call7_v0 (i : S50000x128.Idx) : S_.Idx := fun a => a.elim0
theorem val_main_call7_v0_apply (i : S50000x128.Idx) :
    val_main_call7_v0 (F := F) i = val_main_call7_cst (F := F) (idx_main_call7_v0 i) := by
  unfold val_main_call7_v0
  generalize val_main_call7_cst (F := F) = y
  exact broadcastInDim_apply _ bcast_S_S50000x128 y i (idx_main_call7_v0 i) (fun a => a.elim0)
def val_main_v167 : (⟨S50000x128, .f32⟩ : BufTy).Contents (Elt F) :=
  maximumf (val_main_v166 (F := F) x0 x1 x2 x4 x5 x6 x7 x8 x9 x10 x11 x12 x13 x14 x15) (val_main_call7_v0 (F := F))
theorem val_main_v167_apply (i : S50000x128.Idx) :
    val_main_v167 (F := F) x0 x1 x2 x4 x5 x6 x7 x8 x9 x10 x11 x12 x13 x14 x15 i = FloatOps.maximumf (val_main_v166 (F := F) x0 x1 x2 x4 x5 x6 x7 x8 x9 x10 x11 x12 x13 x14 x15 i) (val_main_call7_v0 (F := F) i) := rfl
def val_main_v168 : (⟨S1x128x128, .f32⟩ : BufTy).Contents (Elt F) :=
  extractStridedSlice S1x128x128 ![2, 0, 0] (x14) slices_S3x128x128_S1x128x128_2_0_0
def val_main_v169 : (⟨S128x128, .f32⟩ : BufTy).Contents (Elt F) :=
  shapeCast _ (val_main_v168 (F := F) x14) shapeCasts_S1x128x128_S128x128
def val_main_v170 : (⟨S128x128, .f32⟩ : BufTy).Contents (Elt F) :=
  transpose S128x128 [1, 0] (val_main_v169 (F := F) x14) transposes_S128x128_S128x128_1_0
def val_main_v171 : (⟨S50000x128, .f32⟩ : BufTy).Contents (Elt F) :=
  Host.dotGeneral dot_S50000x128_S128x128_S50000x128_1_0_0_1_n_n none (val_main_v167 (F := F) x0 x1 x2 x4 x5 x6 x7 x8 x9 x10 x11 x12 x13 x14 x15) (val_main_v170 (F := F) x14)
abbrev lidx_main_v171 (i : S50000x128.Idx) (k : Fin 128) : S50000x128.Idx := fun a => match a with
  | ⟨0, _⟩ => ⟨(i 0).val, (i 0).isLt⟩
  | ⟨1, _⟩ => ⟨k.val, k.isLt⟩
abbrev ridx_main_v171 (i : S50000x128.Idx) (k : Fin 128) : S128x128.Idx := fun a => match a with
  | ⟨0, _⟩ => ⟨k.val, k.isLt⟩
  | ⟨1, _⟩ => ⟨(i 1).val, (i 1).isLt⟩
def val_main_v172 : (⟨S1x128, .f32⟩ : BufTy).Contents (Elt F) :=
  extractStridedSlice S1x128 ![2, 0] (x15) slices_S3x128_S1x128_2_0
def val_main_v173 : (⟨S128, .f32⟩ : BufTy).Contents (Elt F) :=
  shapeCast _ (val_main_v172 (F := F) x15) shapeCasts_S1x128_S128
def val_main_v174 : (⟨S1x128, .f32⟩ : BufTy).Contents (Elt F) :=
  broadcastInDim S1x128 ![1] bcast_S128_S1x128_1 (val_main_v173 (F := F) x15)
abbrev idx_main_v174 (i : S1x128.Idx) : S128.Idx := fun a => match a with
  | ⟨0, _⟩ => ⟨(i 1).val, (i 1).isLt⟩
theorem val_main_v174_apply (i : S1x128.Idx) :
    val_main_v174 (F := F) x15 i = val_main_v173 (F := F) x15 (idx_main_v174 i) :=
  bcast_row_apply _ i
def val_main_v175 : (⟨S50000x128, .f32⟩ : BufTy).Contents (Elt F) :=
  broadcastInDim S50000x128 ![0, 1] bcast_S1x128_S50000x128_0_1 (val_main_v174 (F := F) x15)
abbrev idx_main_v175 (i : S50000x128.Idx) : S1x128.Idx := fun a => match a with
  | ⟨0, _⟩ => ⟨0, Nat.one_pos⟩
  | ⟨1, _⟩ => ⟨(i 1).val, (i 1).isLt⟩
theorem val_main_v175_apply (i : S50000x128.Idx) :
    val_main_v175 (F := F) x15 i = val_main_v174 (F := F) x15 (idx_main_v175 i) :=
  bcast_rows_apply _ i
def val_main_v176 : (⟨S50000x128, .f32⟩ : BufTy).Contents (Elt F) :=
  addf (val_main_v171 (F := F) x0 x1 x2 x4 x5 x6 x7 x8 x9 x10 x11 x12 x13 x14 x15) (val_main_v175 (F := F) x15)
theorem val_main_v176_apply (i : S50000x128.Idx) :
    val_main_v176 (F := F) x0 x1 x2 x4 x5 x6 x7 x8 x9 x10 x11 x12 x13 x14 x15 i = FloatOps.addf (val_main_v171 (F := F) x0 x1 x2 x4 x5 x6 x7 x8 x9 x10 x11 x12 x13 x14 x15 i) (val_main_v175 (F := F) x15 i) := rfl
def val_main_call8_cst : (⟨S_, .f32⟩ : BufTy).Contents (Elt F) :=
  constant S_ .f32 0x00000000#32
theorem val_main_call8_cst_apply (i : S_.Idx) :
    val_main_call8_cst (F := F) i = FloatOps.ofBits .f32 0x00000000#32 := rfl
def val_main_call8_v0 : (⟨S50000x128, .f32⟩ : BufTy).Contents (Elt F) :=
  broadcastInDim S50000x128 ![] bcast_S_S50000x128 (val_main_call8_cst (F := F))
abbrev idx_main_call8_v0 (i : S50000x128.Idx) : S_.Idx := fun a => a.elim0
theorem val_main_call8_v0_apply (i : S50000x128.Idx) :
    val_main_call8_v0 (F := F) i = val_main_call8_cst (F := F) (idx_main_call8_v0 i) := by
  unfold val_main_call8_v0
  generalize val_main_call8_cst (F := F) = y
  exact broadcastInDim_apply _ bcast_S_S50000x128 y i (idx_main_call8_v0 i) (fun a => a.elim0)
def val_main_v177 : (⟨S50000x128, .f32⟩ : BufTy).Contents (Elt F) :=
  maximumf (val_main_v176 (F := F) x0 x1 x2 x4 x5 x6 x7 x8 x9 x10 x11 x12 x13 x14 x15) (val_main_call8_v0 (F := F))
theorem val_main_v177_apply (i : S50000x128.Idx) :
    val_main_v177 (F := F) x0 x1 x2 x4 x5 x6 x7 x8 x9 x10 x11 x12 x13 x14 x15 i = FloatOps.maximumf (val_main_v176 (F := F) x0 x1 x2 x4 x5 x6 x7 x8 x9 x10 x11 x12 x13 x14 x15 i) (val_main_call8_v0 (F := F) i) := rfl
def val_main_v178 : (⟨S50000x128, .f32⟩ : BufTy).Contents (Elt F) :=
  addf (val_main_v177 (F := F) x0 x1 x2 x4 x5 x6 x7 x8 x9 x10 x11 x12 x13 x14 x15) (val_main_v123 (F := F) x0 x1 x2 x4 x5 x6 x7 x8 x9 x10 x11 x12 x13 x14 x15)
theorem val_main_v178_apply (i : S50000x128.Idx) :
    val_main_v178 (F := F) x0 x1 x2 x4 x5 x6 x7 x8 x9 x10 x11 x12 x13 x14 x15 i = FloatOps.addf (val_main_v177 (F := F) x0 x1 x2 x4 x5 x6 x7 x8 x9 x10 x11 x12 x13 x14 x15 i) (val_main_v123 (F := F) x0 x1 x2 x4 x5 x6 x7 x8 x9 x10 x11 x12 x13 x14 x15 i) := rfl
def val_main_cst_10 : (⟨S_, .f32⟩ : BufTy).Contents (Elt F) :=
  constant S_ .f32 0x3F800000#32
def val_main_v179 : (⟨S50000, .f32⟩ : BufTy).Contents (Elt F) :=
  broadcastInDim S50000 ![] bcast_S_S50000 (val_main_cst_10 (F := F))
def val_main_cst_11 : (⟨S_, .f32⟩ : BufTy).Contents (Elt F) :=
  constant S_ .f32 0x00000000#32
def val_main_v180 : (⟨S64, .f32⟩ : BufTy).Contents (Elt F) :=
  broadcastInDim S64 ![] bcast_S_S64 (val_main_cst_11 (F := F))
def val_main_v181 : (⟨S50000x1, .i32⟩ : BufTy).Contents (Elt F) :=
  broadcastInDim S50000x1 ![0] bcast_S50000_S50000x1_0 (x3)
def val_main_v182 : (⟨S64, .f32⟩ : BufTy).Contents (Elt F) :=
  Host.scatterAdd scatter_S64_S50000x1_S50000_n_0_0_1 (val_main_v180 (F := F)) (val_main_v181 (F := F) x3) (val_main_v179 (F := F))
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl
def val_main_v183 : (⟨S64x128, .f32⟩ : BufTy).Contents (Elt F) :=
  broadcastInDim S64x128 ![] bcast_S_S64x128 (val_main_cst_12 (F := F))
abbrev idx_main_v183 (i : S64x128.Idx) : S_.Idx := fun a => a.elim0
theorem val_main_v183_apply (i : S64x128.Idx) :
    val_main_v183 (F := F) i = val_main_cst_12 (F := F) (idx_main_v183 i) := by
  unfold val_main_v183
  generalize val_main_cst_12 (F := F) = y
  exact broadcastInDim_apply _ bcast_S_S64x128 y i (idx_main_v183 i) (fun a => a.elim0)
def val_main_v184 : (⟨S50000x1, .i32⟩ : BufTy).Contents (Elt F) :=
  broadcastInDim S50000x1 ![0] bcast_S50000_S50000x1_0 (x3)
abbrev idx_main_v184 (i : S50000x1.Idx) : S50000.Idx := fun a => match a with
  | ⟨0, _⟩ => ⟨(i 0).val, (i 0).isLt⟩
theorem val_main_v184_apply (i : S50000x1.Idx) :
    val_main_v184 (F := F) x3 i = x3 (idx_main_v184 i) := by
  unfold val_main_v184
  exact broadcastInDim_apply _ bcast_S50000_S50000x1_0 x3 i (idx_main_v184 i) (fun a => match a with
    | ⟨0, _⟩ => by show (i 0).val = if (50000 : Nat) = 1 then 0 else (i 0).val; rw [if_neg (by decide)])
def val_main_v185 : (⟨S64x128, .f32⟩ : BufTy).Contents (Elt F) :=
  Host.scatterAdd scatter_S64x128_S50000x1_S50000x128_1_0_0_1 (val_main_v183 (F := F)) (val_main_v184 (F := F) x3) (val_main_v178 (F := F) x0 x1 x2 x4 x5 x6 x7 x8 x9 x10 x11 x12 x13 x14 x15)
def val_main_cst_13 : (⟨S_, .f32⟩ : BufTy).Contents (Elt F) :=
  constant S_ .f32 0x3F800000#32
def val_main_v186 : (⟨S64, .f32⟩ : BufTy).Contents (Elt F) :=
  broadcastInDim S64 ![] bcast_S_S64 (val_main_cst_13 (F := F))
def val_main_v187 : (⟨S64, .f32⟩ : BufTy).Contents (Elt F) :=
  maximumf (val_main_v182 (F := F) x3) (val_main_v186 (F := F))
def val_main_v188 : (⟨S64x1, .f32⟩ : BufTy).Contents (Elt F) :=
  broadcastInDim S64x1 ![0] bcast_S64_S64x1_0 (val_main_v187 (F := F) x3)
def val_main_v189 : (⟨S64x128, .f32⟩ : BufTy).Contents (Elt F) :=
  broadcastInDim S64x128 ![0, 1] bcast_S64x1_S64x128_0_1 (val_main_v188 (F := F) x3)
def val_main_v190 : (⟨S64x128, .f32⟩ : BufTy).Contents (Elt F) :=
  Host.divf (val_main_v185 (F := F) x0 x1 x2 x3 x4 x5 x6 x7 x8 x9 x10 x11 x12 x13 x14 x15) (val_main_v189 (F := F) x3)
def val_main_v191 : (⟨S128x128, .f32⟩ : BufTy).Contents (Elt F) :=
  transpose S128x128 [1, 0] (x16) transposes_S128x128_S128x128_1_0
def val_main_v192 : (⟨S64x128, .f32⟩ : BufTy).Contents (Elt F) :=
  Host.dotGeneral dot_S64x128_S128x128_S64x128_1_0_0_1_n_n none (val_main_v190 (F := F) x0 x1 x2 x3 x4 x5 x6 x7 x8 x9 x10 x11 x12 x13 x14 x15) (val_main_v191 (F := F) x16)
def val_main_v193 : (⟨S1x128, .f32⟩ : BufTy).Contents (Elt F) :=
  broadcastInDim S1x128 ![1] bcast_S128_S1x128_1 (x17)
def val_main_v194 : (⟨S64x128, .f32⟩ : BufTy).Contents (Elt F) :=
  broadcastInDim S64x128 ![0, 1] bcast_S1x128_S64x128_0_1 (val_main_v193 (F := F) x17)
def val_main_v195 : (⟨S64x128, .f32⟩ : BufTy).Contents (Elt F) :=
  addf (val_main_v192 (F := F) x0 x1 x2 x3 x4 x5 x6 x7 x8 x9 x10 x11 x12 x13 x14 x15 x16) (val_main_v194 (F := F) x17)

section
variable (x0 : (⟨S50000x11, .f32⟩ : BufTy).Contents (Elt Ideal)) (x1 : (⟨S2x800000, .i32⟩ : BufTy).Contents (Elt Ideal)) (x2 : (⟨S800000x14, .f32⟩ : BufTy).Contents (Elt Ideal))
  (x4 : (⟨S128x11, .f32⟩ : BufTy).Contents (Elt Ideal)) (x5 : (⟨S128, .f32⟩ : BufTy).Contents (Elt Ideal)) (x6 : (⟨S128x14, .f32⟩ : BufTy).Contents (Elt Ideal)) (x7 : (⟨S128, .f32⟩ : BufTy).Contents (Elt Ideal))
  (x8 : (⟨S3x128x128, .f32⟩ : BufTy).Contents (Elt Ideal)) (x9 x10 x11 x12 x13 : (⟨S3x128, .f32⟩ : BufTy).Contents (Elt Ideal)) (x14 : (⟨S3x128x128, .f32⟩ : BufTy).Contents (Elt Ideal))
  (x15 : (⟨S3x128, .f32⟩ : BufTy).Contents (Elt Ideal))

theorem val_main_v5_apply (i : S50000x128.Idx) :
    val_main_v5 (F := Ideal) x0 x4 i = ∑ k : Fin 11, x0 (lidx_main_v5 i k) * (val_main_v4 (F := Ideal) x4) (ridx_main_v5 i k) := by
  unfold val_main_v5
  generalize val_main_v4 (F := Ideal) x4 = y0
  simp only [Host.dotGeneral]
  rw [Ideal.dotGeneral_apply, ← Equiv.sum_comp (ValueIdx.contrEquiv1 dot_S50000x11_S11x128_S50000x128_1_0_0_1_n_n 11 rfl rfl).symm]
  refine Finset.sum_congr rfl fun k _ => ?_
  have hk := ValueIdx.contrEquiv1_symm_val dot_S50000x11_S11x128_S50000x128_1_0_0_1_n_n 11 rfl rfl k
  have el : dot_S50000x11_S11x128_S50000x128_1_0_0_1_n_n.lhsIdx i ((ValueIdx.contrEquiv1 dot_S50000x11_S11x128_S50000x128_1_0_0_1_n_n 11 rfl rfl).symm k) = lidx_main_v5 i k := funext fun a => Fin.ext (by
    match a with
    | ⟨0, _⟩ => exact lhs_main_v5_0 _ _
    | ⟨1, _⟩ => exact (lhs_main_v5_1 _ _).trans hk)
  have er : dot_S50000x11_S11x128_S50000x128_1_0_0_1_n_n.rhsIdx i ((ValueIdx.contrEquiv1 dot_S50000x11_S11x128_S50000x128_1_0_0_1_n_n 11 rfl rfl).symm k) = ridx_main_v5 i k := funext fun a => Fin.ext (by
    match a with
    | ⟨0, _⟩ => exact (rhs_main_v5_0 _ _).trans hk
    | ⟨1, _⟩ => exact rhs_main_v5_1 _ _)
  rw [el, er]

theorem val_main_v10_apply (i : S800000x128.Idx) :
    val_main_v10 (F := Ideal) x2 x6 i = ∑ k : Fin 14, x2 (lidx_main_v10 i k) * (val_main_v9 (F := Ideal) x6) (ridx_main_v10 i k) := by
  unfold val_main_v10
  generalize val_main_v9 (F := Ideal) x6 = y0
  simp only [Host.dotGeneral]
  rw [Ideal.dotGeneral_apply, ← Equiv.sum_comp (ValueIdx.contrEquiv1 dot_S800000x14_S14x128_S800000x128_1_0_0_1_n_n 14 rfl rfl).symm]
  refine Finset.sum_congr rfl fun k _ => ?_
  have hk := ValueIdx.contrEquiv1_symm_val dot_S800000x14_S14x128_S800000x128_1_0_0_1_n_n 14 rfl rfl k
  have el : dot_S800000x14_S14x128_S800000x128_1_0_0_1_n_n.lhsIdx i ((ValueIdx.contrEquiv1 dot_S800000x14_S14x128_S800000x128_1_0_0_1_n_n 14 rfl rfl).symm k) = lidx_main_v10 i k := funext fun a => Fin.ext (by
    match a with
    | ⟨0, _⟩ => exact lhs_main_v10_0 _ _
    | ⟨1, _⟩ => exact (lhs_main_v10_1 _ _).trans hk)
  have er : dot_S800000x14_S14x128_S800000x128_1_0_0_1_n_n.rhsIdx i ((ValueIdx.contrEquiv1 dot_S800000x14_S14x128_S800000x128_1_0_0_1_n_n 14 rfl rfl).symm k) = ridx_main_v10 i k := funext fun a => Fin.ext (by
    match a with
    | ⟨0, _⟩ => exact (rhs_main_v10_0 _ _).trans hk
    | ⟨1, _⟩ => exact rhs_main_v10_1 _ _)
  rw [el, er]

-- An entry of a product with a 128 x 128 matrix is the sum over the contracted axis.
theorem dot128_apply (y0 : (⟨S50000x128, .f32⟩ : BufTy).Contents (Elt Ideal)) (y1 : (⟨S128x128, .f32⟩ : BufTy).Contents (Elt Ideal)) (i : S50000x128.Idx) :
    Host.dotGeneral (F := Ideal) (φ₁ := .f32) (φ₂ := .f32) dot_S50000x128_S128x128_S50000x128_1_0_0_1_n_n none y0 y1 i = ∑ k : Fin 128, y0 (lidx_main_v30 i k) * y1 (ridx_main_v30 i k) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v30 i k := funext fun a => Fin.ext (by
    match a with
    | ⟨0, _⟩ => exact lhs_main_v30_0 _ _
    | ⟨1, _⟩ => exact (lhs_main_v30_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v30 i k := funext fun a => Fin.ext (by
    match a with
    | ⟨0, _⟩ => exact (rhs_main_v30_0 _ _).trans hk
    | ⟨1, _⟩ => exact rhs_main_v30_1 _ _)
  rw [el, er]

theorem val_main_v30_apply (i : S50000x128.Idx) :
    val_main_v30 (F := Ideal) x0 x1 x2 x4 x5 x6 x7 x8 i = ∑ k : Fin 128, (val_main_v26 (F := Ideal) x0 x1 x2 x4 x5 x6 x7) (lidx_main_v30 i k) * (val_main_v29 (F := Ideal) x8) (ridx_main_v30 i k) :=
  dot128_apply _ _ i

theorem val_main_v61_apply (i : S50000x128.Idx) :
    val_main_v61 (F := Ideal) x0 x1 x2 x4 x5 x6 x7 x8 x9 x10 x11 x12 x13 x14 i = ∑ k : Fin 128, (val_main_v57 (F := Ideal) x0 x1 x2 x4 x5 x6 x7 x8 x9 x10 x11 x12 x13) (lidx_main_v61 i k) * (val_main_v60 (F := Ideal) x14) (ridx_main_v61 i k) :=
  dot128_apply _ _ i

theorem val_main_v85_apply (i : S50000x128.Idx) :
    val_main_v85 (F := Ideal) x0 x1 x2 x4 x5 x6 x7 x8 x9 x10 x11 x12 x13 x14 x15 i = ∑ k : Fin 128, (val_main_v81 (F := Ideal) x0 x1 x2 x4 x5 x6 x7 x8 x9 x10 x11 x12 x13 x14 x15) (lidx_main_v85 i k) * (val_main_v84 (F := Ideal) x8) (ridx_main_v85 i k) :=
  dot128_apply _ _ i

theorem val_main_v116_apply (i : S50000x128.Idx) :
    val_main_v116 (F := Ideal) x0 x1 x2 x4 x5 x6 x7 x8 x9 x10 x11 x12 x13 x14 x15 i = ∑ k : Fin 128, (val_main_v112 (F := Ideal) x0 x1 x2 x4 x5 x6 x7 x8 x9 x10 x11 x12 x13 x14 x15) (lidx_main_v116 i k) * (val_main_v115 (F := Ideal) x14) (ridx_main_v116 i k) :=
  dot128_apply _ _ i

theorem val_main_v140_apply (i : S50000x128.Idx) :
    val_main_v140 (F := Ideal) x0 x1 x2 x4 x5 x6 x7 x8 x9 x10 x11 x12 x13 x14 x15 i = ∑ k : Fin 128, (val_main_v136 (F := Ideal) x0 x1 x2 x4 x5 x6 x7 x8 x9 x10 x11 x12 x13 x14 x15) (lidx_main_v140 i k) * (val_main_v139 (F := Ideal) x8) (ridx_main_v140 i k) :=
  dot128_apply _ _ i

theorem val_main_v171_apply (i : S50000x128.Idx) :
    val_main_v171 (F := Ideal) x0 x1 x2 x4 x5 x6 x7 x8 x9 x10 x11 x12 x13 x14 x15 i = ∑ k : Fin 128, (val_main_v167 (F := Ideal) x0 x1 x2 x4 x5 x6 x7 x8 x9 x10 x11 x12 x13 x14 x15) (lidx_main_v171 i k) * (val_main_v170 (F := Ideal) x14) (ridx_main_v171 i k) :=
  dot128_apply _ _ i

end

end Cert.ReferenceIdeal.Read

end
-- ==== Proof.Ref.RunInv.lean ====
import proofs.«428859_j12661563588730_1_alg».proof.Proof.RefRead
import Idealize.ShloMosaic.Lib.StableHlo.Run

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- Every buffer the operations write is in `Wl`, and no argument is. -/
structure Ok (ops : List (HloOp τ sig (Elt F))) (Wl : List (Ref sig .tc)) : Prop where
  sub : ops.Forall fun op => op.bufs ⊆ tcRefs τ sig
  fresh : ops.Forall fun op => op.fresh = ∅
  writes : ops.Forall fun op => op.writes ⊆ (Wl.map (Proc.devRef (τ := τ) .tc)).toFinset
  args : ∀ r ∈ argRefs, r ∉ Wl

/-- An operation whose one result buffer is in `Wl` writes inside `Wl`. -/
theorem wr_of_mem {Wl : List (Ref sig .tc)} {y : Ref sig .tc} (h : y ∈ Wl) :
    ({Proc.devRef .tc y} : Finset (DevRef τ sig)) ⊆ (Wl.map (Proc.devRef (τ := τ) .tc)).toFinset :=
  Finset.singleton_subset_iff.mpr (List.mem_toFinset.mpr (List.mem_map_of_mem h))

variable {l : List (HloOp τ sig (Elt F))} {Wl : List (Ref sig .tc)} {V W : Valuation τ sig (Elt F)}

/-- A buffer the stretch does not write keeps its contents. -/
theorem Ok.keep (ok : Ok l Wl) {r : Ref sig .tc} (hr : r ∉ Wl) (W : Valuation τ sig (Elt F)) : after l W r = W r :=
  after_of_writes_sub l W ok.writes hr

/-- `W` holds at the argument buffers what the launch contents `V` hold there. -/
def Args (V W : Valuation τ sig (Elt F)) : Prop := ∀ r ∈ argRefs, W r = V r

theorem Args.keep (ok : Ok l Wl) (h : Args V W) : Args V (after l W) :=
  fun r hr => (ok.keep (ok.args r hr) W).trans (h r hr)

/-- `InvK V W`: after the first K stretches from launch contents `V` (31, 62, 96, 128, 161, 196, 230 operations), `W` holds the arguments as `V` does and each buffer read later at its stage of them. -/
structure Inv1 (V W : Valuation τ sig (Elt F)) : Prop where
  args : Args V W
  main_v1 : W main_v1 = val_main_v1 (V main_arg1)
  main_v3 : W main_v3 = val_main_v3 (V main_arg1)
  main_v8 : W main_v8 = val_main_v8 (V main_arg0) (V main_arg4) (V main_arg5)
  main_v13 : W main_v13 = val_main_v13 (V main_arg2) (V main_arg6) (V main_arg7)
  main_v25 : W main_v25 = val_main_v25 (V main_arg0) (V main_arg1) (V main_arg2) (V main_arg4) (V main_arg5) (V main_arg6) (V main_arg7)

structure Inv2 (V W : Valuation τ sig (Elt F)) : Prop where
  args : Args V W
  main_v1 : W main_v1 = val_main_v1 (V main_arg1)
  main_v3 : W main_v3 = val_main_v3 (V main_arg1)
  main_v8 : W main_v8 = val_main_v8 (V main_arg0) (V main_arg4) (V main_arg5)
  main_v13 : W main_v13 = val_main_v13 (V main_arg2) (V main_arg6) (V main_arg7)
  main_v51 : W main_v51 = val_main_v51 (V main_arg0) (V main_arg1) (V main_arg2) (V main_arg4) (V main_arg5) (V main_arg6) (V main_arg7) (V main_arg8) (V main_arg9) (V main_arg10) (V main_arg12) (V main_arg13)
  main_v55 : W main_v55 = val_main_v55 (V main_arg11)

structure Inv3 (V W : Valuation τ sig (Elt F)) : Prop where
  args : Args V W
  main_v1 : W main_v1 = val_main_v1 (V main_arg1)
  main_v3 : W main_v3 = val_main_v3 (V main_arg1)
  main_v13 : W main_v13 = val_main_v13 (V main_arg2) (V main_arg6) (V main_arg7)
  main_v68 : W main_v68 = val_main_v68 (V main_arg0) (V main_arg1) (V main_arg2) (V main_arg4) (V main_arg5) (V main_arg6) (V main_arg7) (V main_arg8) (V main_arg9) (V main_arg10) (V main_arg11) (V main_arg12) (V main_arg13) (V main_arg14) (V main_arg15)
  main_v80 : W main_v80 = val_main_v80 (V main_arg0) (V main_arg1) (V main_arg2) (V main_arg4) (V main_arg5) (V main_arg6) (V main_arg7) (V main_arg8) (V main_arg9) (V main_arg10) (V main_arg11) (V main_arg12) (V main_arg13) (V main_arg14) (V main_arg15)

structure Inv4 (V W : Valuation τ sig (Elt F)) : Prop where
  args : Args V W
  main_v1 : W main_v1 = val_main_v1 (V main_arg1)
  main_v3 : W main_v3 = val_main_v3 (V main_arg1)
  main_v13 : W main_v13 = val_main_v13 (V main_arg2) (V main_arg6) (V main_arg7)
  main_v68 : W main_v68 = val_main_v68 (V main_arg0) (V main_arg1) (V main_arg2) (V main_arg4) (V main_arg5) (V main_arg6) (V main_arg7) (V main_arg8) (V main_arg9) (V main_arg10) (V main_arg11) (V main_arg12) (V main_arg13) (V main_arg14) (V main_arg15)
  main_v111 : W main_v111 = val_main_v111 (V main_arg0) (V main_arg1) (V main_arg2) (V main_arg4) (V main_arg5) (V main_arg6) (V main_arg7) (V main_arg8) (V main_arg9) (V main_arg10) (V main_arg11) (V main_arg12) (V main_arg13) (V main_arg14) (V main_arg15)

structure Inv5 (V W : Valuation τ sig (Elt F)) : Prop where
  args : Args V W
  main_v123 : W main_v123 = val_main_v123 (V main_arg0) (V main_arg1) (V main_arg2) (V main_arg4) (V main_arg5) (V main_arg6) (V main_arg7) (V main_arg8) (V main_arg9) (V main_arg10) (V main_arg11) (V main_arg12) (V main_arg13) (V main_arg14) (V main_arg15)
  main_v135 : W main_v135 = val_main_v135 (V main_arg0) (V main_arg1) (V main_arg2) (V main_arg4) (V main_arg5) (V main_arg6) (V main_arg7) (V main_arg8) (V main_arg9) (V main_arg10) (V main_arg11) (V main_arg12) (V main_arg13) (V main_arg14) (V main_arg15)

structure Inv6 (V W : Valuation τ sig (Elt F)) : Prop where
  args : Args V W
  main_v123 : W main_v123 = val_main_v123 (V main_arg0) (V main_arg1) (V main_arg2) (V main_arg4) (V main_arg5) (V main_arg6) (V main_arg7) (V main_arg8) (V main_arg9) (V main_arg10) (V main_arg11) (V main_arg12) (V main_arg13) (V main_arg14) (V main_arg15)
  main_v167 : W main_v167 = val_main_v167 (V main_arg0) (V main_arg1) (V main_arg2) (V main_arg4) (V main_arg5) (V main_arg6) (V main_arg7) (V main_arg8) (V main_arg9) (V main_arg10) (V main_arg11) (V main_arg12) (V main_arg13) (V main_arg14) (V main_arg15)

structure Inv7 (V W : Valuation τ sig (Elt F)) : Prop where
  args : Args V W
  main_v195 : W main_v195 = val_main_v195 (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) (V main_arg17)

end Cert.Proof.RefRun

end
-- ==== Proof.Ref.RunC1.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops1 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    unary main_arg4 main_v4 (transpose S11x128 [1, 0] · transposes_S128x11_S11x128_1_0),
    binary main_arg0 main_v4 main_v5 (fun l r => Host.dotGeneral dot_S50000x11_S11x128_S50000x128_1_0_0_1_n_n none l r),
    unary main_arg5 main_v6 (broadcastInDim S1x128 ![1] bcast_S128_S1x128_1),
    unary main_v6 main_v7 (broadcastInDim S50000x128 ![0, 1] bcast_S1x128_S50000x128_0_1),
    binary main_v5 main_v7 main_v8 addf,
    unary main_arg6 main_v9 (transpose S14x128 [1, 0] · transposes_S128x14_S14x128_1_0),
    binary main_arg2 main_v9 main_v10 (fun l r => Host.dotGeneral dot_S800000x14_S14x128_S800000x128_1_0_0_1_n_n none l r),
    unary main_arg7 main_v11 (broadcastInDim S1x128 ![1] bcast_S128_S1x128_1),
    unary main_v11 main_v12 (broadcastInDim S800000x128 ![0, 1] bcast_S1x128_S800000x128_0_1),
    binary main_v10 main_v12 main_v13 addf,
    nullary main_c (constantI S_ 32 0#32),
    unary main_c main_v14 (broadcastInDim S800000 ![] bcast_S_S800000),
    binary main_v1 main_v14 main_v15 (cmpi .slt),
    nullary main_c_0 (constantI S_ 32 50000#32),
    unary main_c_0 main_v16 (broadcastInDim S800000 ![] bcast_S_S800000),
    binary main_v1 main_v16 main_v17 addi,
    ternary main_v15 main_v17 main_v1 main_v18 select,
    unary main_v18 main_v19 (broadcastInDim S800000x1 ![0] bcast_S800000_S800000x1_0),
    binary main_v8 main_v19 main_v20 (fun x i => Host.gather gather_S50000x128_S800000x1_S800000x128_1_0_n_n_0_1_1128 x i),
    binary main_v20 main_v13 main_v21 addf,
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v21) (TRef.of (T := ⟨S800000x128, .f32⟩) main_call0_v0) (TRef.of (T := ⟨S800000x128, .f32⟩) main_v22) maximumf,
    nullary main_cst (constant S_ .f32 0x00000000#32),
    unary main_cst main_v23 (broadcastInDim S50000x128 ![] bcast_S_S50000x128),
    unary main_v3 main_v24 (broadcastInDim S800000x1 ![0] bcast_S800000_S800000x1_0),
    ternary main_v23 main_v24 main_v22 main_v25 (fun x i u => Host.scatterAdd scatter_S50000x128_S800000x1_S800000x128_1_0_0_1 x i u) ]

abbrev ops1_W : List (Ref sig .tc) := [main_v0, main_v1, main_v2, main_v3, main_v4, main_v5, main_v6, main_v7, main_v8, main_v9, main_v10, main_v11, main_v12, main_v13, main_c, main_v14, main_v15, main_c_0, main_v16, main_v17, main_v18, main_v19, main_v20, main_v21, main_call0_cst, main_call0_v0, main_v22, main_cst, main_v23, main_v24, main_v25]

theorem ok1 : Ok (ops1 (F := F)) ops1_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

/-- Each buffer read later is the fold of the stretch over the contents before it; with the buffers read from before at their stages, that is its own stage. -/
theorem step1 {V W : Valuation τ sig (Elt F)} (h : Args V W) : Inv1 V (after ops1 W) where
  args := h.keep ok1
  main_v1 := by
    after_results_simp
    rw [h main_arg1 (by decide)]; rfl
  main_v3 := by
    after_results_simp
    rw [h main_arg1 (by decide)]; rfl
  main_v8 := by
    after_results_simp
    rw [h main_arg5 (by decide), h main_arg4 (by decide), h main_arg0 (by decide)]; rfl
  main_v13 := by
    after_results_simp
    rw [h main_arg7 (by decide), h main_arg6 (by decide), h main_arg2 (by decide)]; rfl
  main_v25 := by
    after_results_simp
    rw [h main_arg7 (by decide), h main_arg6 (by decide), h main_arg2 (by decide), h main_arg1 (by decide), h main_arg5 (by decide), h main_arg4 (by decide), h main_arg0 (by decide)]; rfl

end Cert.Proof.RefRun

end
-- ==== Proof.Ref.RunC2.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops2 : List (HloOp τ sig (Elt F)) :=
  [ binary main_v8 main_v25 main_v26 addf,
    unary main_arg8 main_v27 (extractStridedSlice S1x128x128 ![0, 0, 0] · slices_S3x128x128_S1x128x128_0_0_0),
    reshape main_v27 main_v28 rfl shapeCasts_S1x128x128_S128x128,
    unary main_v28 main_v29 (transpose S128x128 [1, 0] · transposes_S128x128_S128x128_1_0),
    binary main_v26 main_v29 main_v30 (fun l r => Host.dotGeneral dot_S50000x128_S128x128_S50000x128_1_0_0_1_n_n none l r),
    unary main_arg9 main_v31 (extractStridedSlice S1x128 ![0, 0] · slices_S3x128_S1x128_0_0),
    reshape main_v31 main_v32 rfl shapeCasts_S1x128_S128,
    unary main_v32 main_v33 (broadcastInDim S1x128 ![1] bcast_S128_S1x128_1),
    unary main_v33 main_v34 (broadcastInDim S50000x128 ![0, 1] bcast_S1x128_S50000x128_0_1),
    binary main_v30 main_v34 main_v35 addf,
    unary main_arg12 main_v36 (extractStridedSlice S1x128 ![0, 0] · slices_S3x128_S1x128_0_0),
    reshape main_v36 main_v37 rfl shapeCasts_S1x128_S128,
    unary main_v37 main_v38 (broadcastInDim S1x128 ![1] bcast_S128_S1x128_1),
    unary main_v38 main_v39 (broadcastInDim S50000x128 ![0, 1] bcast_S1x128_S50000x128_0_1),
    binary main_v35 main_v39 main_v40 subf,
    unary main_arg10 main_v41 (extractStridedSlice S1x128 ![0, 0] · slices_S3x128_S1x128_0_0),
    reshape main_v41 main_v42 rfl shapeCasts_S1x128_S128,
    unary main_arg13 main_v43 (extractStridedSlice S1x128 ![0, 0] · slices_S3x128_S1x128_0_0),
    reshape main_v43 main_v44 rfl shapeCasts_S1x128_S128,
    nullary main_cst_1 (constant S_ .f32 0x3727C5AC#32),
    unary main_cst_1 main_v45 (broadcastInDim S128 ![] bcast_S_S128),
    binary main_v44 main_v45 main_v46 addf,
    unary main_v46 main_v47 Host.rsqrt,
    binary main_v42 main_v47 main_v48 mulf,
    unary main_v48 main_v49 (broadcastInDim S1x128 ![1] bcast_S128_S1x128_1),
    unary main_v49 main_v50 (broadcastInDim S50000x128 ![0, 1] bcast_S1x128_S50000x128_0_1),
    binary main_v40 main_v50 main_v51 mulf,
    unary main_arg11 main_v52 (extractStridedSlice S1x128 ![0, 0] · slices_S3x128_S1x128_0_0),
    reshape main_v52 main_v53 rfl shapeCasts_S1x128_S128,
    unary main_v53 main_v54 (broadcastInDim S1x128 ![1] bcast_S128_S1x128_1),
    unary main_v54 main_v55 (broadcastInDim S50000x128 ![0, 1] bcast_S1x128_S50000x128_0_1) ]

abbrev ops2_W : List (Ref sig .tc) := [main_v26, main_v27, main_v28, main_v29, main_v30, main_v31, main_v32, main_v33, main_v34, main_v35, main_v36, main_v37, main_v38, main_v39, main_v40, main_v41, main_v42, main_v43, main_v44, main_cst_1, main_v45, main_v46, main_v47, main_v48, main_v49, main_v50, main_v51, main_v52, main_v53, main_v54, main_v55]

theorem ok2 : Ok (ops2 (F := F)) ops2_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step2 {V W : Valuation τ sig (Elt F)} (h : Inv1 V W) : Inv2 V (after ops2 W) where
  args := h.args.keep ok2
  main_v1 := (ok2.keep (by decide) W).trans h.main_v1
  main_v3 := (ok2.keep (by decide) W).trans h.main_v3
  main_v8 := (ok2.keep (by decide) W).trans h.main_v8
  main_v13 := (ok2.keep (by decide) W).trans h.main_v13
  main_v51 := by
    after_results_simp
    rw [h.args main_arg13 (by decide), h.args main_arg10 (by decide), h.args main_arg12 (by decide), h.args main_arg9 (by decide), h.args main_arg8 (by decide), h.main_v25, h.main_v8]; rfl
  main_v55 := by
    after_results_simp
    rw [h.args main_arg11 (by decide)]; rfl

end Cert.Proof.RefRun

end
-- ==== Proof.Ref.RunC3.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops3 : List (HloOp τ sig (Elt F)) :=
  [ binary main_v51 main_v55 main_v56 addf,
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v56) (TRef.of (T := ⟨S50000x128, .f32⟩) main_call1_v0) (TRef.of (T := ⟨S50000x128, .f32⟩) main_v57) maximumf,
    unary main_arg14 main_v58 (extractStridedSlice S1x128x128 ![0, 0, 0] · slices_S3x128x128_S1x128x128_0_0_0),
    reshape main_v58 main_v59 rfl shapeCasts_S1x128x128_S128x128,
    unary main_v59 main_v60 (transpose S128x128 [1, 0] · transposes_S128x128_S128x128_1_0),
    binary main_v57 main_v60 main_v61 (fun l r => Host.dotGeneral dot_S50000x128_S128x128_S50000x128_1_0_0_1_n_n none l r),
    unary main_arg15 main_v62 (extractStridedSlice S1x128 ![0, 0] · slices_S3x128_S1x128_0_0),
    reshape main_v62 main_v63 rfl shapeCasts_S1x128_S128,
    unary main_v63 main_v64 (broadcastInDim S1x128 ![1] bcast_S128_S1x128_1),
    unary main_v64 main_v65 (broadcastInDim S50000x128 ![0, 1] bcast_S1x128_S50000x128_0_1),
    binary main_v61 main_v65 main_v66 addf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v66) (TRef.of (T := ⟨S50000x128, .f32⟩) main_call2_v0) (TRef.of (T := ⟨S50000x128, .f32⟩) main_v67) maximumf,
    binary main_v67 main_v8 main_v68 addf,
    nullary main_c_2 (constantI S_ 32 0#32),
    unary main_c_2 main_v69 (broadcastInDim S800000 ![] bcast_S_S800000),
    binary main_v1 main_v69 main_v70 (cmpi .slt),
    nullary main_c_3 (constantI S_ 32 50000#32),
    unary main_c_3 main_v71 (broadcastInDim S800000 ![] bcast_S_S800000),
    binary main_v1 main_v71 main_v72 addi,
    ternary main_v70 main_v72 main_v1 main_v73 select,
    unary main_v73 main_v74 (broadcastInDim S800000x1 ![0] bcast_S800000_S800000x1_0),
    binary main_v68 main_v74 main_v75 (fun x i => Host.gather gather_S50000x128_S800000x1_S800000x128_1_0_n_n_0_1_1128 x i),
    binary main_v75 main_v13 main_v76 addf,
    TRef.nullary (TRef.of (T := ⟨S_, .f32⟩) main_call3_cst) (constant S_ .f32 0x00000000#32),
    TRef.unary (TRef.of (T := ⟨S_, .f32⟩) main_call3_cst) (TRef.of (T := ⟨S800000x128, .f32⟩) main_call3_v0) (broadcastInDim S800000x128 ![] bcast_S_S800000x128),
    TRef.binary (TRef.of (T := ⟨S800000x128, .f32⟩) main_v76) (TRef.of (T := ⟨S800000x128, .f32⟩) main_call3_v0) (TRef.of (T := ⟨S800000x128, .f32⟩) main_v77) maximumf,
    nullary main_cst_4 (constant S_ .f32 0x00000000#32),
    unary main_cst_4 main_v78 (broadcastInDim S50000x128 ![] bcast_S_S50000x128),
    unary main_v3 main_v79 (broadcastInDim S800000x1 ![0] bcast_S800000_S800000x1_0),
    ternary main_v78 main_v79 main_v77 main_v80 (fun x i u => Host.scatterAdd scatter_S50000x128_S800000x1_S800000x128_1_0_0_1 x i u) ]

abbrev ops3_W : List (Ref sig .tc) := [main_v56, main_call1_cst, main_call1_v0, main_v57, main_v58, main_v59, main_v60, main_v61, main_v62, main_v63, main_v64, main_v65, main_v66, main_call2_cst, main_call2_v0, main_v67, main_v68, main_c_2, main_v69, main_v70, main_c_3, main_v71, main_v72, main_v73, main_v74, main_v75, main_v76, main_call3_cst, main_call3_v0, main_v77, main_cst_4, main_v78, main_v79, main_v80]

theorem ok3 : Ok (ops3 (F := F)) ops3_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step3 {V W : Valuation τ sig (Elt F)} (h : Inv2 V W) : Inv3 V (after ops3 W) where
  args := h.args.keep ok3
  main_v1 := (ok3.keep (by decide) W).trans h.main_v1
  main_v3 := (ok3.keep (by decide) W).trans h.main_v3
  main_v13 := (ok3.keep (by decide) W).trans h.main_v13
  main_v68 := by
    after_results_simp
    rw [h.main_v8, h.args main_arg15 (by decide), h.args main_arg14 (by decide), h.main_v55, h.main_v51]; rfl
  main_v80 := by
    after_results_simp
    rw [h.main_v13, h.main_v1, h.main_v8, h.args main_arg15 (by decide), h.args main_arg14 (by decide), h.main_v55, h.main_v51, h.main_v3]; rfl

end Cert.Proof.RefRun

end
-- ==== Proof.Ref.RunC4.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops4 : List (HloOp τ sig (Elt F)) :=
  [ binary main_v68 main_v80 main_v81 addf,
    unary main_arg8 main_v82 (extractStridedSlice S1x128x128 ![1, 0, 0] · slices_S3x128x128_S1x128x128_1_0_0),
    reshape main_v82 main_v83 rfl shapeCasts_S1x128x128_S128x128,
    unary main_v83 main_v84 (transpose S128x128 [1, 0] · transposes_S128x128_S128x128_1_0),
    binary main_v81 main_v84 main_v85 (fun l r => Host.dotGeneral dot_S50000x128_S128x128_S50000x128_1_0_0_1_n_n none l r),
    unary main_arg9 main_v86 (extractStridedSlice S1x128 ![1, 0] · slices_S3x128_S1x128_1_0),
    reshape main_v86 main_v87 rfl shapeCasts_S1x128_S128,
    unary main_v87 main_v88 (broadcastInDim S1x128 ![1] bcast_S128_S1x128_1),
    unary main_v88 main_v89 (broadcastInDim S50000x128 ![0, 1] bcast_S1x128_S50000x128_0_1),
    binary main_v85 main_v89 main_v90 addf,
    unary main_arg12 main_v91 (extractStridedSlice S1x128 ![1, 0] · slices_S3x128_S1x128_1_0),
    reshape main_v91 main_v92 rfl shapeCasts_S1x128_S128,
    unary main_v92 main_v93 (broadcastInDim S1x128 ![1] bcast_S128_S1x128_1),
    unary main_v93 main_v94 (broadcastInDim S50000x128 ![0, 1] bcast_S1x128_S50000x128_0_1),
    binary main_v90 main_v94 main_v95 subf,
    unary main_arg10 main_v96 (extractStridedSlice S1x128 ![1, 0] · slices_S3x128_S1x128_1_0),
    reshape main_v96 main_v97 rfl shapeCasts_S1x128_S128,
    unary main_arg13 main_v98 (extractStridedSlice S1x128 ![1, 0] · slices_S3x128_S1x128_1_0),
    reshape main_v98 main_v99 rfl shapeCasts_S1x128_S128,
    nullary main_cst_5 (constant S_ .f32 0x3727C5AC#32),
    unary main_cst_5 main_v100 (broadcastInDim S128 ![] bcast_S_S128),
    binary main_v99 main_v100 main_v101 addf,
    unary main_v101 main_v102 Host.rsqrt,
    binary main_v97 main_v102 main_v103 mulf,
    unary main_v103 main_v104 (broadcastInDim S1x128 ![1] bcast_S128_S1x128_1),
    unary main_v104 main_v105 (broadcastInDim S50000x128 ![0, 1] bcast_S1x128_S50000x128_0_1),
    binary main_v95 main_v105 main_v106 mulf,
    unary main_arg11 main_v107 (extractStridedSlice S1x128 ![1, 0] · slices_S3x128_S1x128_1_0),
    reshape main_v107 main_v108 rfl shapeCasts_S1x128_S128,
    unary main_v108 main_v109 (broadcastInDim S1x128 ![1] bcast_S128_S1x128_1),
    unary main_v109 main_v110 (broadcastInDim S50000x128 ![0, 1] bcast_S1x128_S50000x128_0_1),
    binary main_v106 main_v110 main_v111 addf ]

abbrev ops4_W : List (Ref sig .tc) := [main_v81, main_v82, main_v83, main_v84, main_v85, main_v86, main_v87, main_v88, main_v89, main_v90, main_v91, main_v92, main_v93, main_v94, main_v95, main_v96, main_v97, main_v98, main_v99, main_cst_5, main_v100, main_v101, main_v102, main_v103, main_v104, main_v105, main_v106, main_v107, main_v108, main_v109, main_v110, main_v111]

theorem ok4 : Ok (ops4 (F := F)) ops4_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step4 {V W : Valuation τ sig (Elt F)} (h : Inv3 V W) : Inv4 V (after ops4 W) where
  args := h.args.keep ok4
  main_v1 := (ok4.keep (by decide) W).trans h.main_v1
  main_v3 := (ok4.keep (by decide) W).trans h.main_v3
  main_v13 := (ok4.keep (by decide) W).trans h.main_v13
  main_v68 := (ok4.keep (by decide) W).trans h.main_v68
  main_v111 := by
    after_results_simp
    rw [h.args main_arg11 (by decide), h.args main_arg13 (by decide), h.args main_arg10 (by decide), h.args main_arg12 (by decide), h.args main_arg9 (by decide), h.args main_arg8 (by decide), h.main_v80, h.main_v68]; rfl

end Cert.Proof.RefRun

end
-- ==== Proof.Ref.RunC5.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops5 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v111) (TRef.of (T := ⟨S50000x128, .f32⟩) main_call4_v0) (TRef.of (T := ⟨S50000x128, .f32⟩) main_v112) maximumf,
    unary main_arg14 main_v113 (extractStridedSlice S1x128x128 ![1, 0, 0] · slices_S3x128x128_S1x128x128_1_0_0),
    reshape main_v113 main_v114 rfl shapeCasts_S1x128x128_S128x128,
    unary main_v114 main_v115 (transpose S128x128 [1, 0] · transposes_S128x128_S128x128_1_0),
    binary main_v112 main_v115 main_v116 (fun l r => Host.dotGeneral dot_S50000x128_S128x128_S50000x128_1_0_0_1_n_n none l r),
    unary main_arg15 main_v117 (extractStridedSlice S1x128 ![1, 0] · slices_S3x128_S1x128_1_0),
    reshape main_v117 main_v118 rfl shapeCasts_S1x128_S128,
    unary main_v118 main_v119 (broadcastInDim S1x128 ![1] bcast_S128_S1x128_1),
    unary main_v119 main_v120 (broadcastInDim S50000x128 ![0, 1] bcast_S1x128_S50000x128_0_1),
    binary main_v116 main_v120 main_v121 addf,
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v121) (TRef.of (T := ⟨S50000x128, .f32⟩) main_call5_v0) (TRef.of (T := ⟨S50000x128, .f32⟩) main_v122) maximumf,
    binary main_v122 main_v68 main_v123 addf,
    nullary main_c_6 (constantI S_ 32 0#32),
    unary main_c_6 main_v124 (broadcastInDim S800000 ![] bcast_S_S800000),
    binary main_v1 main_v124 main_v125 (cmpi .slt),
    nullary main_c_7 (constantI S_ 32 50000#32),
    unary main_c_7 main_v126 (broadcastInDim S800000 ![] bcast_S_S800000),
    binary main_v1 main_v126 main_v127 addi,
    ternary main_v125 main_v127 main_v1 main_v128 select,
    unary main_v128 main_v129 (broadcastInDim S800000x1 ![0] bcast_S800000_S800000x1_0),
    binary main_v123 main_v129 main_v130 (fun x i => Host.gather gather_S50000x128_S800000x1_S800000x128_1_0_n_n_0_1_1128 x i),
    binary main_v130 main_v13 main_v131 addf,
    TRef.nullary (TRef.of (T := ⟨S_, .f32⟩) main_call6_cst) (constant S_ .f32 0x00000000#32),
    TRef.unary (TRef.of (T := ⟨S_, .f32⟩) main_call6_cst) (TRef.of (T := ⟨S800000x128, .f32⟩) main_call6_v0) (broadcastInDim S800000x128 ![] bcast_S_S800000x128),
    TRef.binary (TRef.of (T := ⟨S800000x128, .f32⟩) main_v131) (TRef.of (T := ⟨S800000x128, .f32⟩) main_call6_v0) (TRef.of (T := ⟨S800000x128, .f32⟩) main_v132) maximumf,
    nullary main_cst_8 (constant S_ .f32 0x00000000#32),
    unary main_cst_8 main_v133 (broadcastInDim S50000x128 ![] bcast_S_S50000x128),
    unary main_v3 main_v134 (broadcastInDim S800000x1 ![0] bcast_S800000_S800000x1_0),
    ternary main_v133 main_v134 main_v132 main_v135 (fun x i u => Host.scatterAdd scatter_S50000x128_S800000x1_S800000x128_1_0_0_1 x i u) ]

abbrev ops5_W : List (Ref sig .tc) := [main_call4_cst, main_call4_v0, main_v112, main_v113, main_v114, main_v115, main_v116, main_v117, main_v118, main_v119, main_v120, main_v121, main_call5_cst, main_call5_v0, main_v122, main_v123, main_c_6, main_v124, main_v125, main_c_7, main_v126, main_v127, main_v128, main_v129, main_v130, main_v131, main_call6_cst, main_call6_v0, main_v132, main_cst_8, main_v133, main_v134, main_v135]

theorem ok5 : Ok (ops5 (F := F)) ops5_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step5 {V W : Valuation τ sig (Elt F)} (h : Inv4 V W) : Inv5 V (after ops5 W) where
  args := h.args.keep ok5
  main_v123 := by
    after_results_simp
    rw [h.main_v68, h.args main_arg15 (by decide), h.args main_arg14 (by decide), h.main_v111]; rfl
  main_v135 := by
    after_results_simp
    rw [h.main_v13, h.main_v1, h.main_v68, h.args main_arg15 (by decide), h.args main_arg14 (by decide), h.main_v111, h.main_v3]; rfl

end Cert.Proof.RefRun

end
-- ==== Proof.Ref.RunC6.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops6 : List (HloOp τ sig (Elt F)) :=
  [ binary main_v123 main_v135 main_v136 addf,
    unary main_arg8 main_v137 (extractStridedSlice S1x128x128 ![2, 0, 0] · slices_S3x128x128_S1x128x128_2_0_0),
    reshape main_v137 main_v138 rfl shapeCasts_S1x128x128_S128x128,
    unary main_v138 main_v139 (transpose S128x128 [1, 0] · transposes_S128x128_S128x128_1_0),
    binary main_v136 main_v139 main_v140 (fun l r => Host.dotGeneral dot_S50000x128_S128x128_S50000x128_1_0_0_1_n_n none l r),
    unary main_arg9 main_v141 (extractStridedSlice S1x128 ![2, 0] · slices_S3x128_S1x128_2_0),
    reshape main_v141 main_v142 rfl shapeCasts_S1x128_S128,
    unary main_v142 main_v143 (broadcastInDim S1x128 ![1] bcast_S128_S1x128_1),
    unary main_v143 main_v144 (broadcastInDim S50000x128 ![0, 1] bcast_S1x128_S50000x128_0_1),
    binary main_v140 main_v144 main_v145 addf,
    unary main_arg12 main_v146 (extractStridedSlice S1x128 ![2, 0] · slices_S3x128_S1x128_2_0),
    reshape main_v146 main_v147 rfl shapeCasts_S1x128_S128,
    unary main_v147 main_v148 (broadcastInDim S1x128 ![1] bcast_S128_S1x128_1),
    unary main_v148 main_v149 (broadcastInDim S50000x128 ![0, 1] bcast_S1x128_S50000x128_0_1),
    binary main_v145 main_v149 main_v150 subf,
    unary main_arg10 main_v151 (extractStridedSlice S1x128 ![2, 0] · slices_S3x128_S1x128_2_0),
    reshape main_v151 main_v152 rfl shapeCasts_S1x128_S128,
    unary main_arg13 main_v153 (extractStridedSlice S1x128 ![2, 0] · slices_S3x128_S1x128_2_0),
    reshape main_v153 main_v154 rfl shapeCasts_S1x128_S128,
    nullary main_cst_9 (constant S_ .f32 0x3727C5AC#32),
    unary main_cst_9 main_v155 (broadcastInDim S128 ![] bcast_S_S128),
    binary main_v154 main_v155 main_v156 addf,
    unary main_v156 main_v157 Host.rsqrt,
    binary main_v152 main_v157 main_v158 mulf,
    unary main_v158 main_v159 (broadcastInDim S1x128 ![1] bcast_S128_S1x128_1),
    unary main_v159 main_v160 (broadcastInDim S50000x128 ![0, 1] bcast_S1x128_S50000x128_0_1),
    binary main_v150 main_v160 main_v161 mulf,
    unary main_arg11 main_v162 (extractStridedSlice S1x128 ![2, 0] · slices_S3x128_S1x128_2_0),
    reshape main_v162 main_v163 rfl shapeCasts_S1x128_S128,
    unary main_v163 main_v164 (broadcastInDim S1x128 ![1] bcast_S128_S1x128_1),
    unary main_v164 main_v165 (broadcastInDim S50000x128 ![0, 1] bcast_S1x128_S50000x128_0_1),
    binary main_v161 main_v165 main_v166 addf,
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v166) (TRef.of (T := ⟨S50000x128, .f32⟩) main_call7_v0) (TRef.of (T := ⟨S50000x128, .f32⟩) main_v167) maximumf ]

abbrev ops6_W : List (Ref sig .tc) := [main_v136, main_v137, main_v138, main_v139, main_v140, main_v141, main_v142, main_v143, main_v144, main_v145, main_v146, main_v147, main_v148, main_v149, main_v150, main_v151, main_v152, main_v153, main_v154, main_cst_9, main_v155, main_v156, main_v157, main_v158, main_v159, main_v160, main_v161, main_v162, main_v163, main_v164, main_v165, main_v166, main_call7_cst, main_call7_v0, main_v167]

theorem ok6 : Ok (ops6 (F := F)) ops6_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step6 {V W : Valuation τ sig (Elt F)} (h : Inv5 V W) : Inv6 V (after ops6 W) where
  args := h.args.keep ok6
  main_v123 := (ok6.keep (by decide) W).trans h.main_v123
  main_v167 := by
    after_results_simp
    rw [h.args main_arg11 (by decide), h.args main_arg13 (by decide), h.args main_arg10 (by decide), h.args main_arg12 (by decide), h.args main_arg9 (by decide), h.args main_arg8 (by decide), h.main_v135, h.main_v123]; rfl

end Cert.Proof.RefRun

end
-- ==== Proof.Ref.RunC7.lean ====
import proofs.«428859_j12661563588730_1_alg».proof.Proof.Ref.RunInv

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops7 : List (HloOp τ sig (Elt F)) :=
  [ unary main_arg14 main_v168 (extractStridedSlice S1x128x128 ![2, 0, 0] · slices_S3x128x128_S1x128x128_2_0_0),
    reshape main_v168 main_v169 rfl shapeCasts_S1x128x128_S128x128,
    unary main_v169 main_v170 (transpose S128x128 [1, 0] · transposes_S128x128_S128x128_1_0),
    binary main_v167 main_v170 main_v171 (fun l r => Host.dotGeneral dot_S50000x128_S128x128_S50000x128_1_0_0_1_n_n none l r),
    unary main_arg15 main_v172 (extractStridedSlice S1x128 ![2, 0] · slices_S3x128_S1x128_2_0),
    reshape main_v172 main_v173 rfl shapeCasts_S1x128_S128,
    unary main_v173 main_v174 (broadcastInDim S1x128 ![1] bcast_S128_S1x128_1),
    unary main_v174 main_v175 (broadcastInDim S50000x128 ![0, 1] bcast_S1x128_S50000x128_0_1),
    binary main_v171 main_v175 main_v176 addf,
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v176) (TRef.of (T := ⟨S50000x128, .f32⟩) main_call8_v0) (TRef.of (T := ⟨S50000x128, .f32⟩) main_v177) maximumf,
    binary main_v177 main_v123 main_v178 addf,
    nullary main_cst_10 (constant S_ .f32 0x3F800000#32),
    unary main_cst_10 main_v179 (broadcastInDim S50000 ![] bcast_S_S50000),
    nullary main_cst_11 (constant S_ .f32 0x00000000#32),
    unary main_cst_11 main_v180 (broadcastInDim S64 ![] bcast_S_S64),
    unary main_arg3 main_v181 (broadcastInDim S50000x1 ![0] bcast_S50000_S50000x1_0),
    ternary main_v180 main_v181 main_v179 main_v182 (fun x i u => Host.scatterAdd scatter_S64_S50000x1_S50000_n_0_0_1 x i u),
    nullary main_cst_12 (constant S_ .f32 0x00000000#32),
    unary main_cst_12 main_v183 (broadcastInDim S64x128 ![] bcast_S_S64x128),
    unary main_arg3 main_v184 (broadcastInDim S50000x1 ![0] bcast_S50000_S50000x1_0),
    ternary main_v183 main_v184 main_v178 main_v185 (fun x i u => Host.scatterAdd scatter_S64x128_S50000x1_S50000x128_1_0_0_1 x i u),
    nullary main_cst_13 (constant S_ .f32 0x3F800000#32),
    unary main_cst_13 main_v186 (broadcastInDim S64 ![] bcast_S_S64),
    binary main_v182 main_v186 main_v187 maximumf,
    unary main_v187 main_v188 (broadcastInDim S64x1 ![0] bcast_S64_S64x1_0),
    unary main_v188 main_v189 (broadcastInDim S64x128 ![0, 1] bcast_S64x1_S64x128_0_1),
    binary main_v185 main_v189 main_v190 Host.divf,
    unary main_arg16 main_v191 (transpose S128x128 [1, 0] · transposes_S128x128_S128x128_1_0),
    binary main_v190 main_v191 main_v192 (fun l r => Host.dotGeneral dot_S64x128_S128x128_S64x128_1_0_0_1_n_n none l r),
    unary main_arg17 main_v193 (broadcastInDim S1x128 ![1] bcast_S128_S1x128_1),
    unary main_v193 main_v194 (broadcastInDim S64x128 ![0, 1] bcast_S1x128_S64x128_0_1),
    binary main_v192 main_v194 main_v195 addf ]

abbrev ops7_W : List (Ref sig .tc) := [main_v168, main_v169, main_v170, main_v171, main_v172, main_v173, main_v174, main_v175, main_v176, main_call8_cst, main_call8_v0, main_v177, main_v178, main_cst_10, main_v179, main_cst_11, main_v180, main_v181, main_v182, main_cst_12, main_v183, main_v184, main_v185, main_cst_13, main_v186, main_v187, main_v188, main_v189, main_v190, main_v191, main_v192, main_v193, main_v194, main_v195]

theorem ok7 : Ok (ops7 (F := F)) ops7_W where
  sub := by simp only [List.Forall, nullary_bufs_sub, unary_bufs_sub, binary_bufs_sub, ternary_bufs_sub, reshape_bufs_sub, and_self]
  fresh := by repeat' constructor
  writes := by
    repeat' constructor
    all_goals exact wr_of_mem (by decide)
  args := by decide

theorem step7 {V W : Valuation τ sig (Elt F)} (h : Inv6 V W) : Inv7 V (after ops7 W) where
  args := h.args.keep ok7
  main_v195 := by
    after_results_simp
    rw [h.args main_arg17 (by decide), h.args main_arg16 (by decide), h.args main_arg3 (by decide), h.main_v123, h.args main_arg15 (by decide), h.args main_arg14 (by decide), h.main_v167]; rfl

end Cert.Proof.RefRun

end
-- ==== Proof.Ref.Run.lean ====
import proofs.«428859_j12661563588730_1_alg».proof.Proof.Ref.RunC1
import proofs.«428859_j12661563588730_1_alg».proof.Proof.Ref.RunC2
import proofs.«428859_j12661563588730_1_alg».proof.Proof.Ref.RunC3
import proofs.«428859_j12661563588730_1_alg».proof.Proof.Ref.RunC4
import proofs.«428859_j12661563588730_1_alg».proof.Proof.Ref.RunC5
import proofs.«428859_j12661563588730_1_alg».proof.Proof.Ref.RunC6
import proofs.«428859_j12661563588730_1_alg».proof.Proof.Ref.RunC7
import Idealize.ShloMosaic.Lib.Pipeline.Regions

noncomputable section

namespace Cert.Proof.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev ops : List (HloOp τ sig (Elt F)) := ops1 ++ (ops2 ++ (ops3 ++ (ops4 ++ (ops5 ++ (ops6 ++ ops7)))))

theorem main_part0_eq (c : Dev nD) : main_part0 (F := F) c = (seq ops1 >>= fun _ => seq ops2) := by chain_rfl
theorem main_part1_eq (c : Dev nD) : main_part1 (F := F) c = (seq ops3 >>= fun _ => seq ops4) := by chain_rfl
theorem main_part2_eq (c : Dev nD) : main_part2 (F := F) c = (seq ops5 >>= fun _ => seq ops6) := by chain_rfl
theorem main_part3_eq (c : Dev nD) : main_part3 (F := F) c = seq ops7 := by chain_rfl

/-- @main is the 230 operations in a row. -/
theorem main_eq (c : Dev nD) : main (F := F) c = seq ops := by
  unfold main
  rw [main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig := by
  simp only [ops, List.forall_append]
  exact ⟨ok1.sub, ok2.sub, ok3.sub, ok4.sub, ok5.sub, ok6.sub, ok7.sub⟩

theorem ops_fresh : ∀ op ∈ ops (F := F), op.fresh = ∅ := by
  simp only [ops, ← List.forall_iff_forall_mem, List.forall_append]
  exact ⟨ok1.fresh, ok2.fresh, ok3.fresh, ok4.fresh, ok5.fresh, ok6.fresh, ok7.fresh⟩

/-- The fold over all the operations is the fold over the stretches in turn, each carrying the invariant on. -/
theorem inv_ops (V : Valuation τ sig (Elt F)) : Inv7 V (after ops V) := by
  simp only [ops, after_append]
  exact step7 (step6 (step5 (step4 (step3 (step2 (step1 fun _ _ => rfl))))))

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v195) = val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => by
      have inv := inv_ops (launchContents m c)
      refine ⟨(h c _).trans inv.main_v195, ?_⟩
      repeat' constructor
      all_goals exact (h c _).trans (inv.args _ (by decide)))
    (run_seq scopedRefs_eq scopedSems_eq defs main (fun _ => ops) main_eq (fun _ => ops_sub) m ρ (fun _ => ops_fresh))

end Cert.Proof.RefRun

end
-- ==== Proof.Val.AlgArgs.lean ====
import proofs.«428859_j12661563588730_1_alg».proof.KernelIdeal
import proofs.«428859_j12661563588730_1_alg».proof.ReferenceIdeal
import Idealize.ShloMosaic.PureOps.Ideal

noncomputable section

namespace Cert.Proof.Alg

open Idealize.ShloMosaic Idealize.ShloMosaic.TcCoe Idealize.SL.Sem
open Cert.KernelIdeal (nD τ sig)

variable (m : (ℓ : Loc nD τ sig) → Buf (Elt Ideal) ℓ) (c : Dev nD)

abbrev a0 : (⟨Cert.ReferenceIdeal.S50000x11, .f32⟩ : BufTy).Contents (Elt Ideal) := m ((c.tc : Thread nD τ).loc Cert.KernelIdeal.main_arg0)
abbrev a1 : (⟨Cert.ReferenceIdeal.S2x800000, .i32⟩ : BufTy).Contents (Elt Ideal) := m ((c.tc : Thread nD τ).loc Cert.KernelIdeal.main_arg1)
abbrev a2 : (⟨Cert.ReferenceIdeal.S800000x14, .f32⟩ : BufTy).Contents (Elt Ideal) := m ((c.tc : Thread nD τ).loc Cert.KernelIdeal.main_arg2)
abbrev a3 : (⟨Cert.ReferenceIdeal.S50000, .i32⟩ : BufTy).Contents (Elt Ideal) := m ((c.tc : Thread nD τ).loc Cert.KernelIdeal.main_arg3)
abbrev a4 : (⟨Cert.ReferenceIdeal.S128x11, .f32⟩ : BufTy).Contents (Elt Ideal) := m ((c.tc : Thread nD τ).loc Cert.KernelIdeal.main_arg4)
abbrev a5 : (⟨Cert.ReferenceIdeal.S128, .f32⟩ : BufTy).Contents (Elt Ideal) := m ((c.tc : Thread nD τ).loc Cert.KernelIdeal.main_arg5)
abbrev a6 : (⟨Cert.ReferenceIdeal.S128x14, .f32⟩ : BufTy).Contents (Elt Ideal) := m ((c.tc : Thread nD τ).loc Cert.KernelIdeal.main_arg6)
abbrev a7 : (⟨Cert.ReferenceIdeal.S128, .f32⟩ : BufTy).Contents (Elt Ideal) := m ((c.tc : Thread nD τ).loc Cert.KernelIdeal.main_arg7)
abbrev a8 : (⟨Cert.ReferenceIdeal.S3x128x128, .f32⟩ : BufTy).Contents (Elt Ideal) := m ((c.tc : Thread nD τ).loc Cert.KernelIdeal.main_arg8)
abbrev a9 : (⟨Cert.ReferenceIdeal.S3x128, .f32⟩ : BufTy).Contents (Elt Ideal) := m ((c.tc : Thread nD τ).loc Cert.KernelIdeal.main_arg9)
abbrev a10 : (⟨Cert.ReferenceIdeal.S3x128, .f32⟩ : BufTy).Contents (Elt Ideal) := m ((c.tc : Thread nD τ).loc Cert.KernelIdeal.main_arg10)
abbrev a11 : (⟨Cert.ReferenceIdeal.S3x128, .f32⟩ : BufTy).Contents (Elt Ideal) := m ((c.tc : Thread nD τ).loc Cert.KernelIdeal.main_arg11)
abbrev a12 : (⟨Cert.ReferenceIdeal.S3x128, .f32⟩ : BufTy).Contents (Elt Ideal) := m ((c.tc : Thread nD τ).loc Cert.KernelIdeal.main_arg12)
abbrev a13 : (⟨Cert.ReferenceIdeal.S3x128, .f32⟩ : BufTy).Contents (Elt Ideal) := m ((c.tc : Thread nD τ).loc Cert.KernelIdeal.main_arg13)
abbrev a14 : (⟨Cert.ReferenceIdeal.S3x128x128, .f32⟩ : BufTy).Contents (Elt Ideal) := m ((c.tc : Thread nD τ).loc Cert.KernelIdeal.main_arg14)
abbrev a15 : (⟨Cert.ReferenceIdeal.S3x128, .f32⟩ : BufTy).Contents (Elt Ideal) := m ((c.tc : Thread nD τ).loc Cert.KernelIdeal.main_arg15)
abbrev a16 : (⟨Cert.ReferenceIdeal.S128x128, .f32⟩ : BufTy).Contents (Elt Ideal) := m ((c.tc : Thread nD τ).loc Cert.KernelIdeal.main_arg16)
abbrev a17 : (⟨Cert.ReferenceIdeal.S128, .f32⟩ : BufTy).Contents (Elt Ideal) := m ((c.tc : Thread nD τ).loc Cert.KernelIdeal.main_arg17)

end Cert.Proof.Alg

end
-- ==== Proof.Val.AlgBase.lean ====
import proofs.«428859_j12661563588730_1_alg».proof.Proof.Gen.KernelIdeal
import Idealize.ShloMosaic.Lib.StableHlo.Run
import Idealize.ShloMosaic.Lib.ValueLayout
import Idealize.ShloMosaic.PureOps.Ideal

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen

theorem update_other (W : Valuation τ sig (Elt Ideal)) (r s : Ref sig .tc) (h : s ≠ r)
    (v : (Proc.devRef (τ := τ) .tc r).ty.Contents (Elt Ideal)) :
    Function.update W (Proc.devRef .tc r) v (Proc.devRef .tc s) = W (Proc.devRef .tc s) :=
  Function.update_of_ne (StableHlo.devRef_ne_of_ne h) v W

-- A line of operations followed by one write keeps every reference neither of them touches.
theorem step_other (W : Valuation τ sig (Elt Ideal)) (ops : List (HloOp τ sig (Elt Ideal))) {Wl : List (Ref sig .tc)}
    (hw : ops.Forall fun op => op.writes ⊆ (Wl.map (Proc.devRef (τ := τ) .tc)).toFinset) (r0 r : Ref sig .tc)
    (h : r ∉ Wl ∧ r ≠ r0) (v : (Proc.devRef (τ := τ) .tc r0).ty.Contents (Elt Ideal)) :
    Function.update (StableHlo.after ops W) (Proc.devRef .tc r0) v (Proc.devRef .tc r) = W (Proc.devRef .tc r) :=
  (update_other _ r0 r h.2 v).trans (StableHlo.after_of_writes_sub ops W hw h.1)

-- A vector reshaped to a single row, read at column k, is the vector at k.
theorem row_of_cast {X : S1x128.Idx → EReal} {v : S128.Idx → EReal} (sc) (h : X = shapeCast S1x128 v sc) (k : Fin 128) :
    X (ix2 (0 : Fin 1) k) = v (ix1 k) := h ▸ shapeCast_a_1a_apply v sc 0 k

def gatherRows (h : (⟨S50000x128, .f32⟩ : BufTy).Contents (Elt Ideal)) (s : (⟨S800000, .i32⟩ : BufTy).Contents (Elt Ideal)) :
    (⟨S800000x128, .f32⟩ : BufTy).Contents (Elt Ideal) :=
  Host.gather gather_S50000x128_S800000x1_S800000x128_1_0_n_n_0_1_1128 h
    (broadcastInDim S800000x1 ![0] bcast_S800000_S800000x1_0
      (select (cmpi .slt s (broadcastInDim S800000 ![] bcast_S_S800000 (constantI S_ 32 0#32)))
        (addi s (broadcastInDim S800000 ![] bcast_S_S800000 (constantI S_ 32 50000#32))) s))

def scatterRows (u : (⟨S800000x128, .f32⟩ : BufTy).Contents (Elt Ideal)) (t : (⟨S800000, .i32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 t) u

end Cert.Proof.Alg

end
-- ==== Proof.Val.AlgHost0.lean ====
import proofs.«428859_j12661563588730_1_alg».proof.Proof.Gen.KernelIdeal.Launch
import proofs.«428859_j12661563588730_1_alg».proof.Proof.RefRead
import proofs.«428859_j12661563588730_1_alg».proof.Proof.Val.AlgBase

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.ReferenceIdeal.Read

variable (W : Valuation τ sig (Elt Ideal))

-- The first stretch splits the edge list into its two rows, transposes the two embeddings' weights, and lays the two biases out as rows.
theorem host0_v1 : StableHlo.after hostOps0 W main_v1 = val_main_v1 (F := Ideal) (W main_arg1) := by
  after_results; rfl
theorem host0_v3 : StableHlo.after hostOps0 W main_v3 = val_main_v3 (F := Ideal) (W main_arg1) := by
  after_results; rfl
theorem host0_v4 : StableHlo.after hostOps0 W main_v4 = val_main_v4 (F := Ideal) (W main_arg4) := by
  after_results; rfl
theorem host0_v5 : StableHlo.after hostOps0 W main_v5 = val_main_v9 (F := Ideal) (W main_arg6) := by
  after_results; rfl
theorem host0_v6 (j : Fin 128) : StableHlo.after hostOps0 W main_v6 (ix2 (0 : Fin 1) j) = W main_arg5 (ix1 j) :=
  row_of_cast shapeCasts_S128_S1x128 (by after_results; rfl) j
theorem host0_v7 (j : Fin 128) : StableHlo.after hostOps0 W main_v7 (ix2 (0 : Fin 1) j) = W main_arg7 (ix1 j) :=
  row_of_cast shapeCasts_S128_S1x128 (by after_results; rfl) j

end Cert.Proof.Alg

end
-- ==== Proof.Val.EmbedPay0.lean ====
import proofs.«428859_j12661563588730_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Proof.EmbedValue

open Cert.KernelIdeal Cert.KernelIdeal.Gen
open Idealize.ShloMosaic Idealize.ShloMosaic.ValueIdx

variable {R M K N : Nat}

-- A rows-by-columns product into the zero accumulator, at (p, q): the sum over the contracted axis.
theorem matmul_plain_apply (D : DotDims ⟨2, ![M, K]⟩ ⟨2, ![K, N]⟩ ⟨2, ![M, N]⟩) (hD : D = DotDims.plain M K N)
    (a : FVec Ideal ⟨2, ![M, K]⟩ .bf16) (b : FVec Ideal ⟨2, ![K, N]⟩ .bf16) (p : Fin M) (q : Fin N) :
    (matmul D none a b (constant (F := Ideal) ⟨2, ![M, N]⟩ .f32 0x00000000#32) : FVec Ideal ⟨2, ![M, N]⟩ .f32) (ix2 p q)
      = ∑ k : Fin K, a (ix2 p k) * b (ix2 k q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    Shape.idx_ext₂ rfl hk
  have er : (DotDims.plain M K N).rhsIdx (ix2 p q) ((contrEquiv1 (DotDims.plain M K N) K rfl rfl).symm k) = ix2 k q :=
    Shape.idx_ext₂ hk rfl
  rw [el, er]

-- A one-row block laid down M rows, at (p, q): the row's entry q.
theorem bias_apply (h : S1x128.Broadcasts ⟨2, ![M, 128]⟩) (x : Vec Ideal S1x128 .f32) (p : Fin M) (q : Fin 128) :
    (broadcastTo ⟨2, ![M, 128]⟩ x h : FVec Ideal ⟨2, ![M, 128]⟩ .f32) (ix2 p q) = x (ix2 (0 : Fin 1) q) :=
  broadcastTo_apply x h (ix2 p q) (ix2 (0 : Fin 1) q) (fun a => by
    match a with
    | ⟨0, _⟩ => show 0 = if (1 : Nat) = 1 then 0 else _; rw [if_pos rfl]
    | ⟨1, _⟩ => show q.val = if (128 : Nat) = 1 then 0 else q.val; rw [if_neg (by decide)])

-- Features times weights plus bias, entry by entry.
def G (X : (⟨2, ![R, K]⟩ : Shape).Idx → Elt Ideal .f32) (W : (⟨2, ![K, 128]⟩ : Shape).Idx → Elt Ideal .f32) (B : S1x128.Idx → Elt Ideal .f32) :
    (⟨2, ![R, 128]⟩ : Shape).Idx → Elt Ideal .f32 := fun i =>
  (∑ k : Fin K, X (ix2 (i 0) k) * W (ix2 k (i 1))) + B (ix2 (0 : Fin 1) (i 1))

-- The same sum over any indices that name row i₀ of X, column i₁ of W and entry i₁ of a bias vector the row B holds.
theorem G_sum {X : (⟨2, ![R, K]⟩ : Shape).Idx → Elt Ideal .f32} {W : (⟨2, ![K, 128]⟩ : Shape).Idx → Elt Ideal .f32} {B : S1x128.Idx → Elt Ideal .f32}
    {b : (⟨1, ![128]⟩ : Shape).Idx → Elt Ideal .f32} (hB : ∀ j : Fin 128, B (ix2 (0 : Fin 1) j) = b (ix1 j)) (i : (⟨2, ![R, 128]⟩ : Shape).Idx)
    {l : Fin K → (⟨2, ![R, K]⟩ : Shape).Idx} {r : Fin K → (⟨2, ![K, 128]⟩ : Shape).Idx} {j : (⟨1, ![128]⟩ : Shape).Idx}
    (hl : ∀ k, l k = ix2 (i 0) k) (hr : ∀ k, r k = ix2 k (i 1)) (hj : j = ix1 (i 1)) :
    G X W B i = (∑ k : Fin K, X (l k) * W (r k)) + b j := by
  subst hj
  simp only [hl, hr]
  exact congrArg (HAdd.hAdd _) (hB (i 1))

-- A block computed from blocks that are the arrays' entries at row-block n is the embedding's block there.
theorem blk_eq_G (X : (⟨2, ![R, K]⟩ : Shape).Idx → Elt Ideal .f32) (W : (⟨2, ![K, 128]⟩ : Shape).Idx → Elt Ideal .f32) (B : S1x128.Idx → Elt Ideal .f32)
    {x0 : (⟨2, ![M, K]⟩ : Shape).Idx → Elt Ideal .f32} {x1 : (⟨2, ![K, 128]⟩ : Shape).Idx → Elt Ideal .f32} {x2 : S1x128.Idx → Elt Ideal .f32}
    {f : (⟨2, ![M, 128]⟩ : Shape).Idx → Elt Ideal .f32}
    (hf : ∀ p q, f (ix2 p q) = (∑ k : Fin K, x0 (ix2 p k) * x1 (ix2 k q)) + x2 (ix2 (0 : Fin 1) q))
    {e0 : (⟨2, ![M, K]⟩ : Shape).Idx → (⟨2, ![R, K]⟩ : Shape).Idx} {e1 : (⟨2, ![K, 128]⟩ : Shape).Idx → (⟨2, ![K, 128]⟩ : Shape).Idx}
    {e2 : S1x128.Idx → S1x128.Idx} {e3 : (⟨2, ![M, 128]⟩ : Shape).Idx → (⟨2, ![R, 128]⟩ : Shape).Idx}
    (h0 : ∀ y, x0 y = X (e0 y)) (h1 : ∀ y, x1 y = W (e1 y)) (h2 : ∀ y, x2 y = B (e2 y))
    {i0 i1 i2 i3 : Fin 2 → Nat} {n : Nat}
    (he0 : ∀ y a, ((e0 y a : Fin _) : Nat) = i0 a * (![M, K] a) + (y a).val)
    (he1 : ∀ y a, ((e1 y a : Fin _) : Nat) = i1 a * (![K, 128] a) + (y a).val)
    (he2 : ∀ y a, ((e2 y a : Fin _) : Nat) = i2 a * (![1, 128] a) + (y a).val)
    (he3 : ∀ y a, ((e3 y a : Fin _) : Nat) = i3 a * (![M, 128] a) + (y a).val)
    (hi : i0 0 = n ∧ i0 1 = 0 ∧ i1 0 = 0 ∧ i1 1 = 0 ∧ i2 0 = 0 ∧ i2 1 = 0 ∧ i3 0 = n ∧ i3 1 = 0) :
    f = fun j => G X W B (e3 j) := by
  obtain ⟨a0, a1, b0, b1, c0, c1, d0, d1⟩ := hi
  funext j
  obtain ⟨p, q, rfl⟩ : ∃ p q, j = ix2 p q := ⟨j 0, j 1, eq_ix2 j⟩
  have s0 : (e3 (ix2 p q) 0 : Nat) = i3 0 * M + p.val := he3 _ 0
  have s1 : (e3 (ix2 p q) 1 : Nat) = i3 1 * 128 + q.val := he3 _ 1
  have r0 : ∀ k, e0 (ix2 p k) = ix2 (e3 (ix2 p q) 0) k := fun k => Shape.idx_ext₂
    (by have t : (e0 (ix2 p k) 0 : Nat) = i0 0 * M + p.val := he0 _ 0
        show (e0 (ix2 p k) 0 : Nat) = (e3 (ix2 p q) 0 : Nat); rw [t, s0, a0, d0])
    (by have t : (e0 (ix2 p k) 1 : Nat) = i0 1 * K + k.val := he0 _ 1
        show (e0 (ix2 p k) 1 : Nat) = k.val; rw [t, a1]; omega)
  have r1 : ∀ k, e1 (ix2 k q) = ix2 k (e3 (ix2 p q) 1) := fun k => Shape.idx_ext₂
    (by have t : (e1 (ix2 k q) 0 : Nat) = i1 0 * K + k.val := he1 _ 0
        show (e1 (ix2 k q) 0 : Nat) = k.val; rw [t, b0]; omega)
    (by have t : (e1 (ix2 k q) 1 : Nat) = i1 1 * 128 + q.val := he1 _ 1
        show (e1 (ix2 k q) 1 : Nat) = (e3 (ix2 p q) 1 : Nat); rw [t, s1, b1, d1])
  have r2 : e2 (ix2 (0 : Fin 1) q) = ix2 (0 : Fin 1) (e3 (ix2 p q) 1) := Shape.idx_ext₂
    (by have t : (e2 (ix2 (0 : Fin 1) q) 0 : Nat) = i2 0 * 1 + 0 := he2 _ 0
        show (e2 (ix2 (0 : Fin 1) q) 0 : Nat) = 0; rw [t, c0])
    (by have t : (e2 (ix2 (0 : Fin 1) q) 1 : Nat) = i2 1 * 128 + q.val := he2 _ 1
        show (e2 (ix2 (0 : Fin 1) q) 1 : Nat) = (e3 (ix2 p q) 1 : Nat); rw [t, s1, c1, d1])
  rw [hf, h2, r2]
  simp only [h0, h1, r0, r1]
  rfl

theorem pay0_apply (x0 : Vec Ideal S5000x11 .f32) (x1 : Vec Ideal S11x128 .f32) (x2 : Vec Ideal S1x128 .f32) (p : Fin 5000) (q : Fin 128) :
    k0_pay1 (F := Ideal) x0 x1 x2 (ix2 p q) = (∑ k : Fin 11, x0 (ix2 p k) * x1 (ix2 k q)) + x2 (ix2 (0 : Fin 1) q) := by
  unfold k0_pay1
  rw [addf_apply, matmul_plain_apply dot_S5000x11_S11x128_S5000x128_1_0_0_1_n_n rfl, shapeCast_self, shapeCast_self, bias_apply]
  rfl

end Cert.Proof.EmbedValue

end
-- ==== Proof.Val.Tile.lean ====
import Idealize.ShloMosaic.Lib.Pipeline.Value
import Idealize.ShloMosaic.Lib.ValueIdx

namespace Cert.Proof.Tile

open Idealize.ShloMosaic Idealize.ShloMosaic.ValueIdx

theorem hz : (![0, 0] : Fin 2 → Nat) = fun _ => 0 := funext fun a => by fin_cases a <;> rfl

-- N row-blocks of M rows tile the R ≤ M * N rows: row r lies in block r / M.
theorem cover_rows {R M C N : Nat} (hR : R ≤ M * N) (idx : Fin N → Fin 2 → Nat) (h : ∀ t, idx t 0 = t.val ∧ idx t 1 = 0)
    (i : (⟨2, ![R, C]⟩ : Shape).Idx) :
    ∃ t : Fin N, ∀ a : Fin 2, idx t a * (![M, C] a) ≤ (i a).val ∧ (i a).val < idx t a * (![M, C] a) + ![M, C] a := by
  have hi0 : (i 0).val < R := idx2_lt0 i
  have hM : 0 < M := Nat.pos_of_ne_zero fun h0 => by subst h0; omega
  refine ⟨⟨(i 0).val / M, Nat.div_lt_of_lt_mul (by omega)⟩, Fin.forall_fin_two.2 ⟨?_, ?_⟩⟩
  · show idx _ 0 * M ≤ (i 0).val ∧ (i 0).val < idx _ 0 * M + M
    rw [(h _).1]; exact ⟨Nat.div_mul_le_self _ _, Nat.lt_div_mul_add hM⟩
  · show idx _ 1 * C ≤ (i 1).val ∧ (i 1).val < idx _ 1 * C + C
    rw [(h _).2]; have := idx2_lt1 i; omega

theorem mem_whole_slice {sig : RefSig} {κ : Kind} (b : Ref sig κ) {r : Rect b.ty.shape} {i : b.ty.shape.Idx} (h : i ∈ r.set) :
    i ∈ ((View.whole b).slice r).set := by
  rw [View.set_slice_whole]; exact h

end Cert.Proof.Tile
-- ==== Proof.Val.EmbedArr0.lean ====
import proofs.«428859_j12661563588730_1_alg».proof.Proof.KI.Reg0
import proofs.«428859_j12661563588730_1_alg».proof.Proof.Val.EmbedPay0
import proofs.«428859_j12661563588730_1_alg».proof.Proof.Val.Tile

noncomputable section

namespace Cert.Proof.EmbedValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Window)

variable (V : (c : Dev nD) → (b : Ref sig .tc) → Buf (Elt Ideal) ((c : Thread nD τ).loc b))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- After the region the output array is the embedding of the arrays the region found: block by block, and the blocks tile it.
theorem arr0 (c : Dev nD) :
    (dat0 V c).arrAt 3 cfg0.N = G (V c main_arg0) (V c main_v4) (V c main_v6) := by
  refine (dat0 V c).arrAt_eq_of_cover 3 _ (fun t _ => ?_) fun i => ?_
  · show (cfg0.win 3).cut (grid0.coords t) ((dat0 V c).after 3 t) = _
    rw [after0_3]
    unfold out0_3
    rw [View.canon_unit_zero Tile.hz, View.ld_unit_zero Tile.hz, View.ld_unit_zero Tile.hz, View.ld_unit_zero Tile.hz]
    exact blk_eq_G _ _ _ (pay0_apply _ _ _) (fun _ => rfl) (fun _ => rfl) (fun _ => rfl)
      (Window.rect_emb_val win0_0 t) (Window.rect_emb_val win0_1 t)
      (Window.rect_emb_val win0_2 t) (Window.rect_emb_val win0_3 t) (idx_facts0 t)
  · obtain ⟨t, h⟩ := Tile.cover_rows (M := 5000) (by decide) win0_3.index (fun t => (idx_facts0 t).2.2.2.2.2.2) i
    exact ⟨t, flush0_3 t, Tile.mem_whole_slice main_v8 (Rect.mem_set_unit.2 h)⟩

end Cert.Proof.EmbedValue

end
-- ==== Proof.Val.EmbedValue0.lean ====
import proofs.«428859_j12661563588730_1_alg».proof.Proof.Val.EmbedArr0
import proofs.«428859_j12661563588730_1_alg».proof.Proof.RefRead

noncomputable section

namespace Cert.Proof.EmbedValue

open Cert.KernelIdeal Cert.KernelIdeal.Hand Cert.ReferenceIdeal.Read
open Idealize.ShloMosaic Idealize.ShloMosaic.TcCoe Idealize.SL.Sem

-- The reference's product and its two bias broadcasts read, at an entry, the row, the column and the bias entry the embedding sums.
theorem val0 (V : (c : Dev nD) → (b : Ref sig .tc) → Buf (Elt Ideal) ((c : Thread nD τ).loc b)) (c : Dev nD)
    (x0 : (⟨Cert.ReferenceIdeal.S50000x11, .f32⟩ : BufTy).Contents (Elt Ideal))
    (x4 : (⟨Cert.ReferenceIdeal.S128x11, .f32⟩ : BufTy).Contents (Elt Ideal))
    (x5 : (⟨Cert.ReferenceIdeal.S128, .f32⟩ : BufTy).Contents (Elt Ideal))
    (h0 : V c Cert.KernelIdeal.main_arg0 = x0)
    (h4 : V c Cert.KernelIdeal.main_v4 = Cert.ReferenceIdeal.Read.val_main_v4 (F := Ideal) x4)
    (h6 : ∀ j : Fin 128, V c Cert.KernelIdeal.main_v6 (ValueIdx.ix2 (0 : Fin 1) j) = x5 (ValueIdx.ix1 j)) :
    (Cert.KernelIdeal.Hand.dat0 (F := Ideal) V c).arrAt 3 Cert.KernelIdeal.cfg0.N
      = Cert.ReferenceIdeal.Read.val_main_v8 (F := Ideal) x0 x4 x5 := by
  rw [arr0 V c, h0, h4]
  funext i
  rw [val_main_v8_apply, val_main_v5_apply, val_main_v7_apply, val_main_v6_apply]
  exact G_sum h6 i (fun _ => ValueIdx.eq_ix2 _) (fun _ => ValueIdx.eq_ix2 _) (ValueIdx.eq_ix1 _)

end Cert.Proof.EmbedValue

end
-- ==== Proof.Val.EmbedPay1.lean ====
import proofs.«428859_j12661563588730_1_alg».proof.Proof.Val.EmbedPay0

noncomputable section

namespace Cert.Proof.EmbedValue

open Cert.KernelIdeal Cert.KernelIdeal.Gen
open Idealize.ShloMosaic Idealize.ShloMosaic.ValueIdx

theorem pay1_apply (x0 : Vec Ideal S8000x14 .f32) (x1 : Vec Ideal S14x128 .f32) (x2 : Vec Ideal S1x128 .f32) (p : Fin 8000) (q : Fin 128) :
    k1_pay1 (F := Ideal) x0 x1 x2 (ix2 p q) = (∑ k : Fin 14, x0 (ix2 p k) * x1 (ix2 k q)) + x2 (ix2 (0 : Fin 1) q) := by
  unfold k1_pay1
  rw [addf_apply, matmul_plain_apply dot_S8000x14_S14x128_S8000x128_1_0_0_1_n_n rfl, shapeCast_self, shapeCast_self, bias_apply]
  rfl

end Cert.Proof.EmbedValue

end
-- ==== Proof.Val.EmbedArr1.lean ====
import proofs.«428859_j12661563588730_1_alg».proof.Proof.KI.Reg1
import proofs.«428859_j12661563588730_1_alg».proof.Proof.Val.EmbedPay1
import proofs.«428859_j12661563588730_1_alg».proof.Proof.Val.Tile

noncomputable section

namespace Cert.Proof.EmbedValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Window)

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

-- After the region the output array is the embedding of the arrays the region found: block by block, and the blocks tile it.
theorem arr1 (c : Dev nD) :
    (dat1 V c).arrAt 3 cfg1.N = G (V c main_arg2) (V c main_v5) (V c main_v7) := by
  refine (dat1 V c).arrAt_eq_of_cover 3 _ (fun t _ => ?_) fun i => ?_
  · show (cfg1.win 3).cut (grid1.coords t) ((dat1 V c).after 3 t) = _
    rw [after1_3]
    unfold out1_3
    rw [View.canon_unit_zero Tile.hz, View.ld_unit_zero Tile.hz, View.ld_unit_zero Tile.hz, View.ld_unit_zero Tile.hz]
    exact blk_eq_G _ _ _ (pay1_apply _ _ _) (fun _ => rfl) (fun _ => rfl) (fun _ => rfl)
      (Window.rect_emb_val win1_0 t) (Window.rect_emb_val win1_1 t)
      (Window.rect_emb_val win1_2 t) (Window.rect_emb_val win1_3 t) (idx_facts1 t)
  · obtain ⟨t, h⟩ := Tile.cover_rows (M := 8000) (by decide) win1_3.index (fun t => (idx_facts1 t).2.2.2.2.2.2) i
    exact ⟨t, flush1_3 t, Tile.mem_whole_slice main_v9 (Rect.mem_set_unit.2 h)⟩

end Cert.Proof.EmbedValue

end
-- ==== Proof.Val.EmbedValue1.lean ====
import proofs.«428859_j12661563588730_1_alg».proof.Proof.Val.EmbedArr1
import proofs.«428859_j12661563588730_1_alg».proof.Proof.RefRead

noncomputable section

namespace Cert.Proof.EmbedValue

open Cert.KernelIdeal Cert.KernelIdeal.Hand Cert.ReferenceIdeal.Read
open Idealize.ShloMosaic Idealize.ShloMosaic.TcCoe Idealize.SL.Sem

-- The reference's product and its two bias broadcasts read, at an entry, the row, the column and the bias entry the embedding sums.
theorem val1 (V : (c : Dev nD) → (b : Ref sig .tc) → Buf (Elt Ideal) ((c : Thread nD τ).loc b)) (c : Dev nD)
    (x2 : (⟨Cert.ReferenceIdeal.S800000x14, .f32⟩ : BufTy).Contents (Elt Ideal))
    (x6 : (⟨Cert.ReferenceIdeal.S128x14, .f32⟩ : BufTy).Contents (Elt Ideal))
    (x7 : (⟨Cert.ReferenceIdeal.S128, .f32⟩ : BufTy).Contents (Elt Ideal))
    (h2 : V c Cert.KernelIdeal.main_arg2 = x2)
    (h5 : V c Cert.KernelIdeal.main_v5 = Cert.ReferenceIdeal.Read.val_main_v9 (F := Ideal) x6)
    (h7 : ∀ j : Fin 128, V c Cert.KernelIdeal.main_v7 (ValueIdx.ix2 (0 : Fin 1) j) = x7 (ValueIdx.ix1 j)) :
    (Cert.KernelIdeal.Hand.dat1 (F := Ideal) V c).arrAt 3 Cert.KernelIdeal.cfg1.N
      = Cert.ReferenceIdeal.Read.val_main_v13 (F := Ideal) x2 x6 x7 := by
  rw [arr1 V c, h2, h5]
  funext i
  rw [val_main_v13_apply, val_main_v10_apply, val_main_v12_apply, val_main_v11_apply]
  exact G_sum h7 i (fun _ => ValueIdx.eq_ix2 _) (fun _ => ValueIdx.eq_ix2 _) (ValueIdx.eq_ix1 _)

end Cert.Proof.EmbedValue

end
-- ==== Proof.Val.AlgL01.lean ====
import proofs.«428859_j12661563588730_1_alg».proof.Proof.KI.Chain
import proofs.«428859_j12661563588730_1_alg».proof.Proof.Val.AlgArgs
import proofs.«428859_j12661563588730_1_alg».proof.Proof.Val.AlgHost0
import proofs.«428859_j12661563588730_1_alg».proof.Proof.Val.EmbedValue0
import proofs.«428859_j12661563588730_1_alg».proof.Proof.Val.EmbedValue1

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.ReferenceIdeal.Read

variable (m : (ℓ : Loc nD τ sig) → Buf (Elt Ideal) ℓ) (c : Dev nD)

theorem N1_launch (r : Ref sig .tc) (h : r ∉ hostOps0_W) : N1 m c r = N0 m c r :=
  StableHlo.after_of_writes_sub hostOps0 _ hostOps0_writes h

theorem L0 : o2 m c = val_main_v8 (F := Ideal) (a0 m c) (a4 m c) (a5 m c) := by
  unfold o2
  exact Cert.Proof.EmbedValue.val0 (atRefs (N1 m)) c _ _ _ (N1_launch m c _ (by decide)) (host0_v4 _) (host0_v6 _)

theorem L1 : o3 m c = val_main_v13 (F := Ideal) (a2 m c) (a6 m c) (a7 m c) := by
  unfold o3
  exact Cert.Proof.EmbedValue.val1 (atRefs (N2 m)) c _ _ _
    ((update_other (N1 m c) main_v8 _ (by decide) _).trans (N1_launch m c _ (by decide)))
    ((update_other (N1 m c) main_v8 _ (by decide) _).trans (host0_v5 _))
    (fun j => (congrFun (update_other (N1 m c) main_v8 main_v7 (by decide) _) _).trans (host0_v7 _ j))

theorem N3_of_N1 (r : Ref sig .tc) (h : r ≠ main_v8 ∧ r ≠ main_v9) : N3 m c r = N1 m c r :=
  (update_other (N2 m c) main_v9 r h.2 (o3 m c)).trans (update_other (N1 m c) main_v8 r h.1 (o2 m c))

theorem N3_v8 : N3 m c main_v8 = val_main_v8 (F := Ideal) (a0 m c) (a4 m c) (a5 m c) :=
  (update_other (N2 m c) main_v9 main_v8 (by decide) (o3 m c)).trans ((Function.update_self _ _ _).trans (L0 m c))

def args : List (Ref sig .tc) :=
  [main_arg3, main_arg8, main_arg9, main_arg10, main_arg11, main_arg12, main_arg13, main_arg14, main_arg15, main_arg16, main_arg17]

-- What every layer finds as the embeddings left it: the edges' two node vectors, the edge embedding, and the launch arguments.
structure Entry (W : Valuation τ sig (Elt Ideal)) : Prop where
  v1 : W main_v1 = val_main_v1 (F := Ideal) (a1 m c)
  v3 : W main_v3 = val_main_v3 (F := Ideal) (a1 m c)
  v9 : W main_v9 = val_main_v13 (F := Ideal) (a2 m c) (a6 m c) (a7 m c)
  arg : ∀ r ∈ args, W (Proc.devRef .tc r) = N0 m c (Proc.devRef .tc r)

theorem E3 : Entry m c (N3 m c) :=
  have hargs : ∀ r ∈ args, (r ≠ main_v8 ∧ r ≠ main_v9) ∧ r ∉ hostOps0_W := by decide
  ⟨(N3_of_N1 m c _ (by decide)).trans (host0_v1 _), (N3_of_N1 m c _ (by decide)).trans (host0_v3 _),
   (Function.update_self _ _ _).trans (L1 m c),
   fun r h => (N3_of_N1 m c r (hargs r h).1).trans (N1_launch m c r (hargs r h).2)⟩

-- A line of operations and one write that touch none of those references keep them.
variable {m c} in
theorem Entry.step {W : Valuation τ sig (Elt Ideal)} (hW : Entry m c W) (ops : List (HloOp τ sig (Elt Ideal))) {Wl : List (Ref sig .tc)}
    (hw : ops.Forall fun op => op.writes ⊆ (Wl.map (Proc.devRef (τ := τ) .tc)).toFinset) (r0 : Ref sig .tc)
    (hd : ∀ r ∈ main_v1 :: main_v3 :: main_v9 :: args, r ∉ Wl ∧ r ≠ r0)
    (v : (Proc.devRef (τ := τ) .tc r0).ty.Contents (Elt Ideal)) :
    Entry m c (Function.update (StableHlo.after ops W) (Proc.devRef .tc r0) v) :=
  have S := fun r h => step_other W ops hw r0 r (hd r h) v
  ⟨(S _ (by decide)).trans hW.v1, (S _ (by decide)).trans hW.v3, (S _ (by decide)).trans hW.v9,
   fun r h => (S r (List.mem_cons_of_mem _ (List.mem_cons_of_mem _ (List.mem_cons_of_mem _ h)))).trans (hW.arg r h)⟩

end Cert.Proof.Alg

end
-- ==== Proof.Val.AlgHost3.lean ====
import proofs.«428859_j12661563588730_1_alg».proof.Proof.Gen.KernelIdeal.Launch
import proofs.«428859_j12661563588730_1_alg».proof.Proof.RefRead
import proofs.«428859_j12661563588730_1_alg».proof.Proof.Val.AlgBase

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.ReferenceIdeal.Read

variable (W : Valuation τ sig (Elt Ideal))

-- The stretch before the message region gathers the node features' rows at the edges' source nodes.
theorem host2_v16 {h s} (hh : W main_v8 = h) (hs : W main_v1 = s) :
    StableHlo.after hostOps2 W main_v16 = gatherRows h s := by
  after_results; rw [hh, hs]; rfl

-- The stretch before the update region sums the messages into the rows of the edges' target nodes,
theorem host3_v20 {u t} (hu : W main_v17 = u) (ht : W main_v3 = t) :
    StableHlo.after hostOps3 W main_v20 = scatterRows u t := by
  after_results; rw [hu, ht]; rfl

-- and lays out the layer's slices of the stacked parameters: two transposed matrices and six rows.
theorem host3_v23 {x} (h : W main_arg8 = x) :
    StableHlo.after hostOps3 W main_v23 = val_main_v29 (F := Ideal) x := by
  after_results; rw [h]; rfl

theorem host3_v26 {x} (h : W main_arg14 = x) :
    StableHlo.after hostOps3 W main_v26 = val_main_v60 (F := Ideal) x := by
  after_results; rw [h]; rfl

theorem host3_v29 {x} (h : W main_arg9 = x) (k : Fin 128) :
    StableHlo.after hostOps3 W main_v29 (ix2 (0 : Fin 1) k) = val_main_v32 (F := Ideal) x (ix1 k) :=
  row_of_cast shapeCasts_S128_S1x128 (by after_results; rw [h]; rfl) k

theorem host3_v32 {x} (h : W main_arg15 = x) (k : Fin 128) :
    StableHlo.after hostOps3 W main_v32 (ix2 (0 : Fin 1) k) = val_main_v63 (F := Ideal) x (ix1 k) :=
  row_of_cast shapeCasts_S128_S1x128 (by after_results; rw [h]; rfl) k

theorem host3_v35 {x} (h : W main_arg10 = x) (k : Fin 128) :
    StableHlo.after hostOps3 W main_v35 (ix2 (0 : Fin 1) k) = val_main_v42 (F := Ideal) x (ix1 k) :=
  row_of_cast shapeCasts_S128_S1x128 (by after_results; rw [h]; rfl) k

theorem host3_v38 {x} (h : W main_arg11 = x) (k : Fin 128) :
    StableHlo.after hostOps3 W main_v38 (ix2 (0 : Fin 1) k) = val_main_v53 (F := Ideal) x (ix1 k) :=
  row_of_cast shapeCasts_S128_S1x128 (by after_results; rw [h]; rfl) k

theorem host3_v41 {x} (h : W main_arg12 = x) (k : Fin 128) :
    StableHlo.after hostOps3 W main_v41 (ix2 (0 : Fin 1) k) = val_main_v37 (F := Ideal) x (ix1 k) :=
  row_of_cast shapeCasts_S128_S1x128 (by after_results; rw [h]; rfl) k

theorem host3_v44 {x} (h : W main_arg13 = x) (k : Fin 128) :
    StableHlo.after hostOps3 W main_v44 (ix2 (0 : Fin 1) k) = val_main_v44 (F := Ideal) x (ix1 k) :=
  row_of_cast shapeCasts_S128_S1x128 (by after_results; rw [h]; rfl) k

end Cert.Proof.Alg

end
-- ==== Proof.Val.MsgValue.lean ====
import proofs.«428859_j12661563588730_1_alg».proof.Proof.KI.Reg2
import proofs.«428859_j12661563588730_1_alg».proof.Proof.RefRead
import proofs.«428859_j12661563588730_1_alg».proof.Proof.Val.Tile
import Idealize.ShloMosaic.PureOps.Ideal.Laws

noncomputable section

namespace Cert.Proof.MsgValue

open Cert.KernelIdeal Cert.KernelIdeal.Gen Cert.KernelIdeal.Hand Cert.ReferenceIdeal.Read
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

abbrev G (a0 a1 : S800000x128.Idx → Elt Ideal .f32) : S800000x128.Idx → Elt Ideal .f32 :=
  fun i => FloatOps.maximumf (F := Ideal) (FloatOps.addf (F := Ideal) (a0 i) (a1 i)) (FloatOps.ofBits (F := Ideal) .f32 0x00000000#32)

-- What a message body stores is max(a + b, 0) entry by entry: both reshapes are to the same shape.
theorem out_eq (x0 x1 : Vec Ideal S8000x128 .f32) :
    out2_2 (F := Ideal) x0 x1 = fun j => FloatOps.maximumf (F := Ideal) (FloatOps.addf (F := Ideal) (x0 j) (x1 j)) (FloatOps.ofBits (F := Ideal) .f32 0x00000000#32) := by
  unfold out2_2 k2_pay1
  rw [View.canon_unit_zero Tile.hz, View.ld_unit_zero Tile.hz, View.ld_unit_zero Tile.hz, shapeCast_self, shapeCast_self]
  rfl

theorem idx_facts : ∀ t : Fin grid2.N, win2_2.index t (0 : Fin 2) = t.val ∧ win2_2.index t (1 : Fin 2) = 0 := by
  decide +kernel

-- The hundred blocks of 8000 rows tile the message array.
theorem cover_rect (i : S800000x128.Idx) : ∃ t : Fin grid2.N, i ∈ (win2_2.rect t).set :=
  let ⟨t, h⟩ := Tile.cover_rows (M := 8000) (by decide) win2_2.index idx_facts i
  ⟨t, Rect.mem_set_unit.2 h⟩

-- The reference's stage is the same function: its zero is a broadcast constant.
theorem G_ref (x e : S800000x128.Idx → Elt Ideal .f32) :
    G x e = maximumf (F := Ideal) (φ := .f32) (addf (F := Ideal) (φ := .f32) x e) (val_main_call0_v0 (F := Ideal)) := by
  funext i
  show _ = FloatOps.maximumf (F := Ideal) _ (val_main_call0_v0 (F := Ideal) i)
  rw [val_main_call0_v0_apply, val_main_call0_cst_apply]
  rfl

theorem val2 (c : Dev nD) (x e : (⟨Cert.ReferenceIdeal.S800000x128, .f32⟩ : BufTy).Contents (Elt Ideal))
    (hx : V c Cert.KernelIdeal.main_v16 = x) (he : V c Cert.KernelIdeal.main_v9 = e) :
    (Cert.KernelIdeal.Hand.dat2 (F := Ideal) V c).arrAt 2 Cert.KernelIdeal.cfg2.N
      = maximumf (F := Ideal) (φ := .f32) (addf (F := Ideal) (φ := .f32) x e) (Cert.ReferenceIdeal.Read.val_main_call0_v0 (F := Ideal)) := by
  subst hx; subst he
  rw [← G_ref]
  refine (dat2 (F := Ideal) V c).arrAt_eq_of_cover 2 _ (fun t _ => ?_) fun i => ?_
  · show (cfg2.win 2).cut (grid2.coords t) ((dat2 (F := Ideal) V c).after 2 t) = _
    rw [after2_2]
    exact out_eq _ _
  · obtain ⟨t, h⟩ := cover_rect i
    exact ⟨t, flush2_2 t, Tile.mem_whole_slice main_v17 h⟩

end Cert.Proof.MsgValue

end
-- ==== Proof.Val.MlpForm.lean ====
import Idealize.ShloMosaic.PureOps.Ideal

noncomputable section

namespace Cert.Proof.MlpForm

open Idealize.ShloMosaic
open scoped BigOperators

-- Hidden unit k of a row z: the first product and its bias, normalised, then rectified.
def hidden (z : Fin 128 → EReal) (w1 : Fin 128 → Fin 128 → EReal) (b1 mean scale var shift : Fin 128 → EReal) (k : Fin 128) : EReal :=
  max ((((∑ j : Fin 128, z j * w1 j k) + b1 k) - mean k) * (scale k * Ideal.rsqrt (var k + Ideal.ofBits .f32 0x3727C5AC#32)) + shift k)
    (Ideal.ofBits .f32 0x00000000#32)

-- Column q of the updated row: the second product of the hidden units of h + a and its bias, rectified, plus h.
def node (h a : Fin 128 → EReal) (w1 : Fin 128 → Fin 128 → EReal) (b1 mean scale var shift : Fin 128 → EReal)
    (w2 : Fin 128 → Fin 128 → EReal) (b2 : Fin 128 → EReal) (q : Fin 128) : EReal :=
  max ((∑ k : Fin 128, hidden (fun j => h j + a j) w1 b1 mean scale var shift k * w2 k q) + b2 q) (Ideal.ofBits .f32 0x00000000#32) + h q

end Cert.Proof.MlpForm

end
-- ==== Proof.Val.MlpPay.lean ====
import proofs.«428859_j12661563588730_1_alg».proof.Proof.KI.Reg3
import proofs.«428859_j12661563588730_1_alg».proof.Proof.Val.MlpForm
import Idealize.ShloMosaic.Lib.Pipeline.Value
import Idealize.ShloMosaic.Lib.ValueIdx
import Idealize.ShloMosaic.PureOps.Ideal.Laws

noncomputable section

namespace Cert.Proof.MlpPay

open Cert.KernelIdeal Cert.KernelIdeal.Gen Cert.KernelIdeal.Hand Idealize.ShloMosaic Idealize.ShloMosaic.ValueIdx
open scoped BigOperators

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

-- A block product into the zero accumulator, at row p and column q, is row p of the left factor against column q of the right.
theorem matmul_ix (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_1 _ _)
  rw [el, er]

-- A 1 x 128 row broadcast down the rows, at row p and column q, is the row at column q.
theorem row_ix {α : Type} (v : S1x128.Idx → α) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

theorem hidden_ix (h a : Vec Ideal S5000x128 .f32) (w1 : Vec Ideal S128x128 .f32) (b1 var mean scale shift : Vec Ideal S1x128 .f32)
    (p : Fin 5000) (k : Fin 128) :
    k3_pay3 (F := Ideal) h a w1 b1 var mean scale shift (ix2 p k)
      = MlpForm.hidden (fun j => h (ix2 p j) + a (ix2 p j)) (fun j k => w1 (ix2 j k)) (fun k => b1 (ix2 (0 : Fin 1) k))
          (fun k => mean (ix2 (0 : Fin 1) k)) (fun k => scale (ix2 (0 : Fin 1) k)) (fun k => var (ix2 (0 : Fin 1) k))
          (fun k => shift (ix2 (0 : Fin 1) k)) k := by
  unfold k3_pay3 k3_pay2 MlpForm.hidden
  simp only [shapeCast_self]
  rw [truncf_apply, maximumf_apply, addf_apply, mulf_apply, subf_apply, addf_apply, matmul_ix, row_ix, row_ix, row_ix, row_ix]
  rfl

theorem hz : (![0, 0] : Fin 2 → Nat) = fun _ => 0 := funext fun a => by fin_cases a <;> rfl

-- The stored block at row p and column q is the row function of row p of the input blocks; the three layers store the same function.
theorem out_ix (x0 x1 : Vec Ideal S5000x128 .f32) (x2 : Vec Ideal S128x128 .f32) (x3 x4 x5 x6 x7 : Vec Ideal S1x128 .f32)
    (x8 : Vec Ideal S128x128 .f32) (x9 : Vec Ideal S1x128 .f32) (p : Fin 5000) (q : Fin 128) :
    out3_10 x0 x1 x2 x3 x4 x5 x6 x7 x8 x9 (ix2 p q)
      = MlpForm.node (fun j => x0 (ix2 p j)) (fun j => x1 (ix2 p j)) (fun j k => x2 (ix2 j k)) (fun k => x3 (ix2 (0 : Fin 1) k))
          (fun k => x6 (ix2 (0 : Fin 1) k)) (fun k => x4 (ix2 (0 : Fin 1) k)) (fun k => x7 (ix2 (0 : Fin 1) k))
          (fun k => x5 (ix2 (0 : Fin 1) k)) (fun k q => x8 (ix2 k q)) (fun q => x9 (ix2 (0 : Fin 1) q)) q := by
  unfold out3_10
  rw [View.canon_unit_zero hz]
  simp only [View.ld_unit_zero (S := S5000x128) hz, View.ld_unit_zero (S := S128x128) hz, View.ld_unit_zero (S := S1x128) hz]
  unfold k3_pay1 k3_pay2 k3_pay4 MlpForm.node
  simp only [shapeCast_self]
  rw [addf_apply, maximumf_apply, addf_apply, matmul_ix, row_ix]
  simp only [hidden_ix]
  rfl

end Cert.Proof.MlpPay

end
-- ==== Proof.Val.MlpRef.lean ====
import proofs.«428859_j12661563588730_1_alg».proof.Proof.RefRead
import proofs.«428859_j12661563588730_1_alg».proof.Proof.Val.MlpForm
import Idealize.ShloMosaic.Lib.ValueIdx
import Idealize.ShloMosaic.PureOps.Ideal.Laws

noncomputable section

namespace Cert.Proof.MlpRef

open Cert.ReferenceIdeal Cert.ReferenceIdeal.Read Idealize.ShloMosaic Idealize.ShloMosaic.ValueIdx
open scoped BigOperators

theorem lidx (r : Fin 50000) (k j : Fin 128) : lidx_main_v30 (ix2 r k) j = ix2 r j :=
  funext fun a => Fin.ext (by match a with | ⟨0, _⟩ => rfl | ⟨1, _⟩ => rfl)
theorem ridx (r : Fin 50000) (k j : Fin 128) : ridx_main_v30 (ix2 r k) j = ix2 j k :=
  funext fun a => Fin.ext (by match a with | ⟨0, _⟩ => rfl | ⟨1, _⟩ => rfl)
theorem row (r : Fin 50000) (k : Fin 128) : idx_main_v34 (ix2 r k) = ix2 (0 : Fin 1) k :=
  funext fun a => Fin.ext (by match a with | ⟨0, _⟩ => rfl | ⟨1, _⟩ => rfl)
theorem col (k : Fin 128) : idx_main_v33 (ix2 (0 : Fin 1) k) = ix1 k :=
  funext fun a => Fin.ext (by match a with | ⟨0, _⟩ => rfl)

-- One layer of the reference, stage by stage over any stage functions: its last stage at row r is the row function of row r.
theorem node_of_stages {H A v26 v30 v34 v35 v39 v40 v50 v51 v55 v56 z1 v57 v61 v65 v66 z2 v67 v68 : (⟨S50000x128, .f32⟩ : BufTy).Contents (Elt Ideal)}
    {W1 W2 : (⟨S128x128, .f32⟩ : BufTy).Contents (Elt Ideal)} {v33 v38 v49 v54 v64 : (⟨S1x128, .f32⟩ : BufTy).Contents (Elt Ideal)}
    {b1 mean scale var shift b2 v45 v46 v47 v48 : (⟨S128, .f32⟩ : BufTy).Contents (Elt Ideal)} {eps c1 c2 : (⟨S_, .f32⟩ : BufTy).Contents (Elt Ideal)}
    (e68 : ∀ {i}, v68 i = FloatOps.addf (F := Ideal) (φ := .f32) (v67 i) (H i))
    (e67 : ∀ {i}, v67 i = FloatOps.maximumf (F := Ideal) (φ := .f32) (v66 i) (z2 i))
    (ez2 : ∀ {i}, z2 i = c2 (idx_main_call1_v0 i))
    (ec2 : ∀ {i}, c2 i = FloatOps.ofBits (F := Ideal) .f32 0#32)
    (e66 : ∀ {i}, v66 i = FloatOps.addf (F := Ideal) (φ := .f32) (v61 i) (v65 i))
    (e65 : ∀ {i}, v65 i = v64 (idx_main_v34 i))
    (e64 : ∀ {i}, v64 i = b2 (idx_main_v33 i))
    (e61 : ∀ {i}, v61 i = ∑ k, v57 (lidx_main_v30 i k) * W2 (ridx_main_v30 i k))
    (e57 : ∀ {i}, v57 i = FloatOps.maximumf (F := Ideal) (φ := .f32) (v56 i) (z1 i))
    (ez1 : ∀ {i}, z1 i = c1 (idx_main_call1_v0 i))
    (ec1 : ∀ {i}, c1 i = FloatOps.ofBits (F := Ideal) .f32 0#32)
    (e56 : ∀ {i}, v56 i = FloatOps.addf (F := Ideal) (φ := .f32) (v51 i) (v55 i))
    (e55 : ∀ {i}, v55 i = v54 (idx_main_v34 i))
    (e54 : ∀ {i}, v54 i = shift (idx_main_v33 i))
    (e51 : ∀ {i}, v51 i = FloatOps.mulf (F := Ideal) (φ := .f32) (v40 i) (v50 i))
    (e50 : ∀ {i}, v50 i = v49 (idx_main_v34 i))
    (e49 : ∀ {i}, v49 i = v48 (idx_main_v33 i))
    (e48 : ∀ {i}, v48 i = FloatOps.mulf (F := Ideal) (φ := .f32) (scale i) (v47 i))
    (e47 : ∀ {i}, v47 i = FloatOps.hostUnary (F := Ideal) (φ := .f32) .rsqrt (v46 i))
    (e46 : ∀ {i}, v46 i = FloatOps.addf (F := Ideal) (φ := .f32) (var i) (v45 i))
    (e45 : ∀ {i}, v45 i = eps (idx_main_v45 i))
    (eeps : ∀ {i}, eps i = FloatOps.ofBits (F := Ideal) .f32 925353388#32)
    (e40 : ∀ {i}, v40 i = FloatOps.subf (F := Ideal) (φ := .f32) (v35 i) (v39 i))
    (e39 : ∀ {i}, v39 i = v38 (idx_main_v34 i))
    (e38 : ∀ {i}, v38 i = mean (idx_main_v33 i))
    (e35 : ∀ {i}, v35 i = FloatOps.addf (F := Ideal) (φ := .f32) (v30 i) (v34 i))
    (e34 : ∀ {i}, v34 i = v33 (idx_main_v34 i))
    (e33 : ∀ {i}, v33 i = b1 (idx_main_v33 i))
    (e30 : ∀ {i}, v30 i = ∑ k, v26 (lidx_main_v30 i k) * W1 (ridx_main_v30 i k))
    (e26 : ∀ {i}, v26 i = FloatOps.addf (F := Ideal) (φ := .f32) (H i) (A i)) (r : Fin 50000) (q : Fin 128) :
    v68 (ix2 r q) = MlpForm.node (fun j => H (ix2 r j)) (fun j => A (ix2 r j)) (fun j k => W1 (ix2 j k)) (fun k => b1 (ix1 k))
      (fun k => mean (ix1 k)) (fun k => scale (ix1 k)) (fun k => var (ix1 k)) (fun k => shift (ix1 k))
      (fun k q => W2 (ix2 k q)) (fun q => b2 (ix1 q)) q := by
  unfold MlpForm.node MlpForm.hidden
  simp only [e68, e67, ez2, ec2, e66, e65, e64, e61, e57, ez1, ec1, e56, e55, e54, e51, e50, e49, e48, e47, e46, e45, eeps, e40,
    e39, e38, e35, e34, e33, e30, e26, lidx, ridx, row, col, Ideal.addf_def, Ideal.subf_def, Ideal.mulf_def, Ideal.maximumf_def,
    Ideal.hostUnary_rsqrt_def]
  rfl

variable (x0 : (⟨S50000x11, .f32⟩ : BufTy).Contents (Elt Ideal)) (x1 : (⟨S2x800000, .i32⟩ : BufTy).Contents (Elt Ideal))
  (x2 : (⟨S800000x14, .f32⟩ : BufTy).Contents (Elt Ideal)) (x4 : (⟨S128x11, .f32⟩ : BufTy).Contents (Elt Ideal))
  (x5 : (⟨S128, .f32⟩ : BufTy).Contents (Elt Ideal)) (x6 : (⟨S128x14, .f32⟩ : BufTy).Contents (Elt Ideal))
  (x7 : (⟨S128, .f32⟩ : BufTy).Contents (Elt Ideal)) (x8 : (⟨S3x128x128, .f32⟩ : BufTy).Contents (Elt Ideal))
  (x9 x10 x11 x12 x13 : (⟨S3x128, .f32⟩ : BufTy).Contents (Elt Ideal)) (x14 : (⟨S3x128x128, .f32⟩ : BufTy).Contents (Elt Ideal))
  (x15 : (⟨S3x128, .f32⟩ : BufTy).Contents (Elt Ideal)) (r : Fin 50000) (q : Fin 128)

theorem node_ix :
    val_main_v68 (F := Ideal) x0 x1 x2 x4 x5 x6 x7 x8 x9 x10 x11 x12 x13 x14 x15 (ix2 r q)
      = MlpForm.node (fun j => val_main_v8 (F := Ideal) x0 x4 x5 (ix2 r j)) (fun j => val_main_v25 (F := Ideal) x0 x1 x2 x4 x5 x6 x7 (ix2 r j))
          (fun j k => val_main_v29 (F := Ideal) x8 (ix2 j k)) (fun k => val_main_v32 (F := Ideal) x9 (ix1 k))
          (fun k => val_main_v37 (F := Ideal) x12 (ix1 k)) (fun k => val_main_v42 (F := Ideal) x10 (ix1 k))
          (fun k => val_main_v44 (F := Ideal) x13 (ix1 k)) (fun k => val_main_v53 (F := Ideal) x11 (ix1 k))
          (fun k q => val_main_v60 (F := Ideal) x14 (ix2 k q)) (fun q => val_main_v63 (F := Ideal) x15 (ix1 q)) q := by
  apply node_of_stages
  exacts [val_main_v68_apply (F := Ideal) .., val_main_v67_apply (F := Ideal) .., val_main_call2_v0_apply (F := Ideal) .., val_main_call2_cst_apply (F := Ideal) .., val_main_v66_apply (F := Ideal) ..,
    val_main_v65_apply (F := Ideal) .., val_main_v64_apply (F := Ideal) .., val_main_v61_apply .., val_main_v57_apply (F := Ideal) .., val_main_call1_v0_apply (F := Ideal) ..,
    val_main_call1_cst_apply (F := Ideal) .., val_main_v56_apply (F := Ideal) .., val_main_v55_apply (F := Ideal) .., val_main_v54_apply (F := Ideal) .., val_main_v51_apply (F := Ideal) ..,
    val_main_v50_apply (F := Ideal) .., val_main_v49_apply (F := Ideal) .., val_main_v48_apply (F := Ideal) .., val_main_v47_apply (F := Ideal) .., val_main_v46_apply (F := Ideal) ..,
    val_main_v45_apply (F := Ideal) .., val_main_cst_1_apply (F := Ideal) .., val_main_v40_apply (F := Ideal) .., val_main_v39_apply (F := Ideal) .., val_main_v38_apply (F := Ideal) ..,
    val_main_v35_apply (F := Ideal) .., val_main_v34_apply (F := Ideal) .., val_main_v33_apply (F := Ideal) .., val_main_v30_apply .., val_main_v26_apply (F := Ideal) ..]

theorem node_ix5 :
    val_main_v123 (F := Ideal) x0 x1 x2 x4 x5 x6 x7 x8 x9 x10 x11 x12 x13 x14 x15 (ix2 r q)
      = MlpForm.node (fun j => val_main_v68 (F := Ideal) x0 x1 x2 x4 x5 x6 x7 x8 x9 x10 x11 x12 x13 x14 x15 (ix2 r j)) (fun j => val_main_v80 (F := Ideal) x0 x1 x2 x4 x5 x6 x7 x8 x9 x10 x11 x12 x13 x14 x15 (ix2 r j))
          (fun j k => val_main_v84 (F := Ideal) x8 (ix2 j k)) (fun k => val_main_v87 (F := Ideal) x9 (ix1 k))
          (fun k => val_main_v92 (F := Ideal) x12 (ix1 k)) (fun k => val_main_v97 (F := Ideal) x10 (ix1 k))
          (fun k => val_main_v99 (F := Ideal) x13 (ix1 k)) (fun k => val_main_v108 (F := Ideal) x11 (ix1 k))
          (fun k q => val_main_v115 (F := Ideal) x14 (ix2 k q)) (fun q => val_main_v118 (F := Ideal) x15 (ix1 q)) q := by
  apply node_of_stages
  exacts [val_main_v123_apply (F := Ideal) .., val_main_v122_apply (F := Ideal) .., val_main_call5_v0_apply (F := Ideal) .., val_main_call5_cst_apply (F := Ideal) ..,
    val_main_v121_apply (F := Ideal) .., val_main_v120_apply (F := Ideal) .., val_main_v119_apply (F := Ideal) .., val_main_v116_apply .., val_main_v112_apply (F := Ideal) ..,
    val_main_call4_v0_apply (F := Ideal) .., val_main_call4_cst_apply (F := Ideal) .., val_main_v111_apply (F := Ideal) .., val_main_v110_apply (F := Ideal) ..,
    val_main_v109_apply (F := Ideal) .., val_main_v106_apply (F := Ideal) .., val_main_v105_apply (F := Ideal) .., val_main_v104_apply (F := Ideal) .., val_main_v103_apply (F := Ideal) ..,
    val_main_v102_apply (F := Ideal) .., val_main_v101_apply (F := Ideal) .., val_main_v100_apply (F := Ideal) .., val_main_cst_5_apply (F := Ideal) .., val_main_v95_apply (F := Ideal) ..,
    val_main_v94_apply (F := Ideal) .., val_main_v93_apply (F := Ideal) .., val_main_v90_apply (F := Ideal) .., val_main_v89_apply (F := Ideal) .., val_main_v88_apply (F := Ideal) ..,
    val_main_v85_apply .., val_main_v81_apply (F := Ideal) ..]

theorem node_ix7 :
    val_main_v178 (F := Ideal) x0 x1 x2 x4 x5 x6 x7 x8 x9 x10 x11 x12 x13 x14 x15 (ix2 r q)
      = MlpForm.node (fun j => val_main_v123 (F := Ideal) x0 x1 x2 x4 x5 x6 x7 x8 x9 x10 x11 x12 x13 x14 x15 (ix2 r j)) (fun j => val_main_v135 (F := Ideal) x0 x1 x2 x4 x5 x6 x7 x8 x9 x10 x11 x12 x13 x14 x15 (ix2 r j))
          (fun j k => val_main_v139 (F := Ideal) x8 (ix2 j k)) (fun k => val_main_v142 (F := Ideal) x9 (ix1 k))
          (fun k => val_main_v147 (F := Ideal) x12 (ix1 k)) (fun k => val_main_v152 (F := Ideal) x10 (ix1 k))
          (fun k => val_main_v154 (F := Ideal) x13 (ix1 k)) (fun k => val_main_v163 (F := Ideal) x11 (ix1 k))
          (fun k q => val_main_v170 (F := Ideal) x14 (ix2 k q)) (fun q => val_main_v173 (F := Ideal) x15 (ix1 q)) q := by
  apply node_of_stages
  exacts [val_main_v178_apply (F := Ideal) .., val_main_v177_apply (F := Ideal) .., val_main_call8_v0_apply (F := Ideal) .., val_main_call8_cst_apply (F := Ideal) ..,
    val_main_v176_apply (F := Ideal) .., val_main_v175_apply (F := Ideal) .., val_main_v174_apply (F := Ideal) .., val_main_v171_apply .., val_main_v167_apply (F := Ideal) ..,
    val_main_call7_v0_apply (F := Ideal) .., val_main_call7_cst_apply (F := Ideal) .., val_main_v166_apply (F := Ideal) .., val_main_v165_apply (F := Ideal) ..,
    val_main_v164_apply (F := Ideal) .., val_main_v161_apply (F := Ideal) .., val_main_v160_apply (F := Ideal) .., val_main_v159_apply (F := Ideal) .., val_main_v158_apply (F := Ideal) ..,
    val_main_v157_apply (F := Ideal) .., val_main_v156_apply (F := Ideal) .., val_main_v155_apply (F := Ideal) .., val_main_cst_9_apply (F := Ideal) .., val_main_v150_apply (F := Ideal) ..,
    val_main_v149_apply (F := Ideal) .., val_main_v148_apply (F := Ideal) .., val_main_v145_apply (F := Ideal) .., val_main_v144_apply (F := Ideal) .., val_main_v143_apply (F := Ideal) ..,
    val_main_v140_apply .., val_main_v136_apply (F := Ideal) ..]

end Cert.Proof.MlpRef

end
-- ==== Proof.Val.MlpValue.lean ====
import proofs.«428859_j12661563588730_1_alg».proof.Proof.Val.MlpPay
import proofs.«428859_j12661563588730_1_alg».proof.Proof.Val.MlpRef

noncomputable section

namespace Cert.Proof.MlpValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

theorem ixr : ∀ t : Fin cfg3.N, win3_10.index t (0 : Fin 2) = t.val ∧ win3_10.index t (1 : Fin 2) = 0
    ∧ win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)
theorem ixp : ∀ (t : Fin cfg3.N) (a : Fin 2), win3_2.index t a = 0 ∧ win3_3.index t a = 0 ∧ win3_4.index t a = 0
    ∧ win3_5.index t a = 0 ∧ win3_6.index t a = 0 ∧ win3_7.index t a = 0 ∧ win3_8.index t a = 0 ∧ win3_9.index t a = 0 :=
  (by decide +kernel : ∀ (t : Fin grid3.N) (a : Fin 2), _)

-- Block t of window w of an array's contents A.
def blk (w : Fin cfg3.W) (t : Fin cfg3.N) (A : ((cfg3.win w).blk t).view.ty.Contents (Elt Ideal)) :
    ((cfg3.win w).xblock (cfg3.grid.coords t)).Idx → Elt Ideal (cfg3.win w).elt :=
  ((cfg3.win w).blk t).view.read (Elt Ideal) A

def row (t : Fin cfg3.N) (p : Fin 5000) : Fin 50000 :=
  ⟨t.val * 5000 + p.val, by have ht : t.val < 10 := t.isLt; have hp := p.isLt; omega⟩

-- Where an element of block t sits in its array, whatever the array holds.
theorem rd0 (A : (⟨S50000x128, .f32⟩ : BufTy).Contents (Elt Ideal)) (t : Fin cfg3.N) (p : Fin 5000) (j : Fin 128) :
    blk 0 t A (ix2 p j) = A (ix2 (row t p) j) :=
  congrArg A (Shape.idx_ext₂ ((win3_0.rect_emb_val t _ 0).trans (by rw [(ixr t).2.2.1]; rfl))
    (win3_0.rect_emb_val_of_index_zero t 1 (ixr t).2.2.2.1 _))
theorem rd1 (A : (⟨S50000x128, .f32⟩ : BufTy).Contents (Elt Ideal)) (t : Fin cfg3.N) (p : Fin 5000) (j : Fin 128) :
    blk 1 t A (ix2 p j) = A (ix2 (row t p) j) :=
  congrArg A (Shape.idx_ext₂ ((win3_1.rect_emb_val t _ 0).trans (by rw [(ixr t).2.2.2.2.1]; rfl))
    (win3_1.rect_emb_val_of_index_zero t 1 (ixr t).2.2.2.2.2 _))
theorem rd2 (A : (⟨S128x128, .f32⟩ : BufTy).Contents (Elt Ideal)) (t : Fin cfg3.N) (y : S128x128.Idx) : blk 2 t A y = A y :=
  congrArg A (funext fun a => Fin.ext (win3_2.rect_emb_val_of_index_zero t a (ixp t a).1 y))
theorem rd3 (A : (⟨S1x128, .f32⟩ : BufTy).Contents (Elt Ideal)) (t : Fin cfg3.N) (y : S1x128.Idx) : blk 3 t A y = A y :=
  congrArg A (funext fun a => Fin.ext (win3_3.rect_emb_val_of_index_zero t a (ixp t a).2.1 y))
theorem rd4 (A : (⟨S1x128, .f32⟩ : BufTy).Contents (Elt Ideal)) (t : Fin cfg3.N) (y : S1x128.Idx) : blk 4 t A y = A y :=
  congrArg A (funext fun a => Fin.ext (win3_4.rect_emb_val_of_index_zero t a (ixp t a).2.2.1 y))
theorem rd5 (A : (⟨S1x128, .f32⟩ : BufTy).Contents (Elt Ideal)) (t : Fin cfg3.N) (y : S1x128.Idx) : blk 5 t A y = A y :=
  congrArg A (funext fun a => Fin.ext (win3_5.rect_emb_val_of_index_zero t a (ixp t a).2.2.2.1 y))
theorem rd6 (A : (⟨S1x128, .f32⟩ : BufTy).Contents (Elt Ideal)) (t : Fin cfg3.N) (y : S1x128.Idx) : blk 6 t A y = A y :=
  congrArg A (funext fun a => Fin.ext (win3_6.rect_emb_val_of_index_zero t a (ixp t a).2.2.2.2.1 y))
theorem rd7 (A : (⟨S1x128, .f32⟩ : BufTy).Contents (Elt Ideal)) (t : Fin cfg3.N) (y : S1x128.Idx) : blk 7 t A y = A y :=
  congrArg A (funext fun a => Fin.ext (win3_7.rect_emb_val_of_index_zero t a (ixp t a).2.2.2.2.2.1 y))
theorem rd8 (A : (⟨S128x128, .f32⟩ : BufTy).Contents (Elt Ideal)) (t : Fin cfg3.N) (y : S128x128.Idx) : blk 8 t A y = A y :=
  congrArg A (funext fun a => Fin.ext (win3_8.rect_emb_val_of_index_zero t a (ixp t a).2.2.2.2.2.2.1 y))
theorem rd9 (A : (⟨S1x128, .f32⟩ : BufTy).Contents (Elt Ideal)) (t : Fin cfg3.N) (y : S1x128.Idx) : blk 9 t A y = A y :=
  congrArg A (funext fun a => Fin.ext (win3_9.rect_emb_val_of_index_zero t a (ixp t a).2.2.2.2.2.2.2 y))

theorem emb10 (t : Fin cfg3.N) (p : Fin 5000) (q : Fin 128) : ((cfg3.win 10).blk t).view.emb (ix2 p q) = ix2 (row t p) q :=
  Shape.idx_ext₂ ((win3_10.rect_emb_val t _ 0).trans (by rw [(ixr t).1]; rfl)) (win3_10.rect_emb_val_of_index_zero t 1 (ixr t).2.1 _)

-- Row r of the output lies in block r / 5000, so the ten blocks cover the array.
theorem cover (i : S50000x128.Idx) : ∃ t : Fin cfg3.N, (cfg3.win 10).flush t = true ∧ i ∈ ((cfg3.win 10).blk t).view.set := by
  have h := idx2_lt0 i
  let t : Fin cfg3.N := ⟨(i 0).val / 5000, by show (i 0).val / 5000 < 10; omega⟩
  have e : ((cfg3.win 10).blk t).view.emb (ix2 ⟨(i 0).val % 5000, Nat.mod_lt _ (by decide)⟩ (i 1)) = i :=
    (emb10 t _ _).trans (Shape.idx_ext₂ (by show (i 0).val / 5000 * 5000 + (i 0).val % 5000 = (i 0).val; omega) rfl)
  exact ⟨t, flush3_10 t, e ▸ ((cfg3.win 10).blk t).view.emb_mem_set _⟩

-- Block t of the output is block t of any array R that is, row by row, the row function of the ten input arrays: one statement for the three layers.
theorem stored (A0 A1 : (⟨S50000x128, .f32⟩ : BufTy).Contents (Elt Ideal)) (A2 : (⟨S128x128, .f32⟩ : BufTy).Contents (Elt Ideal)) (A3 A4 A5 A6 A7 : (⟨S1x128, .f32⟩ : BufTy).Contents (Elt Ideal))
    (A8 : (⟨S128x128, .f32⟩ : BufTy).Contents (Elt Ideal)) (A9 : (⟨S1x128, .f32⟩ : BufTy).Contents (Elt Ideal)) (R : (⟨S50000x128, .f32⟩ : BufTy).Contents (Elt Ideal))
    (hR : ∀ r q, R (ix2 r q) = MlpForm.node (fun j => A0 (ix2 r j)) (fun j => A1 (ix2 r j)) (fun j k => A2 (ix2 j k))
      (fun k => A3 (ix2 (0 : Fin 1) k)) (fun k => A6 (ix2 (0 : Fin 1) k)) (fun k => A4 (ix2 (0 : Fin 1) k)) (fun k => A7 (ix2 (0 : Fin 1) k))
      (fun k => A5 (ix2 (0 : Fin 1) k)) (fun k q => A8 (ix2 k q)) (fun q => A9 (ix2 (0 : Fin 1) q)) q) (t : Fin cfg3.N) :
    out3_10 (blk 0 t A0) (blk 1 t A1) (blk 2 t A2) (blk 3 t A3) (blk 4 t A4) (blk 5 t A5) (blk 6 t A6) (blk 7 t A7) (blk 8 t A8) (blk 9 t A9)
      = ((cfg3.win 10).blk t).view.read (Elt Ideal) R := by
  funext j
  obtain ⟨p, q, rfl⟩ : ∃ (p : Fin 5000) (q : Fin 128), j = ix2 p q := ⟨j 0, j 1, eq_ix2 j⟩
  show _ = R (((cfg3.win 10).blk t).view.emb (ix2 p q))
  rw [emb10, MlpPay.out_ix, hR]
  simp only [rd0, rd1, rd2, rd3, rd4, rd5, rd6, rd7, rd8, rd9]

variable (V : (c : Dev nD) → (b : Ref sig .tc) → Buf (Elt Ideal) ((c : Thread nD τ).loc b)) (c : Dev nD)

theorem val3 (x0 : (⟨Cert.ReferenceIdeal.S50000x11, .f32⟩ : BufTy).Contents (Elt Ideal)) (x1 : (⟨Cert.ReferenceIdeal.S2x800000, .i32⟩ : BufTy).Contents (Elt Ideal)) (x2 : (⟨Cert.ReferenceIdeal.S800000x14, .f32⟩ : BufTy).Contents (Elt Ideal)) (x4 : (⟨Cert.ReferenceIdeal.S128x11, .f32⟩ : BufTy).Contents (Elt Ideal)) (x5 : (⟨Cert.ReferenceIdeal.S128, .f32⟩ : BufTy).Contents (Elt Ideal)) (x6 : (⟨Cert.ReferenceIdeal.S128x14, .f32⟩ : BufTy).Contents (Elt Ideal)) (x7 : (⟨Cert.ReferenceIdeal.S128, .f32⟩ : BufTy).Contents (Elt Ideal)) (x8 : (⟨Cert.ReferenceIdeal.S3x128x128, .f32⟩ : BufTy).Contents (Elt Ideal)) (x9 x10 x11 x12 x13 : (⟨Cert.ReferenceIdeal.S3x128, .f32⟩ : BufTy).Contents (Elt Ideal)) (x14 : (⟨Cert.ReferenceIdeal.S3x128x128, .f32⟩ : BufTy).Contents (Elt Ideal)) (x15 : (⟨Cert.ReferenceIdeal.S3x128, .f32⟩ : BufTy).Contents (Elt Ideal))
    (hh : V c main_v8 = Cert.ReferenceIdeal.Read.val_main_v8 (F := Ideal) x0 x4 x5)
    (hagg : V c main_v20 = Cert.ReferenceIdeal.Read.val_main_v25 (F := Ideal) x0 x1 x2 x4 x5 x6 x7)
    (hw1 : V c main_v23 = Cert.ReferenceIdeal.Read.val_main_v29 (F := Ideal) x8)
    (hb1 : ∀ k : Fin 128, V c main_v29 (ix2 (0 : Fin 1) k) = Cert.ReferenceIdeal.Read.val_main_v32 (F := Ideal) x9 (ix1 k))
    (hgamma : ∀ k : Fin 128, V c main_v35 (ix2 (0 : Fin 1) k) = Cert.ReferenceIdeal.Read.val_main_v42 (F := Ideal) x10 (ix1 k))
    (hbeta : ∀ k : Fin 128, V c main_v38 (ix2 (0 : Fin 1) k) = Cert.ReferenceIdeal.Read.val_main_v53 (F := Ideal) x11 (ix1 k))
    (hmean : ∀ k : Fin 128, V c main_v41 (ix2 (0 : Fin 1) k) = Cert.ReferenceIdeal.Read.val_main_v37 (F := Ideal) x12 (ix1 k))
    (hvar : ∀ k : Fin 128, V c main_v44 (ix2 (0 : Fin 1) k) = Cert.ReferenceIdeal.Read.val_main_v44 (F := Ideal) x13 (ix1 k))
    (hw2 : V c main_v26 = Cert.ReferenceIdeal.Read.val_main_v60 (F := Ideal) x14)
    (hb2 : ∀ k : Fin 128, V c main_v32 (ix2 (0 : Fin 1) k) = Cert.ReferenceIdeal.Read.val_main_v63 (F := Ideal) x15 (ix1 k)) :
    (dat3 (F := Ideal) V c).arrAt 10 cfg3.N = Cert.ReferenceIdeal.Read.val_main_v68 (F := Ideal) x0 x1 x2 x4 x5 x6 x7 x8 x9 x10 x11 x12 x13 x14 x15 := by
  refine (dat3 (F := Ideal) V c).arrAt_eq_of_cover 10 _ (fun t _ => ?_) cover
  show (cfg3.win 10).cut (grid3.coords t) ((dat3 V c).after 10 t) = _
  rw [after3_10]
  exact stored (V c main_v8) (V c main_v20) (V c main_v23) (V c main_v29) (V c main_v35) (V c main_v38) (V c main_v41) (V c main_v44)
    (V c main_v26) (V c main_v32) _ (fun r q => by rw [MlpRef.node_ix]; simp only [hh, hagg, hw1, hb1, hgamma, hbeta, hmean, hvar, hw2, hb2]) t

end Cert.Proof.MlpValue

end
-- ==== Proof.Val.AlgL3.lean ====
import proofs.«428859_j12661563588730_1_alg».proof.Proof.Val.AlgL01
import proofs.«428859_j12661563588730_1_alg».proof.Proof.Val.AlgHost3
import proofs.«428859_j12661563588730_1_alg».proof.Proof.Val.MsgValue
import proofs.«428859_j12661563588730_1_alg».proof.Proof.Val.MlpValue

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.ReferenceIdeal.Read

variable (m : (ℓ : Loc nD τ sig) → Buf (Elt Ideal) ℓ) (c : Dev nD)

-- The message region finds the gathered rows and the edge embedding, and leaves the reference's messages.
theorem L2 : o5 m c = val_main_v22 (F := Ideal) (a0 m c) (a1 m c) (a2 m c) (a4 m c) (a5 m c) (a6 m c) (a7 m c) := by
  unfold o5
  rw [Cert.Proof.MsgValue.val2 (atRefs (N4 m)) c _ _ (host2_v16 (N3 m c) (N3_v8 m c) (E3 m c).v1)
    ((StableHlo.after_of_writes_sub hostOps2 _ hostOps2_writes (by decide)).trans (E3 m c).v9)]
  rfl

theorem E5 : Entry m c (N5 m c) := (E3 m c).step hostOps2 hostOps2_writes main_v17 (by decide) _

-- The update region finds the features, the summed messages and the layer's parameters, and leaves the reference's features after the layer.
theorem L3 : o7 m c = val_main_v68 (F := Ideal) (a0 m c) (a1 m c) (a2 m c) (a4 m c) (a5 m c) (a6 m c) (a7 m c) (a8 m c) (a9 m c) (a10 m c) (a11 m c) (a12 m c) (a13 m c) (a14 m c) (a15 m c) := by
  unfold o7
  exact Cert.Proof.MlpValue.val3 (atRefs (N6 m)) c _ _ _ _ _ _ _ _ _ _ _ _ _ _ _
    ((StableHlo.after_of_writes_sub hostOps3 _ hostOps3_writes (by decide)).trans
      ((step_other (N3 m c) hostOps2 hostOps2_writes main_v17 main_v8 (by decide) _).trans (N3_v8 m c)))
    (host3_v20 (N5 m c) ((Function.update_self _ _ _).trans (L2 m c)) (E5 m c).v3)
    (host3_v23 (N5 m c) ((E5 m c).arg _ (by decide))) (host3_v29 (N5 m c) ((E5 m c).arg _ (by decide)))
    (host3_v35 (N5 m c) ((E5 m c).arg _ (by decide))) (host3_v38 (N5 m c) ((E5 m c).arg _ (by decide)))
    (host3_v41 (N5 m c) ((E5 m c).arg _ (by decide))) (host3_v44 (N5 m c) ((E5 m c).arg _ (by decide)))
    (host3_v26 (N5 m c) ((E5 m c).arg _ (by decide))) (host3_v32 (N5 m c) ((E5 m c).arg _ (by decide)))

theorem E7 : Entry m c (N7 m c) := (E5 m c).step hostOps3 hostOps3_writes main_v45 (by decide) _

end Cert.Proof.Alg

end
-- ==== Proof.Val.AlgHost5.lean ====
import proofs.«428859_j12661563588730_1_alg».proof.Proof.Gen.KernelIdeal.Launch
import proofs.«428859_j12661563588730_1_alg».proof.Proof.RefRead
import proofs.«428859_j12661563588730_1_alg».proof.Proof.Val.AlgBase

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.ReferenceIdeal.Read

variable (W : Valuation τ sig (Elt Ideal))

-- The stretch before the message region gathers the node features' rows at the edges' source nodes.
theorem host4_v52 {h s} (hh : W main_v45 = h) (hs : W main_v1 = s) :
    StableHlo.after hostOps4 W main_v52 = gatherRows h s := by
  after_results; rw [hh, hs]; rfl

-- The stretch before the update region sums the messages into the rows of the edges' target nodes,
theorem host5_v56 {u t} (hu : W main_v53 = u) (ht : W main_v3 = t) :
    StableHlo.after hostOps5 W main_v56 = scatterRows u t := by
  after_results; rw [hu, ht]; rfl

-- and lays out the layer's slices of the stacked parameters: two transposed matrices and six rows.
theorem host5_v59 {x} (h : W main_arg8 = x) :
    StableHlo.after hostOps5 W main_v59 = val_main_v84 (F := Ideal) x := by
  after_results; rw [h]; rfl

theorem host5_v62 {x} (h : W main_arg14 = x) :
    StableHlo.after hostOps5 W main_v62 = val_main_v115 (F := Ideal) x := by
  after_results; rw [h]; rfl

theorem host5_v65 {x} (h : W main_arg9 = x) (k : Fin 128) :
    StableHlo.after hostOps5 W main_v65 (ix2 (0 : Fin 1) k) = val_main_v87 (F := Ideal) x (ix1 k) :=
  row_of_cast shapeCasts_S128_S1x128 (by after_results; rw [h]; rfl) k

theorem host5_v68 {x} (h : W main_arg15 = x) (k : Fin 128) :
    StableHlo.after hostOps5 W main_v68 (ix2 (0 : Fin 1) k) = val_main_v118 (F := Ideal) x (ix1 k) :=
  row_of_cast shapeCasts_S128_S1x128 (by after_results; rw [h]; rfl) k

theorem host5_v71 {x} (h : W main_arg10 = x) (k : Fin 128) :
    StableHlo.after hostOps5 W main_v71 (ix2 (0 : Fin 1) k) = val_main_v97 (F := Ideal) x (ix1 k) :=
  row_of_cast shapeCasts_S128_S1x128 (by after_results; rw [h]; rfl) k

theorem host5_v74 {x} (h : W main_arg11 = x) (k : Fin 128) :
    StableHlo.after hostOps5 W main_v74 (ix2 (0 : Fin 1) k) = val_main_v108 (F := Ideal) x (ix1 k) :=
  row_of_cast shapeCasts_S128_S1x128 (by after_results; rw [h]; rfl) k

theorem host5_v77 {x} (h : W main_arg12 = x) (k : Fin 128) :
    StableHlo.after hostOps5 W main_v77 (ix2 (0 : Fin 1) k) = val_main_v92 (F := Ideal) x (ix1 k) :=
  row_of_cast shapeCasts_S128_S1x128 (by after_results; rw [h]; rfl) k

theorem host5_v80 {x} (h : W main_arg13 = x) (k : Fin 128) :
    StableHlo.after hostOps5 W main_v80 (ix2 (0 : Fin 1) k) = val_main_v99 (F := Ideal) x (ix1 k) :=
  row_of_cast shapeCasts_S128_S1x128 (by after_results; rw [h]; rfl) k

end Cert.Proof.Alg

end
-- ==== Proof.Val.MsgValue4.lean ====
import proofs.«428859_j12661563588730_1_alg».proof.Proof.KI.Reg4
import proofs.«428859_j12661563588730_1_alg».proof.Proof.Val.MsgValue

noncomputable section

namespace Cert.Proof.MsgValue4

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

-- This region's body, index maps and reference stage unfold to the first message region's: its lemmas apply as they stand.
theorem val4 (c : Dev nD) (x e : (⟨Cert.ReferenceIdeal.S800000x128, .f32⟩ : BufTy).Contents (Elt Ideal))
    (hx : V c Cert.KernelIdeal.main_v52 = x) (he : V c Cert.KernelIdeal.main_v9 = e) :
    (Cert.KernelIdeal.Hand.dat4 (F := Ideal) V c).arrAt 2 Cert.KernelIdeal.cfg4.N
      = maximumf (F := Ideal) (φ := .f32) (addf (F := Ideal) (φ := .f32) x e) (Cert.ReferenceIdeal.Read.val_main_call3_v0 (F := Ideal)) := by
  subst hx; subst he
  refine Eq.trans ?_ (MsgValue.G_ref _ _)
  refine (dat4 (F := Ideal) V c).arrAt_eq_of_cover 2 _ (fun t _ => ?_) fun i => ?_
  · show (cfg4.win 2).cut (grid4.coords t) ((dat4 (F := Ideal) V c).after 2 t) = _
    rw [after4_2]
    exact MsgValue.out_eq _ _
  · obtain ⟨t, h⟩ := MsgValue.cover_rect i
    exact ⟨t, flush4_2 t, Tile.mem_whole_slice main_v53 h⟩

end Cert.Proof.MsgValue4

end
-- ==== Proof.Val.MlpValue5.lean ====
import proofs.«428859_j12661563588730_1_alg».proof.Proof.KI.Reg5
import proofs.«428859_j12661563588730_1_alg».proof.Proof.Val.MlpValue

noncomputable section

namespace Cert.Proof.MlpValue5

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem val5 (x0 : (⟨Cert.ReferenceIdeal.S50000x11, .f32⟩ : BufTy).Contents (Elt Ideal)) (x1 : (⟨Cert.ReferenceIdeal.S2x800000, .i32⟩ : BufTy).Contents (Elt Ideal)) (x2 : (⟨Cert.ReferenceIdeal.S800000x14, .f32⟩ : BufTy).Contents (Elt Ideal)) (x4 : (⟨Cert.ReferenceIdeal.S128x11, .f32⟩ : BufTy).Contents (Elt Ideal)) (x5 : (⟨Cert.ReferenceIdeal.S128, .f32⟩ : BufTy).Contents (Elt Ideal)) (x6 : (⟨Cert.ReferenceIdeal.S128x14, .f32⟩ : BufTy).Contents (Elt Ideal)) (x7 : (⟨Cert.ReferenceIdeal.S128, .f32⟩ : BufTy).Contents (Elt Ideal)) (x8 : (⟨Cert.ReferenceIdeal.S3x128x128, .f32⟩ : BufTy).Contents (Elt Ideal)) (x9 x10 x11 x12 x13 : (⟨Cert.ReferenceIdeal.S3x128, .f32⟩ : BufTy).Contents (Elt Ideal)) (x14 : (⟨Cert.ReferenceIdeal.S3x128x128, .f32⟩ : BufTy).Contents (Elt Ideal)) (x15 : (⟨Cert.ReferenceIdeal.S3x128, .f32⟩ : BufTy).Contents (Elt Ideal))
    (hh : V c main_v45 = Cert.ReferenceIdeal.Read.val_main_v68 (F := Ideal) x0 x1 x2 x4 x5 x6 x7 x8 x9 x10 x11 x12 x13 x14 x15)
    (hagg : V c main_v56 = Cert.ReferenceIdeal.Read.val_main_v80 (F := Ideal) x0 x1 x2 x4 x5 x6 x7 x8 x9 x10 x11 x12 x13 x14 x15)
    (hw1 : V c main_v59 = Cert.ReferenceIdeal.Read.val_main_v84 (F := Ideal) x8)
    (hb1 : ∀ k : Fin 128, V c main_v65 (ix2 (0 : Fin 1) k) = Cert.ReferenceIdeal.Read.val_main_v87 (F := Ideal) x9 (ix1 k))
    (hgamma : ∀ k : Fin 128, V c main_v71 (ix2 (0 : Fin 1) k) = Cert.ReferenceIdeal.Read.val_main_v97 (F := Ideal) x10 (ix1 k))
    (hbeta : ∀ k : Fin 128, V c main_v74 (ix2 (0 : Fin 1) k) = Cert.ReferenceIdeal.Read.val_main_v108 (F := Ideal) x11 (ix1 k))
    (hmean : ∀ k : Fin 128, V c main_v77 (ix2 (0 : Fin 1) k) = Cert.ReferenceIdeal.Read.val_main_v92 (F := Ideal) x12 (ix1 k))
    (hvar : ∀ k : Fin 128, V c main_v80 (ix2 (0 : Fin 1) k) = Cert.ReferenceIdeal.Read.val_main_v99 (F := Ideal) x13 (ix1 k))
    (hw2 : V c main_v62 = Cert.ReferenceIdeal.Read.val_main_v115 (F := Ideal) x14)
    (hb2 : ∀ k : Fin 128, V c main_v68 (ix2 (0 : Fin 1) k) = Cert.ReferenceIdeal.Read.val_main_v118 (F := Ideal) x15 (ix1 k)) :
    (dat5 (F := Ideal) V c).arrAt 10 cfg5.N = Cert.ReferenceIdeal.Read.val_main_v123 (F := Ideal) x0 x1 x2 x4 x5 x6 x7 x8 x9 x10 x11 x12 x13 x14 x15 := by
  refine (dat5 (F := Ideal) V c).arrAt_eq_of_cover 10 _ (fun t _ => ?_) MlpValue.cover
  show (cfg5.win 10).cut (grid5.coords t) ((dat5 V c).after 10 t) = _
  rw [after5_10]
  exact MlpValue.stored (V c main_v45) (V c main_v56) (V c main_v59) (V c main_v65) (V c main_v71) (V c main_v74) (V c main_v77) (V c main_v80)
    (V c main_v62) (V c main_v68) _ (fun r q => by rw [MlpRef.node_ix5]; simp only [hh, hagg, hw1, hb1, hgamma, hbeta, hmean, hvar, hw2, hb2]) t

end Cert.Proof.MlpValue5

end
-- ==== Proof.Val.AlgL5.lean ====
import proofs.«428859_j12661563588730_1_alg».proof.Proof.Val.AlgL3
import proofs.«428859_j12661563588730_1_alg».proof.Proof.Val.AlgHost5
import proofs.«428859_j12661563588730_1_alg».proof.Proof.Val.MsgValue4
import proofs.«428859_j12661563588730_1_alg».proof.Proof.Val.MlpValue5

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.ReferenceIdeal.Read

variable (m : (ℓ : Loc nD τ sig) → Buf (Elt Ideal) ℓ) (c : Dev nD)

-- The message region finds the gathered rows and the edge embedding, and leaves the reference's messages.
theorem L4 : o9 m c = val_main_v77 (F := Ideal) (a0 m c) (a1 m c) (a2 m c) (a4 m c) (a5 m c) (a6 m c) (a7 m c) (a8 m c) (a9 m c) (a10 m c) (a11 m c) (a12 m c) (a13 m c) (a14 m c) (a15 m c) := by
  unfold o9
  rw [Cert.Proof.MsgValue4.val4 (atRefs (N8 m)) c _ _ (host4_v52 (N7 m c) ((Function.update_self _ _ _).trans (L3 m c)) (E7 m c).v1)
    ((StableHlo.after_of_writes_sub hostOps4 _ hostOps4_writes (by decide)).trans (E7 m c).v9)]
  rfl

theorem E9 : Entry m c (N9 m c) := (E7 m c).step hostOps4 hostOps4_writes main_v53 (by decide) _

-- The update region finds the features, the summed messages and the layer's parameters, and leaves the reference's features after the layer.
theorem L5 : o11 m c = val_main_v123 (F := Ideal) (a0 m c) (a1 m c) (a2 m c) (a4 m c) (a5 m c) (a6 m c) (a7 m c) (a8 m c) (a9 m c) (a10 m c) (a11 m c) (a12 m c) (a13 m c) (a14 m c) (a15 m c) := by
  unfold o11
  exact Cert.Proof.MlpValue5.val5 (atRefs (N10 m)) c _ _ _ _ _ _ _ _ _ _ _ _ _ _ _
    ((StableHlo.after_of_writes_sub hostOps5 _ hostOps5_writes (by decide)).trans
      ((step_other (N7 m c) hostOps4 hostOps4_writes main_v53 main_v45 (by decide) _).trans ((Function.update_self _ _ _).trans (L3 m c))))
    (host5_v56 (N9 m c) ((Function.update_self _ _ _).trans (L4 m c)) (E9 m c).v3)
    (host5_v59 (N9 m c) ((E9 m c).arg _ (by decide))) (host5_v65 (N9 m c) ((E9 m c).arg _ (by decide)))
    (host5_v71 (N9 m c) ((E9 m c).arg _ (by decide))) (host5_v74 (N9 m c) ((E9 m c).arg _ (by decide)))
    (host5_v77 (N9 m c) ((E9 m c).arg _ (by decide))) (host5_v80 (N9 m c) ((E9 m c).arg _ (by decide)))
    (host5_v62 (N9 m c) ((E9 m c).arg _ (by decide))) (host5_v68 (N9 m c) ((E9 m c).arg _ (by decide)))

theorem E11 : Entry m c (N11 m c) := (E9 m c).step hostOps5 hostOps5_writes main_v81 (by decide) _

end Cert.Proof.Alg

end
-- ==== Proof.Val.AlgHost7.lean ====
import proofs.«428859_j12661563588730_1_alg».proof.Proof.Gen.KernelIdeal.Launch
import proofs.«428859_j12661563588730_1_alg».proof.Proof.RefRead
import proofs.«428859_j12661563588730_1_alg».proof.Proof.Val.AlgBase

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.ReferenceIdeal.Read

variable (W : Valuation τ sig (Elt Ideal))

-- The stretch before the message region gathers the node features' rows at the edges' source nodes.
theorem host6_v88 {h s} (hh : W main_v81 = h) (hs : W main_v1 = s) :
    StableHlo.after hostOps6 W main_v88 = gatherRows h s := by
  after_results; rw [hh, hs]; rfl

-- The stretch before the update region sums the messages into the rows of the edges' target nodes,
theorem host7_v92 {u t} (hu : W main_v89 = u) (ht : W main_v3 = t) :
    StableHlo.after hostOps7 W main_v92 = scatterRows u t := by
  after_results; rw [hu, ht]; rfl

-- and lays out the layer's slices of the stacked parameters: two transposed matrices and six rows.
theorem host7_v95 {x} (h : W main_arg8 = x) :
    StableHlo.after hostOps7 W main_v95 = val_main_v139 (F := Ideal) x := by
  after_results; rw [h]; rfl

theorem host7_v98 {x} (h : W main_arg14 = x) :
    StableHlo.after hostOps7 W main_v98 = val_main_v170 (F := Ideal) x := by
  after_results; rw [h]; rfl

theorem host7_v101 {x} (h : W main_arg9 = x) (k : Fin 128) :
    StableHlo.after hostOps7 W main_v101 (ix2 (0 : Fin 1) k) = val_main_v142 (F := Ideal) x (ix1 k) :=
  row_of_cast shapeCasts_S128_S1x128 (by after_results; rw [h]; rfl) k

theorem host7_v104 {x} (h : W main_arg15 = x) (k : Fin 128) :
    StableHlo.after hostOps7 W main_v104 (ix2 (0 : Fin 1) k) = val_main_v173 (F := Ideal) x (ix1 k) :=
  row_of_cast shapeCasts_S128_S1x128 (by after_results; rw [h]; rfl) k

theorem host7_v107 {x} (h : W main_arg10 = x) (k : Fin 128) :
    StableHlo.after hostOps7 W main_v107 (ix2 (0 : Fin 1) k) = val_main_v152 (F := Ideal) x (ix1 k) :=
  row_of_cast shapeCasts_S128_S1x128 (by after_results; rw [h]; rfl) k

theorem host7_v110 {x} (h : W main_arg11 = x) (k : Fin 128) :
    StableHlo.after hostOps7 W main_v110 (ix2 (0 : Fin 1) k) = val_main_v163 (F := Ideal) x (ix1 k) :=
  row_of_cast shapeCasts_S128_S1x128 (by after_results; rw [h]; rfl) k

theorem host7_v113 {x} (h : W main_arg12 = x) (k : Fin 128) :
    StableHlo.after hostOps7 W main_v113 (ix2 (0 : Fin 1) k) = val_main_v147 (F := Ideal) x (ix1 k) :=
  row_of_cast shapeCasts_S128_S1x128 (by after_results; rw [h]; rfl) k

theorem host7_v116 {x} (h : W main_arg13 = x) (k : Fin 128) :
    StableHlo.after hostOps7 W main_v116 (ix2 (0 : Fin 1) k) = val_main_v154 (F := Ideal) x (ix1 k) :=
  row_of_cast shapeCasts_S128_S1x128 (by after_results; rw [h]; rfl) k

end Cert.Proof.Alg

end
-- ==== Proof.Val.MsgValue6.lean ====
import proofs.«428859_j12661563588730_1_alg».proof.Proof.KI.Reg6
import proofs.«428859_j12661563588730_1_alg».proof.Proof.Val.MsgValue

noncomputable section

namespace Cert.Proof.MsgValue6

open Cert.KernelIdeal Cert.KernelIdeal.Gen Cert.KernelIdeal.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

-- This region's body, index maps and reference stage unfold to the first message region's: its lemmas apply as they stand.
theorem val6 (c : Dev nD) (x e : (⟨Cert.ReferenceIdeal.S800000x128, .f32⟩ : BufTy).Contents (Elt Ideal))
    (hx : V c Cert.KernelIdeal.main_v88 = x) (he : V c Cert.KernelIdeal.main_v9 = e) :
    (Cert.KernelIdeal.Hand.dat6 (F := Ideal) V c).arrAt 2 Cert.KernelIdeal.cfg6.N
      = maximumf (F := Ideal) (φ := .f32) (addf (F := Ideal) (φ := .f32) x e) (Cert.ReferenceIdeal.Read.val_main_call6_v0 (F := Ideal)) := by
  subst hx; subst he
  refine Eq.trans ?_ (MsgValue.G_ref _ _)
  refine (dat6 (F := Ideal) V c).arrAt_eq_of_cover 2 _ (fun t _ => ?_) fun i => ?_
  · show (cfg6.win 2).cut (grid6.coords t) ((dat6 (F := Ideal) V c).after 2 t) = _
    rw [after6_2]
    exact MsgValue.out_eq _ _
  · obtain ⟨t, h⟩ := MsgValue.cover_rect i
    exact ⟨t, flush6_2 t, Tile.mem_whole_slice main_v89 h⟩

end Cert.Proof.MsgValue6

end
-- ==== Proof.Val.MlpValue7.lean ====
import proofs.«428859_j12661563588730_1_alg».proof.Proof.KI.Reg7
import proofs.«428859_j12661563588730_1_alg».proof.Proof.Val.MlpValue

noncomputable section

namespace Cert.Proof.MlpValue7

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

theorem val7 (x0 : (⟨Cert.ReferenceIdeal.S50000x11, .f32⟩ : BufTy).Contents (Elt Ideal)) (x1 : (⟨Cert.ReferenceIdeal.S2x800000, .i32⟩ : BufTy).Contents (Elt Ideal)) (x2 : (⟨Cert.ReferenceIdeal.S800000x14, .f32⟩ : BufTy).Contents (Elt Ideal)) (x4 : (⟨Cert.ReferenceIdeal.S128x11, .f32⟩ : BufTy).Contents (Elt Ideal)) (x5 : (⟨Cert.ReferenceIdeal.S128, .f32⟩ : BufTy).Contents (Elt Ideal)) (x6 : (⟨Cert.ReferenceIdeal.S128x14, .f32⟩ : BufTy).Contents (Elt Ideal)) (x7 : (⟨Cert.ReferenceIdeal.S128, .f32⟩ : BufTy).Contents (Elt Ideal)) (x8 : (⟨Cert.ReferenceIdeal.S3x128x128, .f32⟩ : BufTy).Contents (Elt Ideal)) (x9 x10 x11 x12 x13 : (⟨Cert.ReferenceIdeal.S3x128, .f32⟩ : BufTy).Contents (Elt Ideal)) (x14 : (⟨Cert.ReferenceIdeal.S3x128x128, .f32⟩ : BufTy).Contents (Elt Ideal)) (x15 : (⟨Cert.ReferenceIdeal.S3x128, .f32⟩ : BufTy).Contents (Elt Ideal))
    (hh : V c main_v81 = Cert.ReferenceIdeal.Read.val_main_v123 (F := Ideal) x0 x1 x2 x4 x5 x6 x7 x8 x9 x10 x11 x12 x13 x14 x15)
    (hagg : V c main_v92 = Cert.ReferenceIdeal.Read.val_main_v135 (F := Ideal) x0 x1 x2 x4 x5 x6 x7 x8 x9 x10 x11 x12 x13 x14 x15)
    (hw1 : V c main_v95 = Cert.ReferenceIdeal.Read.val_main_v139 (F := Ideal) x8)
    (hb1 : ∀ k : Fin 128, V c main_v101 (ix2 (0 : Fin 1) k) = Cert.ReferenceIdeal.Read.val_main_v142 (F := Ideal) x9 (ix1 k))
    (hgamma : ∀ k : Fin 128, V c main_v107 (ix2 (0 : Fin 1) k) = Cert.ReferenceIdeal.Read.val_main_v152 (F := Ideal) x10 (ix1 k))
    (hbeta : ∀ k : Fin 128, V c main_v110 (ix2 (0 : Fin 1) k) = Cert.ReferenceIdeal.Read.val_main_v163 (F := Ideal) x11 (ix1 k))
    (hmean : ∀ k : Fin 128, V c main_v113 (ix2 (0 : Fin 1) k) = Cert.ReferenceIdeal.Read.val_main_v147 (F := Ideal) x12 (ix1 k))
    (hvar : ∀ k : Fin 128, V c main_v116 (ix2 (0 : Fin 1) k) = Cert.ReferenceIdeal.Read.val_main_v154 (F := Ideal) x13 (ix1 k))
    (hw2 : V c main_v98 = Cert.ReferenceIdeal.Read.val_main_v170 (F := Ideal) x14)
    (hb2 : ∀ k : Fin 128, V c main_v104 (ix2 (0 : Fin 1) k) = Cert.ReferenceIdeal.Read.val_main_v173 (F := Ideal) x15 (ix1 k)) :
    (dat7 (F := Ideal) V c).arrAt 10 cfg7.N = Cert.ReferenceIdeal.Read.val_main_v178 (F := Ideal) x0 x1 x2 x4 x5 x6 x7 x8 x9 x10 x11 x12 x13 x14 x15 := by
  refine (dat7 (F := Ideal) V c).arrAt_eq_of_cover 10 _ (fun t _ => ?_) MlpValue.cover
  show (cfg7.win 10).cut (grid7.coords t) ((dat7 V c).after 10 t) = _
  rw [after7_10]
  exact MlpValue.stored (V c main_v81) (V c main_v92) (V c main_v95) (V c main_v101) (V c main_v107) (V c main_v110) (V c main_v113) (V c main_v116)
    (V c main_v98) (V c main_v104) _ (fun r q => by rw [MlpRef.node_ix7]; simp only [hh, hagg, hw1, hb1, hgamma, hbeta, hmean, hvar, hw2, hb2]) t

end Cert.Proof.MlpValue7

end
-- ==== Proof.Val.AlgL7.lean ====
import proofs.«428859_j12661563588730_1_alg».proof.Proof.Val.AlgL5
import proofs.«428859_j12661563588730_1_alg».proof.Proof.Val.AlgHost7
import proofs.«428859_j12661563588730_1_alg».proof.Proof.Val.MsgValue6
import proofs.«428859_j12661563588730_1_alg».proof.Proof.Val.MlpValue7

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.ReferenceIdeal.Read

variable (m : (ℓ : Loc nD τ sig) → Buf (Elt Ideal) ℓ) (c : Dev nD)

-- The message region finds the gathered rows and the edge embedding, and leaves the reference's messages.
theorem L6 : o13 m c = val_main_v132 (F := Ideal) (a0 m c) (a1 m c) (a2 m c) (a4 m c) (a5 m c) (a6 m c) (a7 m c) (a8 m c) (a9 m c) (a10 m c) (a11 m c) (a12 m c) (a13 m c) (a14 m c) (a15 m c) := by
  unfold o13
  rw [Cert.Proof.MsgValue6.val6 (atRefs (N12 m)) c _ _ (host6_v88 (N11 m c) ((Function.update_self _ _ _).trans (L5 m c)) (E11 m c).v1)
    ((StableHlo.after_of_writes_sub hostOps6 _ hostOps6_writes (by decide)).trans (E11 m c).v9)]
  rfl

theorem E13 : Entry m c (N13 m c) := (E11 m c).step hostOps6 hostOps6_writes main_v89 (by decide) _

-- The update region finds the features, the summed messages and the layer's parameters, and leaves the reference's features after the layer.
theorem L7 : o15 m c = val_main_v178 (F := Ideal) (a0 m c) (a1 m c) (a2 m c) (a4 m c) (a5 m c) (a6 m c) (a7 m c) (a8 m c) (a9 m c) (a10 m c) (a11 m c) (a12 m c) (a13 m c) (a14 m c) (a15 m c) := by
  unfold o15
  exact Cert.Proof.MlpValue7.val7 (atRefs (N14 m)) c _ _ _ _ _ _ _ _ _ _ _ _ _ _ _
    ((StableHlo.after_of_writes_sub hostOps7 _ hostOps7_writes (by decide)).trans
      ((step_other (N11 m c) hostOps6 hostOps6_writes main_v89 main_v81 (by decide) _).trans ((Function.update_self _ _ _).trans (L5 m c))))
    (host7_v92 (N13 m c) ((Function.update_self _ _ _).trans (L6 m c)) (E13 m c).v3)
    (host7_v95 (N13 m c) ((E13 m c).arg _ (by decide))) (host7_v101 (N13 m c) ((E13 m c).arg _ (by decide)))
    (host7_v107 (N13 m c) ((E13 m c).arg _ (by decide))) (host7_v110 (N13 m c) ((E13 m c).arg _ (by decide)))
    (host7_v113 (N13 m c) ((E13 m c).arg _ (by decide))) (host7_v116 (N13 m c) ((E13 m c).arg _ (by decide)))
    (host7_v98 (N13 m c) ((E13 m c).arg _ (by decide))) (host7_v104 (N13 m c) ((E13 m c).arg _ (by decide)))

theorem E15 : Entry m c (N15 m c) := (E13 m c).step hostOps7 hostOps7_writes main_v117 (by decide) _

end Cert.Proof.Alg

end
-- ==== Proof.Val.AlgHost.lean ====
import proofs.«428859_j12661563588730_1_alg».proof.Proof.Gen.KernelIdeal.Regions
import proofs.«428859_j12661563588730_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.Proof.Alg

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F] (W : Valuation τ sig (Elt F))

-- The stretch before the pooling region reshapes the graph assignment to a column and writes nothing else the region reads.
theorem host8_v118 (n : Fin 50000) :
    (StableHlo.after hostOps8 W main_v118 : S50000x1.Idx → Elt F .i32) (ix2 n (0 : Fin 1))
      = (W main_arg3 : S50000.Idx → Elt F .i32) (ix1 n) := by
  have e : (StableHlo.after hostOps8 W main_v118 : S50000x1.Idx → Elt F .i32)
      = shapeCast S50000x1 (W main_arg3 : S50000.Idx → Elt F .i32) shapeCasts_S50000_S50000x1 := by
    after_results; rfl
  rw [e]
  exact shapeCast_apply _ shapeCasts_S50000_S50000x1 (ix2 n (0 : Fin 1)) (ix1 n) (by
    rw [Shape.rowMajor_val_two, Shape.rowMajor_val_one]; show n.val = n.val * 1 + 0; omega)

theorem host8_v117 : StableHlo.after hostOps8 W main_v117 = W main_v117 :=
  StableHlo.after_of_writes_sub hostOps8 _ hostOps8_writes (by decide)

-- The last stretch divides the pooled sums by the graphs' node counts and applies the output layer: the reference's last operations.
theorem host9_v133 {p x3 x16 x17} (hp : W main_v119 = p) (h3 : W main_arg3 = x3) (h16 : W main_arg16 = x16) (h17 : W main_arg17 = x17) :
    (StableHlo.after hostOps9 W main_v133 : S64x128.Idx → Elt F .f32) = addf (F := F) (φ := .f32)
      (Host.dotGeneral (F := F) (φ₁ := .f32) (φ₂ := .f32) Cert.ReferenceIdeal.dot_S64x128_S128x128_S64x128_1_0_0_1_n_n none
        (Host.divf (F := F) (φ := .f32) p (Cert.ReferenceIdeal.Read.val_main_v189 (F := F) x3)) (Cert.ReferenceIdeal.Read.val_main_v191 (F := F) x16))
      (Cert.ReferenceIdeal.Read.val_main_v194 (F := F) x17) := by
  subst hp h3 h16 h17
  after_results_simp
  unfold Cert.ReferenceIdeal.Read.val_main_v189 Cert.ReferenceIdeal.Read.val_main_v188 Cert.ReferenceIdeal.Read.val_main_v187 Cert.ReferenceIdeal.Read.val_main_v186 Cert.ReferenceIdeal.Read.val_main_cst_13
    Cert.ReferenceIdeal.Read.val_main_v182 Cert.ReferenceIdeal.Read.val_main_v181 Cert.ReferenceIdeal.Read.val_main_v180 Cert.ReferenceIdeal.Read.val_main_v179 Cert.ReferenceIdeal.Read.val_main_cst_10 Cert.ReferenceIdeal.Read.val_main_cst_11
    Cert.ReferenceIdeal.Read.val_main_v191 Cert.ReferenceIdeal.Read.val_main_v194 Cert.ReferenceIdeal.Read.val_main_v193
  rfl

end Cert.Proof.Alg

end
-- ==== Proof.Val.PoolSum.lean ====
import Idealize.ShloMosaic.PureOps.Ideal
import Idealize.ShloMosaic.Lib.ValueIdx

namespace Cert.Proof.PoolValue

open scoped BigOperators

/-- In the extended reals `1 * x = x` and `0 * x = 0` for every `x`, so nothing is asked of `f`. -/
theorem sum_indicator_mul {ι : Type*} [Fintype ι] (p : ι → Prop) [DecidablePred p] (f : ι → EReal) :
    ∑ n, (if p n then (1 : EReal) else 0) * f n = ∑ n ∈ Finset.univ.filter p, f n := by
  rw [Finset.sum_filter]
  exact Finset.sum_congr rfl fun n _ => boole_mul _ _

/-- The 50000 rows are 10 blocks of 5000: row `r` of block `t` is row `r + 5000 * t`. -/
def rowEquiv : Fin 10 × Fin 5000 ≃ Fin 50000 := finProdFinEquiv

abbrev blockRow (t : Fin 10) (r : Fin 5000) : Fin 50000 := rowEquiv (t, r)

theorem sum_rows_eq_sum_blocks {M : Type*} [AddCommMonoid M] (f : Fin 50000 → M) :
    ∑ n, f n = ∑ t : Fin 10, ∑ r : Fin 5000, f (blockRow t r) := by
  rw [← Equiv.sum_comp rowEquiv f, Fintype.sum_prod_type]

end Cert.Proof.PoolValue
-- ==== Proof.Val.PoolPay.lean ====
import proofs.«428859_j12661563588730_1_alg».proof.Proof.Gen.KernelIdeal.Skeleton
import Idealize.ShloMosaic.PureOps.Ideal.Laws
import Idealize.ShloMosaic.Lib.ValueIdx
import Idealize.ShloMosaic.Lib.Pipeline.Value

namespace Cert.Proof.PoolValue

open scoped BigOperators
open Cert.KernelIdeal Cert.KernelIdeal.Gen Idealize.ShloMosaic Idealize.ShloMosaic.ValueIdx

theorem select_cmpi_eq {α : Type} {w : Nat} (a b : BitVec w) (x y : α) :
    Scalar.select (IntOp.cmpi .eq a b) x y = if a = b then x else y := by
  unfold Scalar.select IntOp.cmpi
  by_cases h : a = b
  · subst h; simp
  · have hb : (a == b) = false := beq_eq_false_iff_ne.mpr h
    simp [hb, h]

theorem k8_pay1_apply (j : S64x128.Idx) : k8_pay1 (F := Ideal) j = 0 := by
  unfold k8_pay1
  rw [shapeCast_self]
  exact Ideal.ofBits_zero_f32

theorem lhs8_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide),
    dif_pos (show (1 : Fin S5000x64.rank) ∈ dot_S5000x64_S5000x128_S64x128_0_0_1_1_n_n.lhsNonContracting by decide)]
  rfl

theorem rhs8_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide),
    dif_pos (show (1 : Fin S5000x128.rank) ∈ dot_S5000x64_S5000x128_S64x128_0_0_1_1_n_n.rhsNonContracting by decide)]
  rfl

theorem lhsIdx8 (g : Fin 64) (col : Fin 128) (r : Fin 5000) :
    dot_S5000x64_S5000x128_S64x128_0_0_1_1_n_n.lhsIdx (ix2 g col) ((contrEquiv1 dot_S5000x64_S5000x128_S64x128_0_0_1_1_n_n 5000 rfl rfl).symm r) = ix2 r g := by
  have hk := contrEquiv1_symm_val dot_S5000x64_S5000x128_S64x128_0_0_1_1_n_n 5000 rfl rfl r
  funext a
  refine Fin.ext ?_
  match a with
  | ⟨0, _⟩ => exact (dot_S5000x64_S5000x128_S64x128_0_0_1_1_n_n.lhsIdx_val_of_single rfl _ _).trans hk
  | ⟨1, _⟩ => exact lhs8_1 _ _

theorem rhsIdx8 (g : Fin 64) (col : Fin 128) (r : Fin 5000) :
    dot_S5000x64_S5000x128_S64x128_0_0_1_1_n_n.rhsIdx (ix2 g col) ((contrEquiv1 dot_S5000x64_S5000x128_S64x128_0_0_1_1_n_n 5000 rfl rfl).symm r) = ix2 r col := by
  have hk := contrEquiv1_symm_val dot_S5000x64_S5000x128_S64x128_0_0_1_1_n_n 5000 rfl rfl r
  funext a
  refine Fin.ext ?_
  match a with
  | ⟨0, _⟩ => exact (dot_S5000x64_S5000x128_S64x128_0_0_1_1_n_n.rhsIdx_val_of_single rfl _ _).trans hk
  | ⟨1, _⟩ => exact rhs8_1 _ _

theorem onehot8_apply (v6 : Vec Ideal S5000x1 .i32) (r : Fin 5000) (g : Fin 64) :
    (truncf .bf16
        (select
          (cmpi CmpIPredicate.eq
            (broadcastTo S5000x64 (shapeCast S5000x1 v6 shapeCasts_S5000x1_S5000x1) broadcasts_S5000x1_S5000x64)
            (iota Kind.tc S5000x64 32 [1] iota_S5000x64_d1_w32))
          (broadcast S5000x64 (FloatOps.ofBits (F := Ideal) FTy.f32 0x3F800000#32))
          (broadcast S5000x64 (FloatOps.ofBits (F := Ideal) FTy.f32 0x00000000#32)))
        bitsLt_bf16_f32 : FVec Ideal S5000x64 .bf16) (ix2 r g)
      = if v6 (ix2 r (0 : Fin 1)) = BitVec.ofNat 32 g.val then (1 : EReal) else 0 := by
  rw [shapeCast_self, truncf_apply, select_apply]
  show Scalar.select (IntOp.cmpi .eq _ _) _ _ = _
  rw [select_cmpi_eq, broadcast_apply, broadcast_apply, iota_single_apply,
    broadcastTo_apply v6 broadcasts_S5000x1_S5000x64 (ix2 r g) (ix2 r (0 : Fin 1)) (fun a => match a with
      | ⟨0, _⟩ => by show r.val = if (5000 : Nat) = 1 then 0 else r.val; rw [if_neg (by decide)]
      | ⟨1, _⟩ => by show (0 : Nat) = if (1 : Nat) = 1 then 0 else g.val; rw [if_pos rfl])]
  show (if v6 (ix2 r (0 : Fin 1)) = BitVec.ofNat 32 g.val then Ideal.ofBits .f32 0x3F800000#32 else Ideal.ofBits .f32 0x00000000#32) = _
  rw [Ideal.ofBits_zero_f32, show Ideal.ofBits .f32 0x3F800000#32 = 1 from IdealRules.sign_bit.ideal_onePat .f32]

/-- The product's element at `(g, col)` is the sum over the rows `r` of the one-hot entry `(r, g)` times the feature `(r, col)`. -/
theorem k8_pay2_apply (v3 : Vec Ideal S5000x128 .f32) (v6 : Vec Ideal S5000x1 .i32) (v15 : Vec Ideal S64x128 .f32)
    (g : Fin 64) (col : Fin 128) :
    k8_pay2 (F := Ideal) v3 v6 v15 (ix2 g col)
      = v15 (ix2 g col) + ∑ r : Fin 5000, (if v6 (ix2 r (0 : Fin 1)) = BitVec.ofNat 32 g.val then (1 : EReal) else 0) * v3 (ix2 r col) := by
  unfold k8_pay2
  rw [shapeCast_self, addf_apply]
  simp only [matmul]
  rw [Ideal.matmul_constant_zero_apply, ← Equiv.sum_comp (contrEquiv1 dot_S5000x64_S5000x128_S64x128_0_0_1_1_n_n 5000 rfl rfl).symm]
  refine congrArg (v15 (ix2 g col) + ·) (Finset.sum_congr rfl fun r _ => ?_)
  rw [lhsIdx8, rhsIdx8, onehot8_apply, truncf_apply, shapeCast_self]

end Cert.Proof.PoolValue
-- ==== Proof.Val.PoolRef.lean ====
import proofs.«428859_j12661563588730_1_alg».proof.Proof.Gen.ReferenceIdeal
import Idealize.ShloMosaic.PureOps.Ideal.Laws
import Idealize.ShloMosaic.Lib.ValueIdx

namespace Cert.Proof.PoolValue

open scoped BigOperators
open Cert.ReferenceIdeal Cert.ReferenceIdeal.Gen Idealize.ShloMosaic Idealize.ShloMosaic.ValueIdx

theorem start8_0 (j : S50000x128.Idx) (idx : IVec S50000x1 32) :
    scatter_S64x128_S50000x1_S50000x128_1_0_0_1.start j idx (0 : Fin 2) = (idx (ix2 (j 0) (0 : Fin 1))).toInt := by
  unfold ScatterDims.start
  rw [dif_pos (show (0 : Fin S64x128.rank) ∈ scatter_S64x128_S50000x1_S50000x128_1_0_0_1.scatterDimsToOperandDims by decide)]
  refine congrArg (fun k => (idx k).toInt) (funext fun b => Fin.ext ?_)
  match b with
  | ⟨0, _⟩ => rfl
  | ⟨1, _⟩ => rfl

theorem start8_1 (j : S50000x128.Idx) (idx : IVec S50000x1 32) :
    scatter_S64x128_S50000x1_S50000x128_1_0_0_1.start j idx (1 : Fin 2) = 0 := by
  unfold ScatterDims.start
  rw [dif_neg (show ¬(1 : Fin S64x128.rank) ∈ scatter_S64x128_S50000x1_S50000x128_1_0_0_1.scatterDimsToOperandDims by decide)]

theorem window8_0 (j : S50000x128.Idx) : scatter_S64x128_S50000x1_S50000x128_1_0_0_1.window j (0 : Fin 2) = 0 := by
  unfold ScatterDims.window
  rw [dif_neg (show ¬(0 : Fin S64x128.rank) ∈ scatter_S64x128_S50000x1_S50000x128_1_0_0_1.sKept by decide)]

theorem window8_1 (j : S50000x128.Idx) : scatter_S64x128_S50000x1_S50000x128_1_0_0_1.window j (1 : Fin 2) = (j 1).val := by
  unfold ScatterDims.window
  rw [dif_pos (show (1 : Fin S64x128.rank) ∈ scatter_S64x128_S50000x1_S50000x128_1_0_0_1.sKept by decide)]
  rfl

/-- An update lands on `i` exactly when on every axis its window's start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hin
      have h2 : (d.start j idx a + (d.window j a : ℤ)).toNat = (i a).val :=
        congrArg (fun k : s.Idx => (k a).val) (Option.some.inj h)
      have := (hin a).1
      omega
    · exact absurd h (by simp)
  · intro h
    have hin : ∀ a, 0 ≤ d.start j idx a + (d.window j a : ℤ) ∧ d.start j idx a + (d.window j a : ℤ) < (s.size a : ℤ) := fun a => by
      have := (i a).isLt
      rw [h a]; omega
    rw [dif_pos hin]
    exact congrArg some (funext fun a => Fin.ext (by
      show (d.start j idx a + (d.window j a : ℤ)).toNat = (i a).val
      rw [h a]; omega))

theorem resultIdx8_eq_some_iff (j : S50000x128.Idx) (idx : IVec S50000x1 32) (g : Fin 64) (col : Fin 128) :
    scatter_S64x128_S50000x1_S50000x128_1_0_0_1.resultIdx? j idx = some (ix2 g col)
      ↔ (idx (ix2 (j 0) (0 : Fin 1))).toInt = (g.val : ℤ) ∧ (j 1).val = col.val := by
  rw [resultIdx?_eq_some_iff, Fin.forall_fin_two, start8_0, window8_0, start8_1, window8_1]
  show _ + ((0 : ℕ) : ℤ) = (g.val : ℤ) ∧ (0 : ℤ) + ((j 1).val : ℤ) = (col.val : ℤ) ↔ _
  omega

theorem resultIdx8_ix2 (n : Fin 50000) (b : Fin 128) (idx : IVec S50000x1 32) (g : Fin 64) (col : Fin 128) :
    scatter_S64x128_S50000x1_S50000x128_1_0_0_1.resultIdx? (ix2 n b) idx = some (ix2 g col)
      ↔ (idx (ix2 n (0 : Fin 1))).toInt = (g.val : ℤ) ∧ b = col := by
  rw [resultIdx8_eq_some_iff]
  exact ⟨fun h => ⟨h.1, Fin.ext h.2⟩, fun h => ⟨h.1, congrArg Fin.val h.2⟩⟩

/-- The updates landing on `(g, col)` are those of column `col` in the rows whose id, read signed, is `g`. -/
theorem scatterAdd8_apply (x : FVec Ideal S64x128 .f32) (idx : IVec S50000x1 32) (upd : FVec Ideal S50000x128 .f32)
    (g : Fin 64) (col : Fin 128) :
    Host.scatterAdd scatter_S64x128_S50000x1_S50000x128_1_0_0_1 x idx upd (ix2 g col)
      = x (ix2 g col)
        + ∑ n ∈ Finset.univ.filter (fun n : Fin 50000 => (idx (ix2 n (0 : Fin 1))).toInt = (g.val : ℤ)), upd (ix2 n col) := by
  show Ideal.hostScatterAdd scatter_S64x128_S50000x1_S50000x128_1_0_0_1 x idx upd (ix2 g col) = _
  unfold Ideal.hostScatterAdd
  refine congrArg (x (ix2 g col) + ·) ?_
  rw [Finset.sum_filter, sum_idx2, Finset.sum_filter]
  refine Finset.sum_congr rfl fun n _ => ?_
  simp only [resultIdx8_ix2]
  by_cases h : (idx (ix2 n (0 : Fin 1))).toInt = (g.val : ℤ)
  · rw [if_pos h]
    simp only [h, true_and]
    rw [Finset.sum_ite_eq']
    exact if_pos (Finset.mem_univ col)
  · rw [if_neg h]
    simp only [h, false_and, if_false]
    exact Finset.sum_const_zero

/-- Below 64 the signed reading of a 32-bit word is its value. -/
theorem toInt_eq_iff_eq_ofNat (x : BitVec 32) (g : Fin 64) : x.toInt = (g.val : ℤ) ↔ x = BitVec.ofNat 32 g.val := by
  have hg := g.isLt
  have hx := x.isLt
  constructor
  · intro h
    refine BitVec.eq_of_toNat_eq ?_
    rw [BitVec.toNat_ofNat]
    rw [BitVec.toInt_eq_toNat_cond] at h
    split at h <;> omega
  · rintro rfl
    rw [BitVec.toInt_eq_toNat_cond, BitVec.toNat_ofNat]
    have : g.val % 2 ^ 32 = g.val := Nat.mod_eq_of_lt (by omega)
    rw [this, if_pos (by omega)]

end Cert.Proof.PoolValue
-- ==== Proof.Val.Pool.lean ====
import proofs.«428859_j12661563588730_1_alg».proof.Proof.KI.Reg8
import proofs.«428859_j12661563588730_1_alg».proof.Proof.RefRead
import proofs.«428859_j12661563588730_1_alg».proof.Proof.Val.PoolSum
import proofs.«428859_j12661563588730_1_alg».proof.Proof.Val.PoolPay
import proofs.«428859_j12661563588730_1_alg».proof.Proof.Val.PoolRef

noncomputable section

namespace Cert.Proof.PoolValue

open scoped BigOperators
open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b))

theorem N8 : cfg8.N = 10 := by decide

theorem index8_0 : ∀ t : Fin grid8.N, win8_0.index t 0 = t.val ∧ win8_0.index t 1 = 0 := by decide +kernel
theorem index8_1 : ∀ t : Fin grid8.N, win8_1.index t 0 = t.val ∧ win8_1.index t 1 = 0 := by decide +kernel

theorem iblk8_0_apply (c : Dev nD) (t : Fin cfg8.N) (r : Fin 5000) (col : Fin 128) (n : Fin 50000)
    (hn : n.val = r.val + 5000 * t.val) :
    (iblk8 V c 0 t : Vec Ideal S5000x128 .f32) (ix2 r col) = V c main_v117 (ix2 n col) := by
  have hi := index8_0 t
  unfold iblk8
  rw [View.read_apply, cast_eq]
  show V c main_v117 _ = V c main_v117 _
  congr 1
  funext a
  apply Fin.ext
  match a with
  | ⟨0, _⟩ => show win8_0.index t 0 * 5000 + 1 * r.val = n.val; rw [hi.1]; omega
  | ⟨1, _⟩ => show win8_0.index t 1 * 128 + 1 * col.val = col.val; rw [hi.2]; omega

theorem iblk8_1_apply (c : Dev nD) (t : Fin cfg8.N) (r : Fin 5000) (n : Fin 50000)
    (hn : n.val = r.val + 5000 * t.val) :
    (iblk8 V c 1 t : Vec Ideal S5000x1 .i32) (ix2 r (0 : Fin 1)) = V c main_v118 (ix2 n (0 : Fin 1)) := by
  have hi := index8_1 t
  unfold iblk8
  rw [View.read_apply, cast_eq]
  show V c main_v118 _ = V c main_v118 _
  congr 1
  funext a
  apply Fin.ext
  match a with
  | ⟨0, _⟩ => show win8_1.index t 0 * 5000 + 1 * r.val = n.val; rw [hi.1]; omega
  | ⟨1, _⟩ => show win8_1.index t 1 * 1 + 1 * 0 = 0; rw [hi.2]

def idsOf (c : Dev nD) : Fin 50000 → BitVec 32 := fun n => V c main_v118 (ix2 n (0 : Fin 1))
def featCol (c : Dev nD) (col : Fin 128) : Fin 50000 → EReal := fun n => V c main_v117 (ix2 n col)

def blockTerm (ids : Fin 50000 → BitVec 32) (feat : Fin 50000 → EReal) (g : Fin 64) (t : ℕ) : EReal :=
  if h : t < 10 then
    ∑ r : Fin 5000, (if ids (blockRow ⟨t, h⟩ r) = BitVec.ofNat 32 g.val then (1 : EReal) else 0) * feat (blockRow ⟨t, h⟩ r)
  else 0

/-- By induction on `k`: step `k` adds block `k`'s sum. -/
theorem acc8_apply (c : Dev nD) (g : Fin 64) (col : Fin 128) :
    ∀ k : ℕ, k ≤ 10 → acc8 V c k (ix2 g col)
      = ∑ t ∈ Finset.range k, blockTerm (idsOf V c) (featCol V c col) g t
  | 0, _ => by rw [acc8_zero, k8_pay1_apply, Finset.range_zero, Finset.sum_empty]
  | k + 1, hk => by
    have h : k < cfg8.N := by rw [N8]; omega
    have h10 : k < 10 := by omega
    rw [acc8_succ V c k h, k8_pay2_apply, acc8_apply c g col k (by omega), Finset.sum_range_succ]
    refine congrArg (_ + ·) ?_
    unfold blockTerm idsOf featCol
    rw [dif_pos h10]
    refine Finset.sum_congr rfl fun r _ => ?_
    rw [iblk8_0_apply V c ⟨k, h⟩ r col (blockRow ⟨k, h10⟩ r) rfl, iblk8_1_apply V c ⟨k, h⟩ r (blockRow ⟨k, h10⟩ r) rfl]

theorem acc8_ten_apply (c : Dev nD) (g : Fin 64) (col : Fin 128) :
    acc8 V c 10 (ix2 g col)
      = ∑ n ∈ Finset.univ.filter (fun n : Fin 50000 => idsOf V c n = BitVec.ofNat 32 g.val), featCol V c col n := by
  rw [acc8_apply V c g col 10 (le_refl 10), ← sum_indicator_mul, sum_rows_eq_sum_blocks,
    ← Fin.sum_univ_eq_sum_range]
  refine Finset.sum_congr rfl fun t _ => ?_
  unfold blockTerm
  rw [dif_pos t.isLt]

theorem val183_apply (j : Cert.ReferenceIdeal.S64x128.Idx) : Cert.ReferenceIdeal.Read.val_main_v183 (F := Ideal) j = 0 := by
  rw [Cert.ReferenceIdeal.Read.val_main_v183_apply, Cert.ReferenceIdeal.Read.val_main_cst_12_apply]
  exact Ideal.ofBits_zero_f32

theorem val184_apply (x3 : (⟨Cert.ReferenceIdeal.S50000, .i32⟩ : BufTy).Contents (Elt Ideal)) (n : Fin 50000) :
    Cert.ReferenceIdeal.Read.val_main_v184 (F := Ideal) x3 (ix2 n (0 : Fin 1)) = x3 (ix1 n) := by
  rw [Cert.ReferenceIdeal.Read.val_main_v184_apply]
  refine congrArg x3 (funext fun a => ?_)
  match a with
  | ⟨0, _⟩ => rfl

/-- Both sides are, at `(g, col)`, the sum of column `col` over the rows whose id is `g`. -/
theorem val8
    (V : (c : Dev Cert.KernelIdeal.nD) → (b : Ref Cert.KernelIdeal.sig .tc) → Buf (Elt Ideal) ((c : Thread Cert.KernelIdeal.nD Cert.KernelIdeal.τ).loc b)) (c : Dev Cert.KernelIdeal.nD)
    (x3 : (⟨Cert.ReferenceIdeal.S50000, .i32⟩ : BufTy).Contents (Elt Ideal)) (hfeat : (⟨Cert.ReferenceIdeal.S50000x128, .f32⟩ : BufTy).Contents (Elt Ideal))
    (h117 : V c Cert.KernelIdeal.main_v117 = hfeat)
    (h118 : ∀ n : Fin 50000, V c Cert.KernelIdeal.main_v118 (ValueIdx.ix2 n (0 : Fin 1)) = x3 (ValueIdx.ix1 n)) :
    ((Cert.KernelIdeal.Hand.dat8 (F := Ideal) V c).arrAt 2 Cert.KernelIdeal.cfg8.N : (⟨Cert.ReferenceIdeal.S64x128, .f32⟩ : BufTy).Contents (Elt Ideal))
      = Host.scatterAdd (F := Ideal) (φ := .f32) Cert.ReferenceIdeal.scatter_S64x128_S50000x1_S50000x128_1_0_0_1 (Cert.ReferenceIdeal.Read.val_main_v183 (F := Ideal)) (Cert.ReferenceIdeal.Read.val_main_v184 (F := Ideal) x3) hfeat := by
  rw [arrAt8_2]
  funext j
  obtain ⟨g, col, rfl⟩ : ∃ (g : Fin 64) (col : Fin 128), j = ix2 g col := ⟨j 0, j 1, eq_ix2 j⟩
  rw [acc8_ten_apply, scatterAdd8_apply, val183_apply, zero_add]
  refine Finset.sum_congr (Finset.filter_congr fun n _ => ?_) fun n _ => ?_
  · unfold idsOf
    rw [val184_apply, h118, toInt_eq_iff_eq_ofNat]
  · unfold featCol
    rw [h117]

end Cert.Proof.PoolValue

end
-- ==== Proof.Val.Alg.lean ====
import proofs.«428859_j12661563588730_1_alg».proof.Proof.Val.AlgL7
import proofs.«428859_j12661563588730_1_alg».proof.Proof.Val.AlgHost
import proofs.«428859_j12661563588730_1_alg».proof.Proof.Val.Pool

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand Cert.ReferenceIdeal.Read

variable (m : (ℓ : Loc nD τ sig) → Buf (Elt Ideal) ℓ) (c : Dev nD)

-- The pooling region finds the last layer's features and the graph assignment as a column, and leaves the reference's per-graph sums.
theorem L8 : o17 m c = val_main_v185 (F := Ideal) (a0 m c) (a1 m c) (a2 m c) (a3 m c) (a4 m c) (a5 m c) (a6 m c) (a7 m c) (a8 m c) (a9 m c) (a10 m c) (a11 m c) (a12 m c) (a13 m c) (a14 m c) (a15 m c) := by
  unfold o17
  exact (Cert.Proof.PoolValue.val8 (atRefs (N16 m)) c (a3 m c) _ ((host8_v117 (N15 m c)).trans ((Function.update_self _ _ _).trans (L7 m c)))
    fun n => (host8_v118 (N15 m c) n).trans (congrFun ((E15 m c).arg main_arg3 (by decide)) _)).trans rfl

theorem E17 : Entry m c (N17 m c) := (E15 m c).step hostOps8 hostOps8_writes main_v119 (by decide) _

-- The last stretch is the reference's last operations on those sums and the arguments.
theorem L9 : N18 m c Cert.KernelIdeal.main_v133 = val_main_v195 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) :=
  (host9_v133 (N17 m c) ((Function.update_self _ _ _).trans (L8 m c)) ((E17 m c).arg main_arg3 (by decide))
    ((E17 m c).arg main_arg16 (by decide)) ((E17 m c).arg main_arg17 (by decide))).trans rfl

end Cert.Proof.Alg

end
-- ==== Proof.lean ====
import proofs.«428859_j12661563588730_1_alg».proof.Defs
import proofs.«428859_j12661563588730_1_alg».proof.Proof.Gen.Kernel
import proofs.«428859_j12661563588730_1_alg».proof.Proof.Gen.KernelIdeal
import proofs.«428859_j12661563588730_1_alg».proof.Proof.Gen.ReferenceIdeal
import proofs.«428859_j12661563588730_1_alg».proof.Proof.Gen.Pre_finite_inputs
import proofs.«428859_j12661563588730_1_alg».proof.Proof.KB.Run
import proofs.«428859_j12661563588730_1_alg».proof.Proof.KI.Run
import proofs.«428859_j12661563588730_1_alg».proof.Proof.Ref.Run
import proofs.«428859_j12661563588730_1_alg».proof.Proof.Val.Alg

set_option maxRecDepth 16384

noncomputable section

namespace Cert.Proof

open Idealize.ShloMosaic Idealize.ShloMosaic.TcCoe Idealize.SL.Sem

theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.N18 m c Cert.KernelIdeal.main_v133, Cert.KernelIdeal.Hand.run_main (F := Ideal) m ρ, ?_⟩
  refine (θ_run Cert.ReferenceIdeal.defs _ _).mono (fun _ h c => ⟨(h c).1.trans ?_, (h c).2⟩) (Cert.Proof.RefRun.run (F := Ideal) m' ρ')
  obtain ⟨h0, h1, h2, h3, h4, h5, h6, h7, h8, h9, h10, h11, h12, h13, h14, h15, h16, h17⟩ := hagree c
  show _ = Cert.KernelIdeal.Hand.N18 m c Cert.KernelIdeal.main_v133
  rw [Cert.Proof.Alg.L9 m c, h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.Proof.RefRun.run (F := Ideal) m ρ),
  trivial,
  algebraic⟩

end Cert.Proof

end
